-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v83)) (v2 : (c : Dev Cert.KernelIdeal.nD) → Buf (Elt Ideal) ((c.tc : Thread Cert.KernelIdeal.nD Cert.KernelIdeal.τ).loc Cert.KernelIdeal.main_v53)) (v3 : (c : Dev Cert.KernelIdeal.nD) → Buf (Elt Ideal) ((c.tc : Thread Cert.KernelIdeal.nD Cert.KernelIdeal.τ).loc Cert.KernelIdeal.main_arg15)) (v4 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg15) = v3 c
          ∧ r.2.mem ((c.tc : Thread Cert.KernelIdeal.nD Cert.KernelIdeal.τ).loc Cert.KernelIdeal.main_v80) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg15) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x30000 : Shape := ⟨2, ![2048, 30000]⟩
abbrev S2048x64 : Shape := ⟨2, ![2048, 64]⟩
abbrev S1024x30000 : Shape := ⟨2, ![1024, 30000]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S512x64 : Shape := ⟨2, ![512, 64]⟩
abbrev S512x300 : Shape := ⟨2, ![512, 300]⟩
abbrev S30000x300 : Shape := ⟨2, ![30000, 300]⟩
abbrev S_ : Shape := ⟨0, ![]⟩

class Facts : Prop where
  bcast_S_S2048x30000 : S_.BroadcastsInDim S2048x30000 (![] : Fin 0 → Fin S2048x30000.rank)
  reducesTo_S2048x30000_S_d0_1 : S2048x30000.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S1024x30000 : S_.BroadcastsInDim S1024x30000 (![] : Fin 0 → Fin S1024x30000.rank)
  reducesTo_S1024x30000_S_d0_1 : S1024x30000.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512x300 : S_.BroadcastsInDim S512x300 (![] : Fin 0 → Fin S512x300.rank)
  reducesTo_S512x300_S_d0_1 : S512x300.ReducesTo [0, 1] S_
  bcast_S_S30000x300 : S_.BroadcastsInDim S30000x300 (![] : Fin 0 → Fin S30000x300.rank)
  reducesTo_S30000x300_S_d0_1 : S30000x300.ReducesTo [0, 1] S_

variable [Facts]

def fn_part5 {F : FTy → Type} [FloatOps F] (main_v83 : IVec S_ 1) (main_v84 : FVec F S30000x300 .f32) (main_cst_32 : FVec F S_ .f32) : IVec S_ 1 :=
  let main_v85 : FVec F S30000x300 .f32 := broadcastInDim S30000x300 ![] bcast_S_S30000x300 main_cst_32
  let main_v86 : IVec S30000x300 1 := cmpf .olt main_v84 main_v85
  let main_c_33 : IVec S_ 1 := constantI S_ 1 1#1
  let main_v87 : IVec S_ 1 := (fun x v => Host.reduce IntOp.andi x v reducesTo_S30000x300_S_d0_1 h_S_) main_v86 main_c_33
  let main_v88 : IVec S_ 1 := andi main_v83 main_v87
  main_v88

def fn_part4 {F : FTy → Type} [FloatOps F] (main_arg14 : FVec F S64 .f32) (main_arg15 : FVec F S512x64 .f32) (main_arg16 : FVec F S512x300 .f32) (main_arg17 : FVec F S30000x300 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S512x64 .f32 := Host.absf main_arg15
  let main_cst_28 : FVec F S_ .f32 := constant S_ .f32 0x7F800000#32
  let main_v75 : FVec F S512x64 .f32 := broadcastInDim S512x64 ![] bcast_S_S512x64 main_cst_28
  let main_v76 : IVec S512x64 1 := cmpf .olt main_v74 main_v75
  let main_c_29 : IVec S_ 1 := constantI S_ 1 1#1
  let main_v77 : IVec S_ 1 := (fun x v => Host.reduce IntOp.andi x v reducesTo_S512x64_S_d0_1 h_S_) main_v76 main_c_29
  let main_v78 : IVec S_ 1 := andi main_v73 main_v77
  let main_v79 : FVec F S512x300 .f32 := Host.absf main_arg16
  let main_cst_30 : FVec F S_ .f32 := constant S_ .f32 0x7F800000#32
  let main_v80 : FVec F S512x300 .f32 := broadcastInDim S512x300 ![] bcast_S_S512x300 main_cst_30
  let main_v81 : IVec S512x300 1 := cmpf .olt main_v79 main_v80
  let main_c_31 : IVec S_ 1 := constantI S_ 1 1#1
  let main_v82 : IVec S_ 1 := (fun x v => Host.reduce IntOp.andi x v reducesTo_S512x300_S_d0_1 h_S_) main_v81 main_c_31
  let main_v83 : IVec S_ 1 := andi main_v78 main_v82
  let main_v84 : FVec F S30000x300 .f32 := Host.absf main_arg17
  let main_cst_32 : FVec F S_ .f32 := constant S_ .f32 0x7F800000#32
  fn_part5 (F := F) main_v83 main_v84 main_cst_32

def fn_part3 {F : FTy → Type} [FloatOps F] (main_arg11 : FVec F S64 .f32) (main_arg12 : FVec F S64 .f32) (main_arg13 : FVec F S64 .f32) (main_arg14 : FVec F S64 .f32) (main_arg15 : FVec F S512x64 .f32) (main_arg16 : FVec F S512x300 .f32) (main_arg17 : FVec F S30000x300 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S64x1024 .f32) (main_arg8 : FVec F S64 .f32) (main_arg9 : FVec F S64x1024 .f32) (main_arg10 : FVec F S64 .f32) (main_arg11 : FVec F S64 .f32) (main_arg12 : FVec F S64 .f32) (main_arg13 : FVec F S64 .f32) (main_arg14 : FVec F S64 .f32) (main_arg15 : FVec F S512x64 .f32) (main_arg16 : FVec F S512x300 .f32) (main_arg17 : FVec F S30000x300 .f32) (main_v33 : IVec S_ 1) : IVec S_ 1 :=
  let main_v34 : FVec F S64x1024 .f32 := Host.absf main_arg7
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1024 .f32 := Host.absf main_arg9
  let main_cst_16 : FVec F S_ .f32 := constant S_ .f32 0x7F800000#32
  let main_v45 : FVec F S64x1024 .f32 := broadcastInDim S64x1024 ![] bcast_S_S64x1024 main_cst_16
  let main_v46 : IVec S64x1024 1 := cmpf .olt main_v44 main_v45
  let main_c_17 : IVec S_ 1 := constantI S_ 1 1#1
  let main_v47 : IVec S_ 1 := (fun x v => Host.reduce IntOp.andi x v reducesTo_S64x1024_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_v48 main_v49 main_v50

def fn_part1 {F : FTy → Type} [FloatOps F] (main_arg4 : FVec F S1024 .f32) (main_arg5 : FVec F S1024x1024 .f32) (main_arg6 : FVec F S1024 .f32) (main_arg7 : FVec F S64x1024 .f32) (main_arg8 : FVec F S64 .f32) (main_arg9 : FVec F S64x1024 .f32) (main_arg10 : FVec F S64 .f32) (main_arg11 : FVec F S64 .f32) (main_arg12 : FVec F S64 .f32) (main_arg13 : FVec F S64 .f32) (main_arg14 : FVec F S64 .f32) (main_arg15 : FVec F S512x64 .f32) (main_arg16 : FVec F S512x300 .f32) (main_arg17 : FVec F S30000x300 .f32) (main_v13 : IVec S_ 1) (main_v16 : IVec S1024x30000 1) : IVec S_ 1 :=
  let main_c_5 : IVec S_ 1 := constantI S_ 1 1#1
  let main_v17 : IVec S_ 1 := (fun x v => Host.reduce IntOp.andi x v reducesTo_S1024x30000_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S2048x30000 .f32) (main_arg1 : FVec F S2048x30000 .f32) (main_arg2 : FVec F S2048x64 .f32) (main_arg3 : FVec F S1024x30000 .f32) (main_arg4 : FVec F S1024 .f32) (main_arg5 : FVec F S1024x1024 .f32) (main_arg6 : FVec F S1024 .f32) (main_arg7 : FVec F S64x1024 .f32) (main_arg8 : FVec F S64 .f32) (main_arg9 : FVec F S64x1024 .f32) (main_arg10 : FVec F S64 .f32) (main_arg11 : FVec F S64 .f32) (main_arg12 : FVec F S64 .f32) (main_arg13 : FVec F S64 .f32) (main_arg14 : FVec F S64 .f32) (main_arg15 : FVec F S512x64 .f32) (main_arg16 : FVec F S512x300 .f32) (main_arg17 : FVec F S30000x300 .f32) : IVec S_ 1 :=
  let main_v0 : FVec F S2048x30000 .f32 := Host.absf main_arg0
  let main_cst : FVec F S_ .f32 := constant S_ .f32 0x7F800000#32
  let main_v1 : FVec F S2048x30000 .f32 := broadcastInDim S2048x30000 ![] bcast_S_S2048x30000 main_cst
  let main_v2 : IVec S2048x30000 1 := cmpf .olt main_v0 main_v1
  let main_c : IVec S_ 1 := constantI S_ 1 1#1
  let main_v3 : IVec S_ 1 := (fun x v => Host.reduce IntOp.andi x v reducesTo_S2048x30000_S_d0_1 h_S_) main_v2 main_c
  let main_v4 : FVec F S2048x30000 .f32 := Host.absf main_arg1
  let main_cst_0 : FVec F S_ .f32 := constant S_ .f32 0x7F800000#32
  let main_v5 : FVec F S2048x30000 .f32 := broadcastInDim S2048x30000 ![] bcast_S_S2048x30000 main_cst_0
  let main_v6 : IVec S2048x30000 1 := cmpf .olt main_v4 main_v5
  let main_c_1 : IVec S_ 1 := constantI S_ 1 1#1
  let main_v7 : IVec S_ 1 := (fun x v => Host.reduce IntOp.andi x v reducesTo_S2048x30000_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S1024x30000 .f32 := Host.absf main_arg3
  let main_cst_4 : FVec F S_ .f32 := constant S_ .f32 0x7F800000#32
  let main_v15 : FVec F S1024x30000 .f32 := broadcastInDim S1024x30000 ![] bcast_S_S1024x30000 main_cst_4
  let main_v16 : IVec S1024x30000 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S2048x30000 : Shape := ⟨2, ![2048, 30000]⟩
abbrev S2048x64 : Shape := ⟨2, ![2048, 64]⟩
abbrev S1024x30000 : Shape := ⟨2, ![1024, 30000]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S512x64 : Shape := ⟨2, ![512, 64]⟩
abbrev S512x300 : Shape := ⟨2, ![512, 300]⟩
abbrev S30000x300 : Shape := ⟨2, ![30000, 300]⟩
abbrev S2048x1024 : Shape := ⟨2, ![2048, 1024]⟩
abbrev S512x1024 : Shape := ⟨2, ![512, 1024]⟩
abbrev S1x1024 : Shape := ⟨2, ![1, 1024]⟩
abbrev S1024x64 : Shape := ⟨2, ![1024, 64]⟩
abbrev S1x64 : Shape := ⟨2, ![1, 64]⟩
abbrev S_ : Shape := ⟨0, ![]⟩
abbrev S2048 : Shape := ⟨1, ![2048]⟩
abbrev S2048x1 : Shape := ⟨2, ![2048, 1]⟩
abbrev S512 : Shape := ⟨1, ![512]⟩
abbrev S1x512 : Shape := ⟨2, ![1, 512]⟩
abbrev S2048x512 : Shape := ⟨2, ![2048, 512]⟩
abbrev S64x512 : Shape := ⟨2, ![64, 512]⟩
abbrev S512x1 : Shape := ⟨2, ![512, 1]⟩
abbrev S256x300 : Shape := ⟨2, ![256, 300]⟩
abbrev S640x300 : Shape := ⟨2, ![640, 300]⟩
abbrev S256x1 : Shape := ⟨2, ![256, 1]⟩
abbrev S256x640 : Shape := ⟨2, ![256, 640]⟩
abbrev S256 : Shape := ⟨1, ![256]⟩
abbrev S2048x640 : Shape := ⟨2, ![2048, 640]⟩
abbrev S512x640 : Shape := ⟨2, ![512, 640]⟩

abbrev nBuf : Space → Nat
  | .hbm => 160
  | .vmem => 33
  | .smem => 0
  | _ => 0

abbrev hbmTy0_0 (i : Nat) : BufTy := match i % 128 with
  | 0 => ⟨S2048x30000, .f32⟩
  | 1 => ⟨S2048x30000, .f32⟩
  | 2 => ⟨S2048x64, .f32⟩
  | 3 => ⟨S1024x30000, .f32⟩
  | 4 => ⟨S1024, .f32⟩
  | 5 => ⟨S1024x1024, .f32⟩
  | 6 => ⟨S1024, .f32⟩
  | 7 => ⟨S64x1024, .f32⟩
  | 8 => ⟨S64, .f32⟩
  | 9 => ⟨S64x1024, .f32⟩
  | 10 => ⟨S64, .f32⟩
  | 11 => ⟨S64, .f32⟩
  | 12 => ⟨S64, .f32⟩
  | 13 => ⟨S64, .f32⟩
  | 14 => ⟨S64, .f32⟩
  | 15 => ⟨S512x64, .f32⟩
  | 16 => ⟨S512x300, .f32⟩
  | 17 => ⟨S30000x300, .f32⟩
  | 18 => ⟨S2048x1024, .f32⟩
  | 19 => ⟨S2048x1024, .f32⟩
  | 20 => ⟨S1024x64, .f32⟩
  | 21 => ⟨S2048x64, .f32⟩
  | 22 => ⟨S1x64, .f32⟩
  | 23 => ⟨S2048x64, .f32⟩
  | 24 => ⟨S2048x64, .f32⟩
  | 25 => ⟨S1024x64, .f32⟩
  | 26 => ⟨S2048x64, .f32⟩
  | 27 => ⟨S1x64, .f32⟩
  | 28 => ⟨S2048x64, .f32⟩
  | 29 => ⟨S2048x64, .f32⟩
  | 30 => ⟨S_, .f32⟩
  | 31 => ⟨S64, .f32⟩
  | 32 => ⟨S_, .f32⟩
  | 33 => ⟨S64, .f32⟩
  | 34 => ⟨S64, .f32⟩
  | 35 => ⟨S_, .i32⟩
  | 36 => ⟨S_, .f32⟩
  | 37 => ⟨S64, .f32⟩
  | 38 => ⟨S1x64, .f32⟩
  | 39 => ⟨S_, .f32⟩
  | 40 => ⟨S1x64, .f32⟩
  | 41 => ⟨S1x64, .f32⟩
  | 42 => ⟨S2048x64, .f32⟩
  | 43 => ⟨S2048x64, .f32⟩
  | 44 => ⟨S2048x64, .f32⟩
  | 45 => ⟨S_, .f32⟩
  | 46 => ⟨S_, .f32⟩
  | 47 => ⟨S_, .f32⟩
  | 48 => ⟨S_, .f32⟩
  | 49 => ⟨S64, .f32⟩
  | 50 => ⟨S64, .f32⟩
  | 51 => ⟨S64, .f32⟩
  | 52 => ⟨S_, .f32⟩
  | 53 => ⟨S_, .i1⟩
  | 54 => ⟨S_, .f32⟩
  | 55 => ⟨S_, .f32⟩
  | 56 => ⟨S64, .f32⟩
  | 57 => ⟨S64, .f32⟩
  | 58 => ⟨S1x64, .f32⟩
  | 59 => ⟨S2048x64, .f32⟩
  | 60 => ⟨S2048x64, .f32⟩
  | 61 => ⟨S_, .f32⟩
  | 62 => ⟨S64, .f32⟩
  | 63 => ⟨S64, .f32⟩
  | 64 => ⟨S64, .f32⟩
  | 65 => ⟨S1x64, .f32⟩
  | 66 => ⟨S2048x64, .f32⟩
  | 67 => ⟨S2048x64, .f32⟩
  | 68 => ⟨S1x64, .f32⟩
  | 69 => ⟨S2048x64, .f32⟩
  | 70 => ⟨S2048x64, .f32⟩
  | 71 => ⟨S1x64, .f32⟩
  | 72 => ⟨S2048x64, .f32⟩
  | 73 => ⟨S2048x64, .f32⟩
  | 74 => ⟨S_, .f32⟩
  | 75 => ⟨S64, .f32⟩
  | 76 => ⟨S_, .f32⟩
  | 77 => ⟨S64, .f32⟩
  | 78 => ⟨S64, .f32⟩
  | 79 => ⟨S_, .i32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S2048x64, .f32⟩
  | 87 => ⟨S2048x64, .f32⟩
  | 88 => ⟨S2048x64, .f32⟩
  | 89 => ⟨S_, .f32⟩
  | 90 => ⟨S_, .f32⟩
  | 91 => ⟨S_, .f32⟩
  | 92 => ⟨S_, .f32⟩
  | 93 => ⟨S64, .f32⟩
  | 94 => ⟨S64, .f32⟩
  | 95 => ⟨S64, .f32⟩
  | 96 => ⟨S_, .f32⟩
  | 97 => ⟨S_, .i1⟩
  | 98 => ⟨S_, .f32⟩
  | 99 => ⟨S_, .f32⟩
  | 100 => ⟨S64, .f32⟩
  | 101 => ⟨S64, .f32⟩
  | 102 => ⟨S1x64, .f32⟩
  | 103 => ⟨S2048x64, .f32⟩
  | 104 => ⟨S2048x64, .f32⟩
  | 105 => ⟨S_, .f32⟩
  | 106 => ⟨S64, .f32⟩
  | 107 => ⟨S64, .f32⟩
  | 108 => ⟨S64, .f32⟩
  | 109 => ⟨S1x64, .f32⟩
  | 110 => ⟨S2048x64, .f32⟩
  | 111 => ⟨S2048x64, .f32⟩
  | 112 => ⟨S1x64, .f32⟩
  | 113 => ⟨S2048x64, .f32⟩
  | 114 => ⟨S2048x64, .f32⟩
  | 115 => ⟨S1x64, .f32⟩
  | 116 => ⟨S2048x64, .f32⟩
  | 117 => ⟨S2048x64, .f32⟩
  | 118 => ⟨S2048x64, .f32⟩
  | 119 => ⟨S2048x64, .f32⟩
  | 120 => ⟨S2048x64, .f32⟩
  | 121 => ⟨S2048x64, .f32⟩
  | 122 => ⟨S2048x64, .f32⟩
  | 123 => ⟨S_, .f32⟩
  | 124 => ⟨S2048, .f32⟩
  | 125 => ⟨S2048x1, .f32⟩
  | 126 => ⟨S512x64, .f32⟩
  | 127 => ⟨S_, .f32⟩
  | _ => ⟨S2048x30000, .f32⟩

abbrev hbmTy0_1 (i : Nat) : BufTy := match i % 128 with
  | 0 => ⟨S512, .f32⟩
  | 1 => ⟨S1x512, .f32⟩
  | 2 => ⟨S2048x512, .f32⟩
  | 3 => ⟨S2048x512, .f32⟩
  | 4 => ⟨S2048x512, .f32⟩
  | 5 => ⟨S64x512, .f32⟩
  | 6 => ⟨S2048x512, .f32⟩
  | 7 => ⟨S_, .f32⟩
  | 8 => ⟨S2048x512, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S_, .f32⟩
  | 15 => ⟨S2048, .f32⟩
  | 16 => ⟨S_, .f32⟩
  | 17 => ⟨S2048, .f32⟩
  | 18 => ⟨S2048, .f32⟩
  | 19 => ⟨S2048x1, .f32⟩
  | 20 => ⟨S2048x512, .f32⟩
  | 21 => ⟨S2048x512, .f32⟩
  | 22 => ⟨S2048x512, .f32⟩
  | 23 => ⟨S_, .f32⟩
  | 24 => ⟨S2048, .f32⟩
  | 25 => ⟨S2048x1, .f32⟩
  | 26 => ⟨S2048x512, .f32⟩
  | 27 => ⟨S2048x512, .f32⟩
  | 28 => ⟨S512x1, .f32⟩
  | 29 => ⟨S512x1, .f32⟩
  | 30 => ⟨S2048x512, .bf16⟩
  | 31 => ⟨S2048x30000, .f32⟩
  | _ => ⟨S2048x30000, .f32⟩

abbrev hbmTy (i : Nat) : BufTy := match i / 128 with
  | 0 => hbmTy0_0 i
  | 1 => hbmTy0_1 i
  | _ => ⟨S2048x30000, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .f32⟩
  | .local _ .vmem, ⟨11, _⟩ => ⟨S1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S256x300, .f32⟩
  | .local _ .vmem, ⟨16, _⟩ => ⟨S256x300, .f32⟩
  | .local _ .vmem, ⟨17, _⟩ => ⟨S640x300, .f32⟩
  | .local _ .vmem, ⟨18, _⟩ => ⟨S640x300, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S512x300, .f32⟩
  | .local _ .vmem, ⟨26, _⟩ => ⟨S640x300, .f32⟩
  | .local _ .vmem, ⟨27, _⟩ => ⟨S640x300, .f32⟩
  | .local _ .vmem, ⟨28, _⟩ => ⟨S512x1, .f32⟩
  | .local _ .vmem, ⟨29, _⟩ => ⟨S512x1, .f32⟩
  | .local _ .vmem, ⟨30, _⟩ => ⟨S2048x512, .bf16⟩
  | .local _ .vmem, ⟨31, _⟩ => ⟨S2048x640, .f32⟩
  | .local _ .vmem, ⟨32, _⟩ => ⟨S2048x640, .f32⟩
  | _, _ => ⟨S2048x30000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_1 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_2 : Ref sig .tc := ⟨.hbm, 74, rfl⟩
abbrev main_v31 : Ref sig .tc := ⟨.hbm, 75, rfl⟩
abbrev main_cst_3 : Ref sig .tc := ⟨.hbm, 76, rfl⟩
abbrev main_v32 : Ref sig .tc := ⟨.hbm, 77, rfl⟩
abbrev main_v33 : Ref sig .tc := ⟨.hbm, 78, rfl⟩
abbrev main_c_4 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_cst_5 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_cst_6 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_cst_7 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_cst_8 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_cst_9 : Ref sig .tc := ⟨.hbm, 139, rfl⟩
abbrev main_v68 : Ref sig .tc := ⟨.hbm, 140, rfl⟩
abbrev main_v69 : Ref sig .tc := ⟨.hbm, 141, rfl⟩
abbrev main_cst_10 : Ref sig .tc := ⟨.hbm, 142, rfl⟩
abbrev main_v70 : Ref sig .tc := ⟨.hbm, 143, rfl⟩
abbrev main_cst_11 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_cst_12 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81_0 : Ref sig .tc := ⟨.hbm, 156, rfl⟩
abbrev main_v81_1 : Ref sig .tc := ⟨.hbm, 157, rfl⟩
abbrev main_v82 : Ref sig .tc := ⟨.hbm, 158, rfl⟩
abbrev main_v83 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc2_scratch1 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem5_1 : DmaSem sig := 28

abbrev nD : Nat := 1
abbrev τ : Topo := Topo.v7x

variable {F : FTy → Type} [FloatOps F]

abbrev grid0 : Pipeline.Grid := ⟨3, ![4, 1, 30], ![false, false, false]⟩

def k0_cond2 (i : grid0.Coords) : BitVec 1 :=
  let arg2 : BitVec 32 := BitVec.ofNat 32 (i 2).val
  let c29_i32 : BitVec 32 := 29#32
  let v21 : BitVec 1 := Scalar.cmpi .eq arg2 c29_i32
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 1, 1], ![false, false, false]⟩

def k1_cond2 (i : grid1.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![2, 47], ![false, false]⟩

def k2_cond2 (i : grid2.Coords) : BitVec 1 :=
  let arg1 : BitVec 32 := BitVec.ofNat 32 (i 1).val
  let c46_i32 : BitVec 32 := 46#32
  let v39 : BitVec 1 := Scalar.cmpi .eq arg1 c46_i32
  let v40 : BitVec 32 := Scalar.extui v39
  let c0_i32_18 : BitVec 32 := 0#32
  let v41 : BitVec 1 := Scalar.cmpi .ne v40 c0_i32_18
  v41

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S640x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![47], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S512x300 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S640x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x640 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S512x1024_d1_w32 : S512x1024.Iotas .tc 32 [1]
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  transposes_S64x1024_S1024x64_1_0 : S64x1024.Transposes [1, 0] S1024x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  reducesTo_S2048x64_S64_d0 : S2048x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  reducesTo_S2048x64_S2048_d1 : S2048x64.ReducesTo [1] S2048
  bcast_S2048_S2048x1_0 : S2048.BroadcastsInDim S2048x1 (![0] : Fin 1 → Fin S2048x1.rank)
  reducesTo_S512x64_S512_d1 : S512x64.ReducesTo [1] S512
  bcast_S512_S1x512_1 : S512.BroadcastsInDim S1x512 (![1] : Fin 1 → Fin S1x512.rank)
  bcast_S2048x1_S2048x512_0_1 : S2048x1.BroadcastsInDim S2048x512 (![0, 1] : Fin 2 → Fin S2048x512.rank)
  bcast_S1x512_S2048x512_0_1 : S1x512.BroadcastsInDim S2048x512 (![0, 1] : Fin 2 → Fin S2048x512.rank)
  transposes_S512x64_S64x512_1_0 : S512x64.Transposes [1, 0] S64x512
  bcast_S_S2048x512 : S_.BroadcastsInDim S2048x512 (![] : Fin 0 → Fin S2048x512.rank)
  reducesTo_S2048x512_S2048_d1 : S2048x512.ReducesTo [1] S2048
  bcast_S_S2048 : S_.BroadcastsInDim S2048 (![] : Fin 0 → Fin S2048.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x300_S256x300_0_0 : ∀ a, (![0, 0] : Fin 2 → Nat) a + S256x300.size a ≤ S256x300.size a
  h_S256x300 : 0 < S256x300.numel
  inb_S640x300_S640x300_0_0 : ∀ a, (![0, 0] : Fin 2 → Nat) a + S640x300.size a ≤ S640x300.size a
  h_S640x300 : 0 < S640x300.numel
  iota_S256x640_d1_w32 : S256x640.Iotas .tc 32 [1]
  reduces_S256x640_S256 : S256x640.Reduces [1] S256
  shapeCasts_S256_S256x1 : S256.ShapeCasts S256x1
  broadcasts_S256x1_S256x640 : S256x1.Broadcasts S256x640
  inb_S512x300_S512x300_0_0 : ∀ a, (![0, 0] : Fin 2 → Nat) a + S512x300.size a ≤ S512x300.size a
  h_S512x300 : 0 < S512x300.numel
  iota_S512x640_d1_w32 : S512x640.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x640 : S512x1.Broadcasts S512x640
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x640_S2048x640_0_0 : ∀ a, (![0, 0] : Fin 2 → Nat) a + S2048x640.size a ≤ S2048x640.size a
  h_S2048x640 : 0 < S2048x640.numel
  dot_S512x1024_S1024x1024_S512x1024_1_1_0_0_n_n_wf : DotDims.WF S512x1024 S1024x1024 S512x1024 [1] [1] [0] [0] [] []
  dot_S2048x1024_S1024x64_S2048x64_1_0_0_1_n_n_wf : DotDims.WF S2048x1024 S1024x64 S2048x64 [1] [0] [0] [1] [] []
  dot_S2048x64_S64x512_S2048x512_1_0_0_1_n_n_wf : DotDims.WF S2048x64 S64x512 S2048x512 [1] [0] [0] [1] [] []
  dot_S256x300_S640x300_S256x640_1_1_0_0_n_n_wf : DotDims.WF S256x300 S640x300 S256x640 [1] [1] [0] [0] [] []
  dot_S512x300_S640x300_S512x640_1_1_0_0_n_n_wf : DotDims.WF S512x300 S640x300 S512x640 [1] [1] [0] [0] [] []
  dot_S2048x512_S512x640_S2048x640_1_0_0_1_n_n_wf : DotDims.WF S2048x512 S512x640 S2048x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x1024.size a < S2048x30000.size a
  hwx0_0 : ∀ i : grid0.Coords, EltTy.bits .f32 = 32 ∨ (Rect.unit (s := S2048x30000) (fun a => cc0_transform_0 i a * S512x1024.size a) (fun a => (Pipeline.Clip.of (cc0_transform_0 i a) (S512x1024.size a) (S2048x30000.size a)).extent (S512x1024.size a)) fun a => Pipeline.Clip.inb (Pipeline.Clip.ok_of (hstart0_0 i a))).WholeWords (EltTy.packing .f32)
  hwxs0_0 : ∀ i : grid0.Coords, EltTy.bits .f32 = 32 ∨ (Rect.unit (s := S512x1024) (fun _ => 0) (fun a => (Pipeline.Clip.of (cc0_transform_0 i a) (S512x1024.size a) (S2048x30000.size a)).extent (S512x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S1024x30000.size a
  hwx0_1 : ∀ i : grid0.Coords, EltTy.bits .f32 = 32 ∨ (Rect.unit (s := S1024x30000) (fun a => cc0_transform_1 i a * S1024x1024.size a) (fun a => (Pipeline.Clip.of (cc0_transform_1 i a) (S1024x1024.size a) (S1024x30000.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S1024x30000.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x1024.size a
  hwx0_3 : ∀ i : grid0.Coords, EltTy.bits .f32 = 32 ∨ (Rect.block (s := S2048x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .f32 = 32 ∨ (Rect.block (s := S2048x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S2048x1024.size a
  hwx1_3 : ∀ i : grid1.Coords, EltTy.bits .f32 = 32 ∨ (Rect.block (s := S2048x1024) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x300.size a ≤ S512x300.size a
  hwx2_0 : ∀ i : grid2.Coords, EltTy.bits .f32 = 32 ∨ (Rect.block (s := S512x300) S256x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S640x300.size a < S30000x300.size a
  hwx2_1 : ∀ i : grid2.Coords, EltTy.bits .f32 = 32 ∨ (Rect.unit (s := S30000x300) (fun a => cc2_transform_1 i a * S640x300.size a) (fun a => (Pipeline.Clip.of (cc2_transform_1 i a) (S640x300.size a) (S30000x300.size a)).extent (S640x300.size a)) fun a => Pipeline.Clip.inb (Pipeline.Clip.ok_of (hstart2_1 i a))).WholeWords (EltTy.packing .f32)
  hwxs2_1 : ∀ i : grid2.Coords, EltTy.bits .f32 = 32 ∨ (Rect.unit (s := S640x300) (fun _ => 0) (fun a => (Pipeline.Clip.of (cc2_transform_1 i a) (S640x300.size a) (S30000x300.size a)).extent (S640x300.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S512x1.size a
  hwx2_2 : ∀ i : grid2.Coords, EltTy.bits .f32 = 32 ∨ (Rect.block (s := S512x1) S256x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S512x1.size a
  hwx2_3 : ∀ i : grid2.Coords, EltTy.bits .f32 = 32 ∨ (Rect.block (s := S512x1) S256x1.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x300.size a ≤ S512x300.size a
  hwx3_0 : ∀ i : grid3.Coords, EltTy.bits .f32 = 32 ∨ (Rect.block (s := S512x300) S512x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S640x300.size a < S30000x300.size a
  hwx3_1 : ∀ i : grid3.Coords, EltTy.bits .f32 = 32 ∨ (Rect.unit (s := S30000x300) (fun a => cc3_transform_1 i a * S640x300.size a) (fun a => (Pipeline.Clip.of (cc3_transform_1 i a) (S640x300.size a) (S30000x300.size a)).extent (S640x300.size a)) fun a => Pipeline.Clip.inb (Pipeline.Clip.ok_of (hstart3_1 i a))).WholeWords (EltTy.packing .f32)
  hwxs3_1 : ∀ i : grid3.Coords, EltTy.bits .f32 = 32 ∨ (Rect.unit (s := S640x300) (fun _ => 0) (fun a => (Pipeline.Clip.of (cc3_transform_1 i a) (S640x300.size a) (S30000x300.size a)).extent (S640x300.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x1.size a ≤ S512x1.size a
  hwx3_2 : ∀ i : grid3.Coords, EltTy.bits .f32 = 32 ∨ (Rect.block (s := S512x1) S512x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x1.size a ≤ S512x1.size a
  hwx3_3 : ∀ i : grid3.Coords, EltTy.bits .f32 = 32 ∨ (Rect.block (s := S512x1) S512x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x512.size a ≤ S2048x512.size a
  hwx3_4 : ∀ i : grid3.Coords, EltTy.bits .bf16 = 32 ∨ (Rect.block (s := S2048x512) S2048x512.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hstart3_5 : ∀ (i : grid3.Coords) a, cc3_transform_5 i a * S2048x640.size a < S2048x30000.size a
  hwx3_5 : ∀ i : grid3.Coords, EltTy.bits .f32 = 32 ∨ (Rect.unit (s := S2048x30000) (fun a => cc3_transform_5 i a * S2048x640.size a) (fun a => (Pipeline.Clip.of (cc3_transform_5 i a) (S2048x640.size a) (S2048x30000.size a)).extent (S2048x640.size a)) fun a => Pipeline.Clip.inb (Pipeline.Clip.ok_of (hstart3_5 i a))).WholeWords (EltTy.packing .f32)
  hwxs3_5 : ∀ i : grid3.Coords, EltTy.bits .f32 = 32 ∨ (Rect.unit (s := S2048x640) (fun _ => 0) (fun a => (Pipeline.Clip.of (cc3_transform_5 i a) (S2048x640.size a) (S2048x30000.size a)).extent (S2048x640.size a)) fun a => (Nat.zero_add _).trans_le (Pipeline.Clip.extent_le (Pipeline.Clip.ok_of (hstart3_5 i a)))).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S256x300_S640x300_S256x640_1_1_0_0_n_n : DotDims S256x300 S640x300 S256x640 where
  lhsContracting := [1]
  rhsContracting := [1]
  lhsNonContracting := [0]
  rhsNonContracting := [0]
  lhsBatch := []
  rhsBatch := []
  wf := dot_S256x300_S640x300_S256x640_1_1_0_0_n_n_wf
def dot_S512x300_S640x300_S512x640_1_1_0_0_n_n : DotDims S512x300 S640x300 S512x640 where
  lhsContracting := [1]
  rhsContracting := [1]
  lhsNonContracting := [0]
  rhsNonContracting := [0]
  lhsBatch := []
  rhsBatch := []
  wf := dot_S512x300_S640x300_S512x640_1_1_0_0_n_n_wf
def dot_S2048x512_S512x640_S2048x640_1_0_0_1_n_n : DotDims S2048x512 S512x640 S2048x640 where
  lhsContracting := [1]
  rhsContracting := [0]
  lhsNonContracting := [0]
  rhsNonContracting := [1]
  lhsBatch := []
  rhsBatch := []
  wf := dot_S2048x512_S512x640_S2048x640_1_0_0_1_n_n_wf

abbrev win0_0 : Pipeline.Window sig grid0 :=
  Pipeline.Window.ofSpecClip (Memref.whole main_arg0) S512x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg3) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg4) S1024.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg16) S256x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_arg17) S640x300.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v81_0) S256x1.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v81_1) S256x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun i => !(k2_cond2 i == 1#1) | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg16) S512x300.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg17) S640x300.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpec (Memref.whole main_v81_0) S512x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81_1) S512x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S2048x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpecClip (Memref.whole main_v83) S2048x640.size cc3_transform_5 reads3_5 true false 2 stage3_5 sem3_5
    hrank3 hreads3_5 hstart3_5 nbuf3_5 (Memref.isWhole_whole _) hwx3_5 hwxs3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S2048x30000 : Shape := ⟨2, ![2048, 30000]⟩
abbrev S2048x64 : Shape := ⟨2, ![2048, 64]⟩
abbrev S1024x30000 : Shape := ⟨2, ![1024, 30000]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S512x64 : Shape := ⟨2, ![512, 64]⟩
abbrev S512x300 : Shape := ⟨2, ![512, 300]⟩
abbrev S30000x300 : Shape := ⟨2, ![30000, 300]⟩
abbrev S30000x1024 : Shape := ⟨2, ![30000, 1024]⟩
abbrev S2048x1024 : Shape := ⟨2, ![2048, 1024]⟩
abbrev S1x1024 : Shape := ⟨2, ![1, 1024]⟩
abbrev S_ : Shape := ⟨0, ![]⟩
abbrev S1024x64 : Shape := ⟨2, ![1024, 64]⟩
abbrev S1x64 : Shape := ⟨2, ![1, 64]⟩
abbrev S2048 : Shape := ⟨1, ![2048]⟩
abbrev S2048x1 : Shape := ⟨2, ![2048, 1]⟩
abbrev S512 : Shape := ⟨1, ![512]⟩
abbrev S1x512 : Shape := ⟨2, ![1, 512]⟩
abbrev S2048x512 : Shape := ⟨2, ![2048, 512]⟩
abbrev S64x512 : Shape := ⟨2, ![64, 512]⟩
abbrev S300x30000 : Shape := ⟨2, ![300, 30000]⟩
abbrev S512x30000 : Shape := ⟨2, ![512, 30000]⟩
abbrev S512x1 : Shape := ⟨2, ![512, 1]⟩

abbrev nBuf : Space → Nat
  | .hbm => 209
  | .vmem => 0
  | .smem => 0
  | _ => 0

abbrev hbmTy0_0 (i : Nat) : BufTy := match i % 128 with
  | 0 => ⟨S2048x30000, .f32⟩
  | 1 => ⟨S2048x30000, .f32⟩
  | 2 => ⟨S2048x64, .f32⟩
  | 3 => ⟨S1024x30000, .f32⟩
  | 4 => ⟨S1024, .f32⟩
  | 5 => ⟨S1024x1024, .f32⟩
  | 6 => ⟨S1024, .f32⟩
  | 7 => ⟨S64x1024, .f32⟩
  | 8 => ⟨S64, .f32⟩
  | 9 => ⟨S64x1024, .f32⟩
  | 10 => ⟨S64, .f32⟩
  | 11 => ⟨S64, .f32⟩
  | 12 => ⟨S64, .f32⟩
  | 13 => ⟨S64, .f32⟩
  | 14 => ⟨S64, .f32⟩
  | 15 => ⟨S512x64, .f32⟩
  | 16 => ⟨S512x300, .f32⟩
  | 17 => ⟨S30000x300, .f32⟩
  | 18 => ⟨S30000x1024, .f32⟩
  | 19 => ⟨S2048x1024, .f32⟩
  | 20 => ⟨S1x1024, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S2048x1024, .f32⟩
  | 27 => ⟨S2048x1024, .f32⟩
  | 28 => ⟨S2048x1024, .i1⟩
  | 29 => ⟨S2048x1024, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | 37 => ⟨S1024x1024, .f32⟩
  | 38 => ⟨S2048x1024, .f32⟩
  | 39 => ⟨S1x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S2048x1024, .f32⟩
  | 47 => ⟨S2048x1024, .i1⟩
  | 48 => ⟨S2048x1024, .f32⟩
  | 49 => ⟨S2048x1024, .f32⟩
  | 50 => ⟨S2048x1024, .f32⟩
  | 51 => ⟨S2048x1024, .f32⟩
  | 52 => ⟨S2048x1024, .f32⟩
  | 53 => ⟨S2048x1024, .f32⟩
  | 54 => ⟨S2048x1024, .f32⟩
  | 55 => ⟨S2048x1024, .f32⟩
  | 56 => ⟨S1024x64, .f32⟩
  | 57 => ⟨S2048x64, .f32⟩
  | 58 => ⟨S1x64, .f32⟩
  | 59 => ⟨S2048x64, .f32⟩
  | 60 => ⟨S2048x64, .f32⟩
  | 61 => ⟨S_, .f32⟩
  | 62 => ⟨S64, .f32⟩
  | 63 => ⟨S_, .f32⟩
  | 64 => ⟨S64, .f32⟩
  | 65 => ⟨S64, .f32⟩
  | 66 => ⟨S_, .i32⟩
  | 67 => ⟨S_, .f32⟩
  | 68 => ⟨S64, .f32⟩
  | 69 => ⟨S1x64, .f32⟩
  | 70 => ⟨S_, .f32⟩
  | 71 => ⟨S1x64, .f32⟩
  | 72 => ⟨S1x64, .f32⟩
  | 73 => ⟨S2048x64, .f32⟩
  | 74 => ⟨S2048x64, .f32⟩
  | 75 => ⟨S2048x64, .f32⟩
  | 76 => ⟨S_, .f32⟩
  | 77 => ⟨S_, .f32⟩
  | 78 => ⟨S_, .f32⟩
  | 79 => ⟨S_, .f32⟩
  | 80 => ⟨S64, .f32⟩
  | 81 => ⟨S64, .f32⟩
  | 82 => ⟨S64, .f32⟩
  | 83 => ⟨S_, .f32⟩
  | 84 => ⟨S_, .i1⟩
  | 85 => ⟨S_, .f32⟩
  | 86 => ⟨S_, .f32⟩
  | 87 => ⟨S64, .f32⟩
  | 88 => ⟨S64, .f32⟩
  | 89 => ⟨S1x64, .f32⟩
  | 90 => ⟨S2048x64, .f32⟩
  | 91 => ⟨S2048x64, .f32⟩
  | 92 => ⟨S_, .f32⟩
  | 93 => ⟨S64, .f32⟩
  | 94 => ⟨S64, .f32⟩
  | 95 => ⟨S64, .f32⟩
  | 96 => ⟨S1x64, .f32⟩
  | 97 => ⟨S2048x64, .f32⟩
  | 98 => ⟨S2048x64, .f32⟩
  | 99 => ⟨S1x64, .f32⟩
  | 100 => ⟨S2048x64, .f32⟩
  | 101 => ⟨S2048x64, .f32⟩
  | 102 => ⟨S1x64, .f32⟩
  | 103 => ⟨S2048x64, .f32⟩
  | 104 => ⟨S2048x64, .f32⟩
  | 105 => ⟨S1024x64, .f32⟩
  | 106 => ⟨S2048x64, .f32⟩
  | 107 => ⟨S1x64, .f32⟩
  | 108 => ⟨S2048x64, .f32⟩
  | 109 => ⟨S2048x64, .f32⟩
  | 110 => ⟨S_, .f32⟩
  | 111 => ⟨S64, .f32⟩
  | 112 => ⟨S_, .f32⟩
  | 113 => ⟨S64, .f32⟩
  | 114 => ⟨S64, .f32⟩
  | 115 => ⟨S_, .i32⟩
  | 116 => ⟨S_, .f32⟩
  | 117 => ⟨S64, .f32⟩
  | 118 => ⟨S1x64, .f32⟩
  | 119 => ⟨S_, .f32⟩
  | 120 => ⟨S1x64, .f32⟩
  | 121 => ⟨S1x64, .f32⟩
  | 122 => ⟨S2048x64, .f32⟩
  | 123 => ⟨S2048x64, .f32⟩
  | 124 => ⟨S2048x64, .f32⟩
  | 125 => ⟨S_, .f32⟩
  | 126 => ⟨S_, .f32⟩
  | 127 => ⟨S_, .f32⟩
  | _ => ⟨S2048x30000, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S_, .f32⟩
  | 5 => ⟨S_, .i1⟩
  | 6 => ⟨S_, .f32⟩
  | 7 => ⟨S_, .f32⟩
  | 8 => ⟨S64, .f32⟩
  | 9 => ⟨S64, .f32⟩
  | 10 => ⟨S1x64, .f32⟩
  | 11 => ⟨S2048x64, .f32⟩
  | 12 => ⟨S2048x64, .f32⟩
  | 13 => ⟨S_, .f32⟩
  | 14 => ⟨S64, .f32⟩
  | 15 => ⟨S64, .f32⟩
  | 16 => ⟨S64, .f32⟩
  | 17 => ⟨S1x64, .f32⟩
  | 18 => ⟨S2048x64, .f32⟩
  | 19 => ⟨S2048x64, .f32⟩
  | 20 => ⟨S1x64, .f32⟩
  | 21 => ⟨S2048x64, .f32⟩
  | 22 => ⟨S2048x64, .f32⟩
  | 23 => ⟨S1x64, .f32⟩
  | 24 => ⟨S2048x64, .f32⟩
  | 25 => ⟨S2048x64, .f32⟩
  | 26 => ⟨S2048x64, .f32⟩
  | 27 => ⟨S2048x64, .f32⟩
  | 28 => ⟨S2048x64, .f32⟩
  | 29 => ⟨S2048x64, .f32⟩
  | 30 => ⟨S2048x64, .f32⟩
  | 31 => ⟨S_, .f32⟩
  | 32 => ⟨S2048, .f32⟩
  | 33 => ⟨S2048x1, .f32⟩
  | 34 => ⟨S512x64, .f32⟩
  | 35 => ⟨S_, .f32⟩
  | 36 => ⟨S512, .f32⟩
  | 37 => ⟨S1x512, .f32⟩
  | 38 => ⟨S2048x512, .f32⟩
  | 39 => ⟨S2048x512, .f32⟩
  | 40 => ⟨S2048x512, .f32⟩
  | 41 => ⟨S64x512, .f32⟩
  | 42 => ⟨S2048x512, .f32⟩
  | 43 => ⟨S_, .f32⟩
  | 44 => ⟨S2048x512, .f32⟩
  | 45 => ⟨S2048x512, .f32⟩
  | 46 => ⟨S2048x512, .f32⟩
  | 47 => ⟨S_, .f32⟩
  | 48 => ⟨S2048x512, .f32⟩
  | 49 => ⟨S2048x512, .f32⟩
  | 50 => ⟨S_, .f32⟩
  | 51 => ⟨S2048, .f32⟩
  | 52 => ⟨S_, .f32⟩
  | 53 => ⟨S2048, .f32⟩
  | 54 => ⟨S2048, .f32⟩
  | 55 => ⟨S2048x1, .f32⟩
  | 56 => ⟨S2048x512, .f32⟩
  | 57 => ⟨S2048x512, .f32⟩
  | 58 => ⟨S2048x512, .f32⟩
  | 59 => ⟨S_, .f32⟩
  | 60 => ⟨S2048, .f32⟩
  | 61 => ⟨S2048x1, .f32⟩
  | 62 => ⟨S2048x512, .f32⟩
  | 63 => ⟨S2048x512, .f32⟩
  | 64 => ⟨S300x30000, .f32⟩
  | 65 => ⟨S512x30000, .f32⟩
  | 66 => ⟨S_, .f32⟩
  | 67 => ⟨S512, .f32⟩
  | 68 => ⟨S_, .f32⟩
  | 69 => ⟨S512, .f32⟩
  | 70 => ⟨S512, .f32⟩
  | 71 => ⟨S512x1, .f32⟩
  | 72 => ⟨S512x30000, .f32⟩
  | 73 => ⟨S512x30000, .f32⟩
  | 74 => ⟨S512x30000, .f32⟩
  | 75 => ⟨S_, .f32⟩
  | 76 => ⟨S512, .f32⟩
  | 77 => ⟨S512x1, .f32⟩
  | 78 => ⟨S512x30000, .f32⟩
  | 79 => ⟨S512x30000, .f32⟩
  | 80 => ⟨S2048x30000, .f32⟩
  | _ => ⟨S2048x30000, .f32⟩

abbrev hbmTy (i : Nat) : BufTy := match i / 128 with
  | 0 => hbmTy0_0 i
  | 1 => hbmTy0_1 i
  | _ => ⟨S2048x30000, .f32⟩

abbrev bufTy : (tb : Table) → Fin (tcTables nBuf tb) → BufTy
  | .hbm, ⟨i, _⟩ => hbmTy i
  | _, _ => ⟨S2048x30000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_cst : Ref sig .tc := ⟨.hbm, 61, rfl⟩
abbrev main_v17 : Ref sig .tc := ⟨.hbm, 62, rfl⟩
abbrev main_cst_0 : Ref sig .tc := ⟨.hbm, 63, rfl⟩
abbrev main_v18 : Ref sig .tc := ⟨.hbm, 64, rfl⟩
abbrev main_v19 : Ref sig .tc := ⟨.hbm, 65, rfl⟩
abbrev main_c : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_cst_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_cst_1 : Ref sig .tc := ⟨.hbm, 77, rfl⟩
abbrev main_call2_v8 : Ref sig .tc := ⟨.hbm, 78, rfl⟩
abbrev main_call2_cst_2 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_cst_3 : Ref sig .tc := ⟨.hbm, 83, rfl⟩
abbrev main_call2_v12 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_cst_1 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_cst_2 : Ref sig .tc := ⟨.hbm, 110, rfl⟩
abbrev main_v41 : Ref sig .tc := ⟨.hbm, 111, rfl⟩
abbrev main_cst_3 : Ref sig .tc := ⟨.hbm, 112, rfl⟩
abbrev main_v42 : Ref sig .tc := ⟨.hbm, 113, rfl⟩
abbrev main_v43 : Ref sig .tc := ⟨.hbm, 114, rfl⟩
abbrev main_c_4 : Ref sig .tc := ⟨.hbm, 115, rfl⟩
abbrev main_call3_cst : Ref sig .tc := ⟨.hbm, 116, rfl⟩
abbrev main_call3_v0 : Ref sig .tc := ⟨.hbm, 117, rfl⟩
abbrev main_call3_v1 : Ref sig .tc := ⟨.hbm, 118, rfl⟩
abbrev main_call3_cst_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_v7 : Ref sig .tc := ⟨.hbm, 125, rfl⟩
abbrev main_call3_cst_1 : Ref sig .tc := ⟨.hbm, 126, rfl⟩
abbrev main_call3_v8 : Ref sig .tc := ⟨.hbm, 127, rfl⟩
abbrev main_call3_cst_2 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_cst_3 : Ref sig .tc := ⟨.hbm, 132, rfl⟩
abbrev main_call3_v12 : Ref sig .tc := ⟨.hbm, 133, rfl⟩
abbrev main_call3_cst_4 : Ref sig .tc := ⟨.hbm, 134, rfl⟩
abbrev main_call3_call0_v0 : Ref sig .tc := ⟨.hbm, 135, rfl⟩
abbrev main_call3_call0_v1 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_cst_5 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_cst_6 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_cst_7 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_cst_8 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_cst_9 : Ref sig .tc := ⟨.hbm, 175, rfl⟩
abbrev main_v78 : Ref sig .tc := ⟨.hbm, 176, rfl⟩
abbrev main_v79 : Ref sig .tc := ⟨.hbm, 177, rfl⟩
abbrev main_cst_10 : Ref sig .tc := ⟨.hbm, 178, rfl⟩
abbrev main_v80 : Ref sig .tc := ⟨.hbm, 179, rfl⟩
abbrev main_cst_11 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_cst_12 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_cst_13 : Ref sig .tc := ⟨.hbm, 194, rfl⟩
abbrev main_v93 : Ref sig .tc := ⟨.hbm, 195, rfl⟩
abbrev main_cst_14 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_cst_15 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩

abbrev nD : Nat := 1
abbrev τ : Topo := Topo.v7x

variable {F : FTy → Type} [FloatOps F]

class Facts₀ : Prop where
  transposes_S1024x30000_S30000x1024_1_0 : S1024x30000.Transposes [1, 0] S30000x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  transposes_S1024x1024_S1024x1024_1_0 : S1024x1024.Transposes [1, 0] S1024x1024
  transposes_S64x1024_S1024x64_1_0 : S64x1024.Transposes [1, 0] S1024x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  reducesTo_S2048x64_S64_d0 : S2048x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  reducesTo_S2048x64_S2048_d1 : S2048x64.ReducesTo [1] S2048
  bcast_S2048_S2048x1_0 : S2048.BroadcastsInDim S2048x1 (![0] : Fin 1 → Fin S2048x1.rank)
  reducesTo_S512x64_S512_d1 : S512x64.ReducesTo [1] S512
  bcast_S512_S1x512_1 : S512.BroadcastsInDim S1x512 (![1] : Fin 1 → Fin S1x512.rank)
  bcast_S2048x1_S2048x512_0_1 : S2048x1.BroadcastsInDim S2048x512 (![0, 1] : Fin 2 → Fin S2048x512.rank)
  bcast_S1x512_S2048x512_0_1 : S1x512.BroadcastsInDim S2048x512 (![0, 1] : Fin 2 → Fin S2048x512.rank)
  transposes_S512x64_S64x512_1_0 : S512x64.Transposes [1, 0] S64x512
  bcast_S_S2048x512 : S_.BroadcastsInDim S2048x512 (![] : Fin 0 → Fin S2048x512.rank)
  reducesTo_S2048x512_S2048_d1 : S2048x512.ReducesTo [1] S2048
  bcast_S_S2048 : S_.BroadcastsInDim S2048 (![] : Fin 0 → Fin S2048.rank)
  transposes_S30000x300_S300x30000_1_0 : S30000x300.Transposes [1, 0] S300x30000
  reducesTo_S512x30000_S512_d1 : S512x30000.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x30000_0_1 : S512x1.BroadcastsInDim S512x30000 (![0, 1] : Fin 2 → Fin S512x30000.rank)
  dot_S2048x30000_S30000x1024_S2048x1024_1_0_0_1_n_n_wf : DotDims.WF S2048x30000 S30000x1024 S2048x1024 [1] [0] [0] [1] [] []
  dot_S2048x1024_S1024x1024_S2048x1024_1_0_0_1_n_n_wf : DotDims.WF S2048x1024 S1024x1024 S2048x1024 [1] [0] [0] [1] [] []
  dot_S2048x1024_S1024x64_S2048x64_1_0_0_1_n_n_wf : DotDims.WF S2048x1024 S1024x64 S2048x64 [1] [0] [0] [1] [] []
  dot_S2048x64_S64x512_S2048x512_1_0_0_1_n_n_wf : DotDims.WF S2048x64 S64x512 S2048x512 [1] [0] [0] [1] [] []
  dot_S512x300_S300x30000_S512x30000_1_0_0_1_n_n_wf : DotDims.WF S512x300 S300x30000 S512x30000 [1] [0] [0] [1] [] []
  dot_S2048x512_S512x30000_S2048x30000_1_0_0_1_n_n_wf : DotDims.WF S2048x512 S512x30000 S2048x30000 [1] [0] [0] [1] [] []

variable [Facts₀]

def dot_S2048x30000_S30000x1024_S2048x1024_1_0_0_1_n_n : DotDims S2048x30000 S30000x1024 S2048x1024 where
  lhsContracting := [1]
  rhsContracting := [0]
  lhsNonContracting := [0]
  rhsNonContracting := [1]
  lhsBatch := []
  rhsBatch := []
  wf := dot_S2048x30000_S30000x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S512x300_S300x30000_S512x30000_1_0_0_1_n_n : DotDims S512x300 S300x30000 S512x30000 where
  lhsContracting := [1]
  rhsContracting := [0]
  lhsNonContracting := [0]
  rhsNonContracting := [1]
  lhsBatch := []
  rhsBatch := []
  wf := dot_S512x300_S300x30000_S512x30000_1_0_0_1_n_n_wf
def dot_S2048x512_S512x30000_S2048x30000_1_0_0_1_n_n : DotDims S2048x512 S512x30000 S2048x30000 where
  lhsContracting := [1]
  rhsContracting := [0]
  lhsNonContracting := [0]
  rhsNonContracting := [1]
  lhsBatch := []
  rhsBatch := []
  wf := dot_S2048x512_S512x30000_S2048x30000_1_0_0_1_n_n_wf

class Facts : Prop extends Facts₀ where

variable [Facts]
-- ==== Proof.KBody0.lean ====
import proofs.«167389_j35253091565659_2_alg».proof.Proof.Gen.Kernel.Launch
import proofs.«167389_j35253091565659_2_alg».proof.Proof.Gen.Kernel.Skeleton
import proofs.«167389_j35253091565659_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option quotPrecheck false in
local notation "VTF" => ((c : Dev nD) → (b : Ref sig .tc) → Buf (Elt F) ((c : Thread nD τ).loc b))

/-- Run on core `c` from `P`, the program `e` gives `P` back. -/
abbrev Keeps (c : Dev nD) (P : sProp 𝕄) (e : Prog (TpuEff nD τ sig (Elt F) Λ₀ .tc) PUnit) : Prop :=
  ∀ (E : Set ℕ) (K : PUnit → sProp 𝕄), iprop(P ∗ (P -∗ K ⟨⟩)) ⊢ wp frame (wpE (defs₀ (F := F)) Variants.none c none) E e K

section Back
variable {c : Dev nD} {sp : Space} {sh : Shape} {e : EltTy} {m : Memref sig .tc sp sh e}

/-- A memref back at the contents found is back at contents equal to them. -/
theorem back_eq {Y : sh.Idx → Elt F e} :
    owns (c : Thread nD τ) m fullShare Y ⊢ (iprop(∃ X, ⌜X = Y⌝ ∗ owns (c : Thread nD τ) m fullShare X) : sProp 𝕄) := by
  iintro H; iexists Y; isplitr; · ipureintro; rfl
  iexact H

/-- A memref back at some contents is back at contents nothing is asked of. -/
theorem back_any :
    (iprop(∃ X, owns (c : Thread nD τ) m fullShare X) : sProp 𝕄) ⊢ iprop(∃ X, ⌜True⌝ ∗ owns (c : Thread nD τ) m fullShare X) := by
  iintro ⟨%X, H⟩; iexists X; isplitr; · ipureintro; trivial
  iexact H

end Back

def rdat0 (V : VTF) (c : Dev nD) : Pipeline.RDat τ (Elt F) Unit ℕ (UR sig nD τ) ℕ cfg0 c where
  A w := V c (Pipeline.arrRef spec0 w)
  after w t Y X := match w with
    | ⟨0, _⟩ => X = Y
    | ⟨1, _⟩ => X = Y
    | ⟨2, _⟩ => X = Y
    | ⟨3, _⟩ => True
  Φ _ := Pipeline.ΦA spec0 c
  q _ := fullShare
  owed _ := 0

theorem rA_eq0 (V : VTF) (c : Dev nD) (w : Fin cfg0.W) : (rdat0 V c).A w = V c (Pipeline.arrRef spec0 w) := by
  dsimp only [rdat0]

/-- The region's invariant with the accumulator taken out of it, a memref owned at some contents. -/
theorem PhiA0_eq (c : Dev nD) :
    (Pipeline.ΦA spec0 c : sProp 𝕄)
      = iprop(iprop((∃ d, owns (c : Thread nD τ) (Memref.whole cc0_scratch0) fullShare d)
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [owns_whole]

/-- At any point the body keeps its memrefs, the inputs' at their contents, the output's and the accumulator's at some: nothing is said of what its two conditionals store. -/
theorem kernelRun0 (c : Dev nD) (i : grid0.Coords)
    (arg3 : Memref sig .tc .vmem S512x1024 .f32) (harg3 : arg3.IsWhole) (arg4 : Memref sig .tc .vmem S1024x1024 .f32) (harg4 : arg4.IsWhole)
    (arg5 : Memref sig .tc .vmem S1024 .f32) (harg5 : arg5.IsWhole) (arg6 : Memref sig .tc .vmem S512x1024 .f32) (harg6 : arg6.IsWhole)
    (arg7 : Memref sig .tc .vmem S512x1024 .f32) (harg7 : arg7.IsWhole)
    (x0 : Vec F S512x1024 .f32) (x1 : Vec F S1024x1024 .f32) (x2 : Vec F S1024 .f32) :
    Keeps c iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d))
      (cc0__gemm_act_kernel i arg3 harg3 arg4 harg4 arg5 harg5 arg6 harg6 arg7 harg7) := by
  intro E K
  rw [cc0__gemm_act_kernel_eq_skeleton, harg6.exists_owns_eq, harg7.exists_owns_eq]
  unfold cc0__gemm_act_kernel_skel
  simp only [owns_eq_rep]
  iintro ⟨⟨H0, H1, H2, ⟨%f3, H3⟩, ⟨%fs, HS⟩⟩, Hk⟩
  sl_exec
  sl_step
  iapply Hk
  iframe H0 H1 H2
  isplitl [H3] <;> iexists _ <;> iassumption

/-- The accumulator comes out of the invariant, the body keeps what it is handed, and each window's relation holds of what comes back. -/
theorem rbody0 (V : VTF) (c : Dev nD) : (rdat0 V c).BodyObligation (defs₀ (F := F)) Variants.none () Set.univ := fun t Y _ => by
  rw [bigSep_W0, bigSep_W0]
  show _ ⊢ wp _ _ _ (bodyAt0 t) _
  rw [show (rdat0 V c).Φ t.succ = (rdat0 V c).Φ t.castSucc from rfl,
    show (rdat0 V c).owesAt () t.succ = (rdat0 V c).owesAt () t.castSucc from rfl,
    show (rdat0 V c).Φ t.castSucc = Pipeline.ΦA spec0 c from rfl, PhiA0_eq]
  iintro ⟨⟨⟨HS, HR⟩, Hg⟩, Ho, H0, H1, H2, H3⟩
  iapply (kernelRun0 c (grid0.coords t) _ _ _ _ _ _ _ _ _ _ (Y 0) (Y 1) (Y 2)) Set.univ _
  isplitl [H0 H1 H2 H3 HS]
  · iframe H0 H1 H2 HS; iexists _; iexact H3
  iintro ⟨H0, H1, H2, H3, HS⟩
  iframe HS HR Hg Ho
  iapply (BIClass.sep_mono back_eq <| BIClass.sep_mono back_eq <| BIClass.sep_mono back_eq back_any)
  iframe

end Cert.Kernel.Hand

end
-- ==== Proof.KBody1.lean ====
import proofs.«167389_j35253091565659_2_alg».proof.Proof.KBody0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option quotPrecheck false in
local notation "VTF" => ((c : Dev nD) → (b : Ref sig .tc) → Buf (Elt F) ((c : Thread nD τ).loc b))

def rdat1 (V : VTF) (c : Dev nD) : Pipeline.RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => True
  Φ _ := Pipeline.ΦA spec1 c
  q _ := fullShare
  owed _ := 0

theorem rA_eq1 (V : VTF) (c : Dev nD) (w : Fin cfg1.W) : (rdat1 V c).A w = V c (Pipeline.arrRef spec1 w) := by
  dsimp only [rdat1]

/-- The region's invariant with the accumulator taken out of it, a memref owned at some contents. -/
theorem PhiA1_eq (c : Dev nD) :
    (Pipeline.ΦA spec1 c : sProp 𝕄)
      = iprop(iprop((∃ d, owns (c : Thread nD τ) (Memref.whole cc1_scratch0) fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [owns_whole]

/-- At any point the body keeps its memrefs, the inputs' at their contents, the output's and the accumulator's at some: nothing is said of what its two conditionals store. -/
theorem kernelRun1 (c : Dev nD) (i : grid1.Coords)
    (arg3 : Memref sig .tc .vmem S512x1024 .f32) (harg3 : arg3.IsWhole) (arg4 : Memref sig .tc .vmem S1024x1024 .f32) (harg4 : arg4.IsWhole)
    (arg5 : Memref sig .tc .vmem S1024 .f32) (harg5 : arg5.IsWhole) (arg6 : Memref sig .tc .vmem S512x1024 .f32) (harg6 : arg6.IsWhole)
    (arg7 : Memref sig .tc .vmem S512x1024 .f32) (harg7 : arg7.IsWhole)
    (x0 : Vec F S512x1024 .f32) (x1 : Vec F S1024x1024 .f32) (x2 : Vec F S1024 .f32) :
    Keeps c iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d))
      (cc1__gemm_act_kernel i arg3 harg3 arg4 harg4 arg5 harg5 arg6 harg6 arg7 harg7) := by
  intro E K
  rw [cc1__gemm_act_kernel_eq_skeleton, harg6.exists_owns_eq, harg7.exists_owns_eq]
  unfold cc1__gemm_act_kernel_skel
  simp only [owns_eq_rep]
  iintro ⟨⟨H0, H1, H2, ⟨%f3, H3⟩, ⟨%fs, HS⟩⟩, Hk⟩
  sl_exec
  sl_step
  iapply Hk
  iframe H0 H1 H2
  isplitl [H3] <;> iexists _ <;> iassumption

/-- The accumulator comes out of the invariant, the body keeps what it is handed, and each window's relation holds of what comes back. -/
theorem rbody1 (V : VTF) (c : Dev nD) : (rdat1 V c).BodyObligation (defs₀ (F := F)) Variants.none () Set.univ := fun t Y _ => by
  rw [bigSep_W1, bigSep_W1]
  show _ ⊢ wp _ _ _ (bodyAt1 t) _
  rw [show (rdat1 V c).Φ t.succ = (rdat1 V c).Φ t.castSucc from rfl,
    show (rdat1 V c).owesAt () t.succ = (rdat1 V c).owesAt () t.castSucc from rfl,
    show (rdat1 V c).Φ t.castSucc = Pipeline.ΦA spec1 c from rfl, PhiA1_eq]
  iintro ⟨⟨⟨HS, HR⟩, Hg⟩, Ho, H0, H1, H2, H3⟩
  iapply (kernelRun1 c (grid1.coords t) _ _ _ _ _ _ _ _ _ _ (Y 0) (Y 1) (Y 2)) Set.univ _
  isplitl [H0 H1 H2 H3 HS]
  · iframe H0 H1 H2 HS; iexists _; iexact H3
  iintro ⟨H0, H1, H2, H3, HS⟩
  iframe HS HR Hg Ho
  iapply (BIClass.sep_mono back_eq <| BIClass.sep_mono back_eq <| BIClass.sep_mono back_eq back_any)
  iframe

end Cert.Kernel.Hand

end
-- ==== Proof.KBody2.lean ====
import proofs.«167389_j35253091565659_2_alg».proof.Proof.KBody0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option quotPrecheck false in
local notation "VTF" => ((c : Dev nD) → (b : Ref sig .tc) → Buf (Elt F) ((c : Thread nD τ).loc b))

def rdat2 (V : VTF) (c : Dev nD) : Pipeline.RDat τ (Elt F) Unit ℕ (UR sig nD τ) ℕ cfg2 c where
  A w := V c (Pipeline.arrRef spec2 w)
  after w t Y X := match w with
    | ⟨0, _⟩ => X = Y
    | ⟨1, _⟩ => X = Y
    | ⟨2, _⟩ => True
    | ⟨3, _⟩ => True
  Φ _ := Pipeline.ΦA spec2 c
  q _ := fullShare
  owed _ := 0

theorem rA_eq2 (V : VTF) (c : Dev nD) (w : Fin cfg2.W) : (rdat2 V c).A w = V c (Pipeline.arrRef spec2 w) := by
  dsimp only [rdat2]

/-- The region's invariant with the two running statistics taken out of it, memrefs owned at some contents. -/
theorem PhiA2_eq (c : Dev nD) :
    (Pipeline.ΦA spec2 c : sProp 𝕄)
      = iprop(iprop(iprop((∃ d, owns (c : Thread nD τ) (Memref.whole cc2_scratch0) fullShare d) ∗ (∃ d, owns (c : Thread nD τ) (Memref.whole cc2_scratch1) fullShare d))
          ∗ Pipeline.scopedRestBut (Ix := Unit) (Name := ℕ) (U := UR sig nD τ) (Lvl := ℕ) (Val := Elt F) spec2 c [cc2_scratch0, cc2_scratch1])
        ∗ (∃ r, prngReg c r)) := by
  unfold Pipeline.ΦA; rw [scopedRest2_split]; simp only [owns_whole]

/-- At any point the body keeps its memrefs, the inputs' at their contents, the two outputs' and the two statistics' at some: nothing is said of what its two conditionals store. -/
theorem kernelRun2 (c : Dev nD) (i : grid2.Coords)
    (arg2 : Memref sig .tc .vmem S256x300 .f32) (harg2 : arg2.IsWhole) (arg3 : Memref sig .tc .vmem S640x300 .f32) (harg3 : arg3.IsWhole)
    (arg4 : Memref sig .tc .vmem S256x1 .f32) (harg4 : arg4.IsWhole) (arg5 : Memref sig .tc .vmem S256x1 .f32) (harg5 : arg5.IsWhole)
    (arg6 : Memref sig .tc .vmem S256x1 .f32) (harg6 : arg6.IsWhole) (arg7 : Memref sig .tc .vmem S256x1 .f32) (harg7 : arg7.IsWhole)
    (x0 : Vec F S256x300 .f32) (x1 : Vec F S640x300 .f32) :
    Keeps c iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d))
      (cc2__stats_kernel i arg2 harg2 arg3 harg3 arg4 harg4 arg5 harg5 arg6 harg6 arg7 harg7) := by
  intro E K
  rw [cc2__stats_kernel_eq_skeleton, harg4.exists_owns_eq, harg5.exists_owns_eq, harg6.exists_owns_eq, harg7.exists_owns_eq]
  unfold cc2__stats_kernel_skel
  simp only [k2_part1_eq_skeleton, owns_eq_rep]
  iintro ⟨⟨H0, H1, ⟨%f2, H2⟩, ⟨%f3, H3⟩, ⟨%fs0, HS0⟩, ⟨%fs1, HS1⟩⟩, Hk⟩
  sl_exec
  sl_step
  iapply Hk
  iframe H0 H1
  isplitl [H2]; · iexists _; iexact H2
  isplitl [H3]; · iexists _; iexact H3
  isplitl [HS0] <;> iexists _ <;> iassumption

/-- The two statistics come out of the invariant, the body keeps what it is handed, and each window's relation holds of what comes back. -/
theorem rbody2 (V : VTF) (c : Dev nD) : (rdat2 V c).BodyObligation (defs₀ (F := F)) Variants.none () Set.univ := fun t Y _ => by
  rw [bigSep_W2, bigSep_W2]
  show _ ⊢ wp _ _ _ (bodyAt2 t) _
  rw [show (rdat2 V c).Φ t.succ = (rdat2 V c).Φ t.castSucc from rfl,
    show (rdat2 V c).owesAt () t.succ = (rdat2 V c).owesAt () t.castSucc from rfl,
    show (rdat2 V c).Φ t.castSucc = Pipeline.ΦA spec2 c from rfl, PhiA2_eq]
  iintro ⟨⟨⟨⟨HS0, HS1⟩, HR⟩, Hg⟩, Ho, H0, H1, H2, H3⟩
  iapply (kernelRun2 c (grid2.coords t) _ _ _ _ _ _ _ _ _ _ _ _ (Y 0) (Y 1)) Set.univ _
  isplitl [H0 H1 H2 H3 HS0 HS1]
  · iframe H0 H1 HS0 HS1
    isplitl [H2] <;> iexists _ <;> iassumption
  iintro ⟨H0, H1, H2, H3, HS0, HS1⟩
  iframe HS0 HS1 HR Hg Ho
  iapply (BIClass.sep_mono back_eq <| BIClass.sep_mono back_eq <| BIClass.sep_mono back_any back_any)
  iframe

end Cert.Kernel.Hand

end
-- ==== Proof.KBody3.lean ====
import proofs.«167389_j35253091565659_2_alg».proof.Proof.KBody0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

set_option quotPrecheck false in
local notation "VTF" => ((c : Dev nD) → (b : Ref sig .tc) → Buf (Elt F) ((c : Thread nD τ).loc b))

def rdat3 (V : VTF) (c : Dev nD) : Pipeline.RDat τ (Elt F) Unit ℕ (UR sig nD τ) ℕ cfg3 c where
  A w := V c (Pipeline.arrRef spec3 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => True
  Φ _ := Pipeline.ΦA spec3 c
  q _ := fullShare
  owed _ := 0

theorem rA_eq3 (V : VTF) (c : Dev nD) (w : Fin cfg3.W) : (rdat3 V c).A w = V c (Pipeline.arrRef spec3 w) := by
  dsimp only [rdat3]

/-- The body keeps its memrefs, the five inputs' at their contents, the output's at some. -/
theorem kernelRun3 (c : Dev nD) (i : grid3.Coords)
    (arg1 : Memref sig .tc .vmem S512x300 .f32) (harg1 : arg1.IsWhole) (arg2 : Memref sig .tc .vmem S640x300 .f32) (harg2 : arg2.IsWhole)
    (arg3 : Memref sig .tc .vmem S512x1 .f32) (harg3 : arg3.IsWhole) (arg4 : Memref sig .tc .vmem S512x1 .f32) (harg4 : arg4.IsWhole)
    (arg5 : Memref sig .tc .vmem S2048x512 .bf16) (harg5 : arg5.IsWhole) (arg6 : Memref sig .tc .vmem S2048x640 .f32) (harg6 : arg6.IsWhole)
    (x0 : Vec F S512x300 .f32) (x1 : Vec F S640x300 .f32) (x2 : Vec F S512x1 .f32) (x3 : Vec F S512x1 .f32) (x4 : Vec F S2048x512 .bf16) :
    Keeps c iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d))
      (cc3__recon_kernel i arg1 harg1 arg2 harg2 arg3 harg3 arg4 harg4 arg5 harg5 arg6 harg6) := by
  intro E K
  rw [cc3__recon_kernel_eq_skeleton, harg6.exists_owns_eq]
  unfold cc3__recon_kernel_skel
  simp only [owns_eq_rep]
  iintro ⟨⟨H0, H1, H2, H3, H4, ⟨%f5, H5⟩⟩, Hk⟩
  sl_exec
  sl_step
  iapply Hk
  iframe H0 H1 H2 H3 H4
  iexists _; iexact H5

/-- The body keeps what it is handed, and each window's relation holds of what comes back; the invariant is not opened. -/
theorem rbody3 (V : VTF) (c : Dev nD) : (rdat3 V c).BodyObligation (defs₀ (F := F)) Variants.none () Set.univ := fun t Y _ => by
  rw [bigSep_W3, bigSep_W3]
  show _ ⊢ wp _ _ _ (bodyAt3 t) _
  rw [show (rdat3 V c).Φ t.succ = (rdat3 V c).Φ t.castSucc from rfl,
    show (rdat3 V c).owesAt () t.succ = (rdat3 V c).owesAt () t.castSucc from rfl]
  iintro ⟨HΦ, Ho, H0, H1, H2, H3, H4, H5⟩
  iapply (kernelRun3 c (grid3.coords t) _ _ _ _ _ _ _ _ _ _ _ _ (Y 0) (Y 1) (Y 2) (Y 3) (Y 4)) Set.univ _
  isplitl [H0 H1 H2 H3 H4 H5]
  · iframe H0 H1 H2 H3 H4; iexists _; iexact H5
  iintro ⟨H0, H1, H2, H3, H4, H5⟩
  iframe HΦ Ho
  iapply (BIClass.sep_mono back_eq <| BIClass.sep_mono back_eq <| BIClass.sep_mono back_eq <| BIClass.sep_mono back_eq <| BIClass.sep_mono back_eq back_any)
  iframe

end Cert.Kernel.Hand

end
-- ==== Proof.KBodies.lean ====
import proofs.«167389_j35253091565659_2_alg».proof.Proof.KBody0
import proofs.«167389_j35253091565659_2_alg».proof.Proof.KBody1
import proofs.«167389_j35253091565659_2_alg».proof.Proof.KBody2
import proofs.«167389_j35253091565659_2_alg».proof.Proof.KBody3
-- ==== Proof.KLaunch.lean ====
import proofs.«167389_j35253091565659_2_alg».proof.Proof.Gen.Kernel.Launch
import proofs.«167389_j35253091565659_2_alg».proof.Proof.Gen.Kernel.Regions
import proofs.«167389_j35253091565659_2_alg».proof.Proof.KBodies
import Idealize.ShloMosaic.Lib.Pipeline.Frame
import Idealize.ShloMosaic.Lib.Pipeline.Regions
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

abbrev L0 : GSem nD τ sig → Finset Unit := fun _ => ∅
abbrev lv0 : GSem nD τ sig → Unit → ℕ := fun _ _ => 0

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- An item of @main, and its run on core `c`. -/
abbrev Item (F : FTy → Type) [FloatOps F] := Prog (TpuEff nD τ sig (Elt F) (Pipeline.Sig Λ₀ (Fin 4) fun p => (pcfgs (F := F) p).Adm) .tc) PUnit
abbrev Runs (c : Dev nD) (x : Item F) (Q : PUnit → sProp 𝕄) : sProp 𝕄 :=
  wp frame (wpE (Pipeline.defs (pcfgs (F := F)) defs₀) (Variants.lift Variants.none) (c : Thread nD τ) none) Set.univ x Q

variable (m : (ℓ : Loc nD τ sig) → Buf (Elt F) ℓ)

/-- Between two items of @main: every unscoped buffer whole at the valuation `W`, nothing owed. -/
def Between (c : Dev nD) (W : Valuation τ sig (Elt F)) : sProp 𝕄 :=
  iprop(StableHlo.held (c : Thread nD τ) (Pipeline.ucRefs τ sig) W ∗ (∃ r, prngReg c r) ∗ ∃ Wd, owes (c : Thread nD τ) (0 : CellTallies nD τ sig Unit) Wd)

/-- Kept by every item of @main: the unscoped buffers whole at SOME valuation that has the arguments as launched. -/
def Inv (c : Dev nD) : sProp 𝕄 :=
  iprop(∃ W : Valuation τ sig (Elt F), ⌜∀ b ∈ argRefs, W b = m ((c : Thread nD τ).loc b)⌝
    ∗ Between c W)

open Idealize.ShloMosaic.Pipeline in
/-- A region's data are taken at the valuation it is entered at; it writes output arrays only, none of them an argument. -/
theorem region_inv (p : Fin 4) (kit : LaunchFacts (nD := nD) (τ := τ) cfgs p)
    (rdat : ((c : Dev nD) → (b : Ref sig .tc) → Buf (Elt F) ((c : Thread nD τ).loc b)) → (c : Dev nD) → RDat τ (Elt F) Unit ℕ (UR sig nD τ) ℕ (cfgs p) c)
    (hA : ∀ V c (w : Fin (cfgs p).W), (rdat V c).A w = V c (arrRef (cfgs p).spec w))
    (hbody : ∀ V c, (rdat V c).BodyObligation (defs₀ (F := F)) Variants.none () Set.univ)
    (hargs : ∀ b ∈ argRefs, ∀ w, ((cfgs p).win w).isOut = true → arrRef (cfgs p).spec w ≠ b)
    (c : Dev nD) (l : List (Item F)) (Q : PUnit → sProp 𝕄)
    (howed : ∀ V c t, (rdat V c).owed t = 0 := by intros; rfl)
    (hrec : ∀ V c t, (rdat V c).recorded t = Set.univ := by intros; rfl)
    (hq : ∀ V c w, (rdat V c).q w = fullShare := by intros; rfl)
    (hin : ∀ V c, (ΦA (cfgs p).spec c : sProp 𝕄) ⊢ (rdat V c).Φ 0 := by intros; exact .rfl)
    (hout : ∀ V c, (rdat V c).Φ (Fin.last _) ⊢ (ΦA (cfgs p).spec c : sProp 𝕄) := by intros; exact .rfl) :
    iprop((iprop(boundary (c : Thread nD τ) ∗ Inv m c) -∗ Runs c (Pipeline.chain l) Q)
        ∗ boundary (c : Thread nD τ) ∗ Inv m c ∗ levAts L0 lv0
        ∗ PerCore.cellsGhost (pinD (pcfgs (F := F)) fun _ => adm) emb₁ p c ∗ PerCore.toksInit (pinD (pcfgs (F := F)) fun _ => adm) emb₁ p c)
      ⊢ Runs c (Pipeline.chain (Prog.lift (.customCall (Pipeline.entry p) ()) :: l)) Q := by
  rw [show Pipeline.chain (Prog.lift (.customCall (Pipeline.entry p) ()) :: l)
      = (.op (.customCall (Pipeline.entry p) ()) (fun _ => Pipeline.chain l) : Item F) from rfl]
  unfold Inv
  iintro ⟨Hk, Hbd, HI, Hla, Hg, Ht⟩
  icases HI with ⟨%W, %hW, HB⟩
  let rd := fun c' => rdat (fun _ b => W b) c'
  classical
  have hshare : ∀ c' w, (rd c').share w = fullShare := fun c' => (rd c').share_full (hq _ c')
  have harrAt : ∀ c', ((rd c').arraysAt (pin (pcfgs (F := F)) adm p).N : sProp 𝕄)
      ⊢ iprop(∃ A, ⌜∀ w, (rd c').ArrAt w (pin (pcfgs (F := F)) adm p).N (A w)⌝ ∗ arrPts (pin (pcfgs (F := F)) adm p).spec c' A) := fun c' => by
    unfold RDat.arraysAt
    iintro Ha
    ihave Ha' := (BI.bigSep_exists_pi Finset.univ (fun w X => iprop(⌜(rd c').ArrAt w (pin (pcfgs (F := F)) adm p).N X⌝
        ∗ ((pin (pcfgs (F := F)) adm p).win w).arr.view.loc (c'.tc : Thread nD τ) ↦[((pin (pcfgs (F := F)) adm p).win w).arr.view.set]{(rd c').share w} X))) $$ Ha
    icases Ha' with ⟨%A, Ha⟩
    ihave Ha2 := (BI.bigSep_pure_sep Finset.univ (fun w => (rd c').ArrAt w (pin (pcfgs (F := F)) adm p).N (A w))
        (fun w => ((pin (pcfgs (F := F)) adm p).win w).arr.view.loc (c'.tc : Thread nD τ) ↦[((pin (pcfgs (F := F)) adm p).win w).arr.view.set]{(rd c').share w} A w)) $$ Ha
    icases Ha2 with ⟨%hA', Ha⟩
    iexists A; isplitr; · ipureintro; exact fun w => hA' w (Finset.mem_univ w)
    unfold arrPts
    simp only [fun w => (kit.arr_whole w).set_eq_univ, hshare c']
    iexact Ha
  have hjoin : ∀ c' A', iprop(arrPts (pin (pcfgs (F := F)) adm p).spec c' A' ∗ unscopedRest (pin (pcfgs (F := F)) adm p).spec c' (fun b => W b))
      ⊢ (StableHlo.held (c'.tc : Thread nD τ) (ucRefs τ sig) (withArrays (pin (pcfgs (F := F)) adm p).spec c' W A') : sProp 𝕄) := fun c' A' => by
    rw [← unscopedBufs_held (Ix := Unit) (Name := ℕ) (U := UR sig nD τ) (Lvl := ℕ) c' (withArrays (pin (pcfgs (F := F)) adm p).spec c' W A'),
      unscopedBufs_split (pin (pcfgs (F := F)) adm) p kit.win.arr_unscoped kit.win.arr_inj c' (fun b => withArrays (pin (pcfgs (F := F)) adm p).spec c' W A' b)]
    unfold arrPts
    refine sep_mono (Entails.of_eq (bigSep_congr fun w _ => by rw [withArrays_arr (pin (pcfgs (F := F)) adm p).spec kit.win.arr_inj c' W A' w])) (Entails.of_eq ?_)
    unfold unscopedRest
    exact bigSep_congr fun b hb => by
      dsimp only
      rw [withArrays_of_ne (pin (pcfgs (F := F)) adm p).spec c' W A' b fun w e => (Finset.mem_sdiff.mp hb).2 (Finset.mem_image.mpr ⟨w, Finset.mem_univ _, e⟩)]
  let R : RDat.RegionSeg (pcfgs (F := F)) adm (RDat.familyOf (pcfgs (F := F)) adm p rd) () defs₀ Variants.none L0 lv0 p :=
    { win := kit.win.to₀
      block_pos := kit.block_pos
      stage_whole := kit.stage_whole
      K := PEmpty
      osem := fun k => k.elim
      ho := OwnSemFacts.none _
      hbody := fun c' => by rw [RDat.familyOf_self]; exact hbody _ c'
      hwaits := RDat.hwaits_of_owed_zero (pcfgs (F := F)) adm (RDat.familyOf (pcfgs (F := F)) adm p rd) () L0 lv0 p fun c' t => by rw [RDat.familyOf_self]; exact howed _ c' t
      pre := fun c' => Between c' W
      post := fun c' => iprop(∃ W' : Valuation τ sig (Elt F), ⌜∀ b ∈ argRefs, W' b = W b⌝ ∗ Between c' W')
      X := fun c' => iprop(∃ r, prngReg c' r)
      Y := fun c' => iprop(∃ r, prngReg c' r)
      Z := fun c' => unscopedRest (pin (pcfgs (F := F)) adm p).spec c' (fun b => W b)
      hentry := fun c' => by
        rw [ownSems0_none, RDat.familyOf_self]
        have hsplit := RDat.arrays_of_unscopedBufs (pcfgs (F := F)) adm (RDat.familyOf (pcfgs (F := F)) adm p rd) (p := p) kit.win kit.arr_whole c'
          (fun w => by rw [RDat.familyOf_self]; exact hshare c' w) (fun b => W b) (fun w => by rw [RDat.familyOf_self]; exact hA _ c' w)
        rw [unscopedBufs_held, RDat.familyOf_self] at hsplit
        unfold Between
        iintro ⟨⟨Hub, Hp, HO⟩, -, -⟩
        ihave H := hsplit $$ Hub
        icases H with ⟨Ha, Hrest⟩
        imodintro
        isplitl [Ha]; · iexact Ha
        isplitr; · unfold prefHeld; rw [show (Finset.univ : Finset (Fin 0)) = ∅ from rfl, BI.bigSep_empty]; iempintro
        isplitl [HO]
        · unfold RDat.owesAt owesWithin
          rw [howed _ c' 0]
          icases HO with ⟨%Wd, HO⟩; iexists Wd; isplitr
          · ipureintro; exact fun x _ => Or.inl (by rw [hrec _ c' 0]; trivial)
          iexact HO
        isplitl [Hp]; · iexact Hp
        iexact Hrest
      hin := fun c' => by
        rw [RDat.familyOf_self]
        iintro ⟨Hp, -, Hr⟩
        iapply (hin _ c')
        unfold ΦA
        isplitl [Hr] <;> iassumption
      hout := fun c' => by
        rw [ownSems0_none, RDat.familyOf_self]
        iintro H
        ihave H' := (hout _ c') $$ H
        unfold ΦA
        icases H' with ⟨Hp, Hr⟩
        isplitl [Hr]; · iexact Hr
        isplitr; · iempintro
        iexact Hp
      hexit := fun c' => by
        rw [RDat.familyOf_self]
        iintro ⟨Ha, HO, HY, Hrest⟩
        ihave Ha' := (harrAt c') $$ Ha
        icases Ha' with ⟨%A', %hA', Ha⟩
        imodintro
        iexists (withArrays (pin (pcfgs (F := F)) adm p).spec c' W A')
        isplitr
        · ipureintro
          intro b hb0
          have hb := hargs b hb0
          by_cases h : ∃ w, arrRef (pin (pcfgs (F := F)) adm p).spec w = b
          · obtain ⟨w, rfl⟩ := h
            have hwin : ((pin (pcfgs (F := F)) adm p).win w).isOut = false := by
              cases e : ((pin (pcfgs (F := F)) adm p).win w).isOut
              · rfl
              · exact absurd rfl (hb w e)
            have h1 := hA' w
            rw [(rd c').ArrAt_in w hwin] at h1
            rw [withArrays_arr (pin (pcfgs (F := F)) adm p).spec kit.win.arr_inj c' W A' w, h1, hA _ c' w]
          · exact withArrays_of_ne (pin (pcfgs (F := F)) adm p).spec c' W A' b fun w e => h ⟨w, e⟩
        unfold Between
        isplitl [Ha Hrest]
        · iapply (hjoin c' A'); isplitl [Ha] <;> iassumption
        isplitl [HY]; · iexact HY
        unfold RDat.owesAt owesWithin
        rw [howed _ c' (Fin.last _)]
        icases HO with ⟨%Wd, -, HO⟩; iexists Wd; iexact HO }
  iapply (R.wp (pcfgs (F := F)) adm (RDat.familyOf (pcfgs (F := F)) adm p rd) () cellOf_inj emb₁ defs₀ Variants.none L0 lv0 c none (fun u h => nomatch h) (fun _ => Pipeline.chain l) Q)
  isplitl [Hk]
  · iintro ⟨Hbd, HA⟩
    icases HA with ⟨%W', %hW', HB⟩
    iapply Hk
    isplitl [Hbd]; · iexact Hbd
    iexists W'
    isplitr; · ipureintro; exact fun b hb => (hW' b hb).trans (hW b hb)
    iexact HB
  isplitl [Hbd]; · iexact Hbd
  isplitl [HB]; · iexact HB
  isplitl [Hla]; · iexact Hla
  isplitl [Hg] <;> iassumption

/-- A stretch of host operations keeps `Inv`: none of them writes an argument. -/
theorem host_inv (ops : List (HloOp τ sig (Elt F))) (hsub : ops.Forall fun op => op.bufs ⊆ StableHlo.tcRefs τ sig)
    (hfresh : ops.Forall fun op => op.fresh = ∅) (Wl : List (Ref sig .tc))
    (hwrites : ops.Forall fun op => op.writes ⊆ (Wl.map (Proc.devRef (τ := τ) .tc)).toFinset)
    (hargs : ∀ b ∈ argRefs, b ∉ Wl) (c : Dev nD) (l : List (Item F)) (Q : PUnit → sProp 𝕄) :
    iprop((iprop(boundary (c : Thread nD τ) ∗ Inv m c) -∗ Runs c (Pipeline.chain l) Q)
        ∗ boundary (c : Thread nD τ) ∗ Inv m c ∗ levAts L0 lv0)
      ⊢ Runs c (Pipeline.chain (StableHlo.seq ops :: l)) Q := by
  rw [Pipeline.chain_cons]
  unfold Inv
  iintro ⟨Hk, Hbd, HI, Hla⟩
  icases HI with ⟨%W, %hW, HB⟩
  have hrun := (Pipeline.HostSeg.ofOps (Ix := Unit) (Name := ℕ) (U := UR sig nD τ) (Lvl := ℕ) (pcfgs (F := F)) defs₀ Variants.none L0 lv0
      (Pipeline.ucRefs τ sig) ops
      (fun op h => Pipeline.sub_ucRefs op ((List.forall_iff_forall_mem.mp hsub) op h))
      (fun op h => (List.forall_iff_forall_mem.mp hfresh) op h) (fun _ => W)
      (fun c => iprop((∃ r, prngReg c r) ∗ ∃ Wd, owes (c : Thread nD τ) (0 : CellTallies nD τ sig Unit) Wd))).run c (fun _ => Pipeline.chain l) Q
  dsimp only [Pipeline.HostSeg.ofOps] at hrun
  iapply hrun
  isplitl [Hk]
  · iintro ⟨Hbd, HP⟩
    iapply Hk
    isplitl [Hbd]; · iexact Hbd
    iexists (StableHlo.after ops W)
    isplitr; · ipureintro; exact fun b hb => (StableHlo.after_of_writes_sub ops W hwrites (hargs b hb)).trans (hW b hb)
    unfold Between
    iexact HP
  isplitl [Hbd]; · iexact Hbd
  isplitl [HB]; · unfold Between; iexact HB
  iexact Hla

theorem args_unscoped : ∀ b ∈ argRefs, ¬ (Proc.devRef .tc b : DevRef τ sig).isScoped := by decide

/-- What the last item leaves: the arguments as launched, read off the last valuation. -/
def Last (c : Dev nD) : sProp 𝕄 :=
  iprop(∃ W : Valuation τ sig (Elt F), ⌜∀ b ∈ argRefs, W b = m ((c : Thread nD τ).loc b)⌝
    ∗ StableHlo.held (c : Thread nD τ) (Pipeline.ucRefs τ sig) W)

/-- Every item of @main keeps `Inv`, so the run ends and leaves the arguments as launched. -/
theorem frame_kernel (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  classical
  refine (θ_run (Pipeline.defs (pcfgs (F := F)) defs₀) _ _).mono
    (Q := fun r => ∀ c : Dev nD, ∀ b ∈ argRefs, r.2.mem ((c.tc : Thread nD τ).loc b) = m ((c.tc : Thread nD τ).loc b))
    (fun r h c => by simpa only [argRefs, List.forall_mem_cons, List.not_mem_nil, IsEmpty.forall_iff, implies_true, and_true] using h c)
    (adequate_tpu (Pipeline.defs (pcfgs (F := F)) defs₀) _ _ _ (reflect_intro_fupd_tc (X := Unit) (Variants.lift Variants.none) (Pipeline.owing 0) 0
      (fun _ => Nat.zero_le _) (Pipeline.owing_of_ne 0) (initOf (Pipeline.cells cfgs cellOf_inj) (Pipeline.launchToks cfgs cellOf_inj))
      (fun _ c => iprop(boundary (c.tc : Thread nD τ) ∗ Inv m c ∗ levAts L0 lv0 ∗ Pipeline.PerCore.ghostOn (pcfgs (F := F)) (fun _ => adm) emb₁ Finset.univ c)) (fun _ => Last m)
      (fun _ => iprop(emp)) Set.univ ?_ (fun _ c => ?_) fun _ => ?_))
  · have hper : ∀ c : Dev nD, iprop(coreInit (Ix := Unit) (Name := ℕ) (U := UR sig nD τ) (Lvl := ℕ) (Pipeline.owing 0) 0 (⟨m, fun _ => 0, ρ⟩ : MemSt nD τ sig (Elt F)) (c.tc : Thread nD τ)
          ∗ (bigSep Finset.univ fun p => Pipeline.PerCore.cellsGhost (Pipeline.pinD (pcfgs (F := F)) fun _ => adm) emb₁ p c)
          ∗ bigSep Finset.univ fun p => Pipeline.PerCore.toksInit (Pipeline.pinD (pcfgs (F := F)) fun _ => adm) emb₁ p c)
        ⊢ iprop(boundary (c.tc : Thread nD τ) ∗ Inv m c ∗ levAts L0 lv0 ∗ Pipeline.PerCore.ghostOn (pcfgs (F := F)) (fun _ => adm) emb₁ Finset.univ c) := fun c => by
      unfold Pipeline.PerCore.ghostOn Inv Between
      rw [bigSep_sep', show (levAts L0 lv0 : sProp 𝕄) = BI.emp from by unfold levAts; simp only [BI.bigSep_empty, BI.bigSep_emp_const]]
      iintro ⟨Hc, Hg, Ht⟩
      ihave Hc' := (Pipeline.coreInit_boundary_owing 0 m ρ c) $$ Hc
      icases Hc' with ⟨Hb, Hub, -, HO, -, Hp, -⟩
      iframe Hb Hg Ht
      isplitl; swap; · iempintro
      iexists (V0 m c)
      isplitr; · ipureintro; exact fun _ _ => rfl
      rw [← Pipeline.unscopedBufs_held c (V0 m c)]
      isplitl [Hub]; · iexact Hub
      isplitl [Hp]; · iexists _; iexact Hp
      iexists ∅; iexact HO
    iintro ⟨Hc, Hu⟩
    imod (show (ownU (initOf (Pipeline.cells cfgs cellOf_inj) (Pipeline.launchToks cfgs cellOf_inj)) : sProp 𝕄) ⊢ _ from Pipeline.PerCore.fund_ghost (Pipeline.pinD (pcfgs (F := F)) fun _ => adm) emb₁ cellOf_inj) $$ Hu with ⟨Hg, Ht⟩
    imodintro; iexists ()
    isplitl; swap; · iempintro
    iapply (show _ ⊢ _ from bigSep_mono fun c _ => hper c)
    rw [bigSep_sep', bigSep_sep']
    iframe
  · rw [main_chain c,
      Pipeline.PerCore.ghostOn_erase (pcfgs (F := F)) (fun _ => adm) emb₁ (p := (0 : Fin 4)) (Finset.mem_univ _) c,
      Pipeline.PerCore.ghostOn_erase (pcfgs (F := F)) (fun _ => adm) emb₁ (p := (1 : Fin 4)) (by decide) c,
      Pipeline.PerCore.ghostOn_erase (pcfgs (F := F)) (fun _ => adm) emb₁ (p := (2 : Fin 4)) (by decide) c,
      Pipeline.PerCore.ghostOn_erase (pcfgs (F := F)) (fun _ => adm) emb₁ (p := (3 : Fin 4)) (by decide) c]
    iintro ⟨Hbd, HI, #Hla, ⟨Hg0, Ht0⟩, ⟨Hg1, Ht1⟩, ⟨Hg2, Ht2⟩, ⟨Hg3, Ht3⟩, -⟩
    iapply (region_inv m 0 launch0 rdat0 rA_eq0 rbody0 (by decide) c _ _)
    iframe Hbd HI Hla Hg0 Ht0
    iintro ⟨Hbd, HI⟩
    iapply (region_inv m 1 launch1 rdat1 rA_eq1 rbody1 (by decide) c _ _)
    iframe Hbd HI Hla Hg1 Ht1
    iintro ⟨Hbd, HI⟩
    iapply (host_inv m hostOps2 hostOps2_sub hostOps2_fresh hostOps2_W hostOps2_writes (by decide) c _ _)
    iframe Hbd HI Hla
    iintro ⟨Hbd, HI⟩
    iapply (host_inv m hostOps2_1 hostOps2_1_sub hostOps2_1_fresh hostOps2_1_W hostOps2_1_writes (by decide) c _ _)
    iframe Hbd HI Hla
    iintro ⟨Hbd, HI⟩
    iapply (host_inv m hostOps2_2 hostOps2_2_sub hostOps2_2_fresh hostOps2_2_W hostOps2_2_writes (by decide) c _ _)
    iframe Hbd HI Hla
    iintro ⟨Hbd, HI⟩
    iapply (host_inv m hostOps2_3 hostOps2_3_sub hostOps2_3_fresh hostOps2_3_W hostOps2_3_writes (by decide) c _ _)
    iframe Hbd HI Hla
    iintro ⟨Hbd, HI⟩
    iapply (host_inv m hostOps2_4 hostOps2_4_sub hostOps2_4_fresh hostOps2_4_W hostOps2_4_writes (by decide) c _ _)
    iframe Hbd HI Hla
    iintro ⟨Hbd, HI⟩
    iapply (region_inv m 2 launch2 rdat2 rA_eq2 rbody2 (by decide) c _ _)
    iframe Hbd HI Hla Hg2 Ht2
    iintro ⟨Hbd, HI⟩
    iapply (host_inv m hostOps3 hostOps3_sub hostOps3_fresh hostOps3_W hostOps3_writes (by decide) c _ _)
    iframe Hbd HI Hla
    iintro ⟨Hbd, HI⟩
    iapply (region_inv m 3 launch3 rdat3 rA_eq3 rbody3 (by decide) c _ _)
    iframe Hbd HI Hla Hg3 Ht3
    iintro ⟨Hbd, HI⟩
    unfold Runs Inv Between post Last
    rw [show (Pipeline.chain [] : Item F) = .ret ⟨⟩ from rfl, wp_ret]
    icases HI with ⟨%W, %hW, Hh, -, HO⟩
    imodintro
    simp only [liftTc_tc]
    isplitl [Hh]
    · iexists W; isplitr; · ipureintro; exact hW
      iexact Hh
    iexact HO
  · have hfin : ∀ c (s' : Phys nD τ sig (Elt F)), iprop(Last m c ∗ SI s')
        ⊢ |={Set.univ}=> iprop(⌜∀ b ∈ argRefs, s'.mem.mem ((c.tc : Thread nD τ).loc b) = m ((c.tc : Thread nD τ).loc b)⌝ ∗ SI s') := fun c s' => by
      unfold Last StableHlo.held
      iintro ⟨HT, HSI⟩
      icases HT with ⟨%W, %hW, Hh⟩
      ihave Hr := (pointsTo_read_all (Pipeline.ucRefs τ sig) (fun b => ((c : Thread nD τ).1, b)) W s') $$ [Hh HSI]
      · isplitl [Hh] <;> iassumption
      icases Hr with ⟨%h, HSI⟩
      imodintro
      isplitr
      · ipureintro
        intro b hb
        exact (h (Proc.devRef .tc b) (Finset.mem_filter.mpr ⟨StableHlo.devRef_mem_tcRefs b, args_unscoped b hb⟩)).trans (hW b hb)
      · iexact HSI
    iintro ⟨H, -⟩ %s' HSI
    imod (posts_fupd Finset.univ hfin s') $$ [H HSI] with %h
    · isplitl [H] <;> iassumption
    imodintro
    ipureintro
    exact fun c => h c (Finset.mem_univ c)

/-- info: 'Cert.Kernel.Hand.frame_kernel' depends on axioms: [propext, Classical.choice, Quot.sound] -/
#guard_msgs in #print axioms frame_kernel

end Cert.Kernel.Hand

end
-- ==== Proof.KICommon.lean ====
import proofs.«167389_j35253091565659_2_alg».proof.Proof.Gen.KernelIdeal.Launch
import proofs.«167389_j35253091565659_2_alg».proof.Proof.Gen.KernelIdeal.Skeleton
import proofs.«167389_j35253091565659_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe

/-- The contents of every buffer of every core. -/
abbrev VT (F : FTy → Type) : Type :=
  (c : Dev nD) → (b : Ref sig .tc) → Buf (Elt F) ((c : Thread nD τ).loc b)

end Cert.KernelIdeal.Hand

end
-- ==== Proof.KIR0Data.lean ====
import proofs.«167389_j35253091565659_2_alg».proof.Proof.KICommon
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.Pipeline (Dat)
local notation "𝕄" => MT nD τ sig Unit (Elt Ideal) ℕ (UR sig nD τ) ℕ

def iblk0 (V : VT Ideal) (c : Dev nD) (w : Fin cfg0.W) (t : Fin cfg0.N) :
    ((cfg0.win w).xblock (cfg0.grid.coords t)).Idx → Elt Ideal (cfg0.win w).elt :=
  ((cfg0.win w).blk t).view.read (Elt Ideal) (V c (Pipeline.arrRef spec0 w))

abbrev zeroW : Elt Ideal .f32 := (0 : EReal)

/-- The x block at point `t`, zero past the array's last column. -/
def xblkZ (V : VT Ideal) (c : Dev nD) (t : Fin cfg0.N) : Vec Ideal S512x1024 .f32 :=
  win0_0.fill (grid0.coords t) (fun _ => zeroW) (iblk0 V c 0 t)

/-- The w block at point `t`, zero past the array's last column. -/
def wblkZ (V : VT Ideal) (c : Dev nD) (t : Fin cfg0.N) : Vec Ideal S1024x1024 .f32 :=
  win0_1.fill (grid0.coords t) (fun _ => zeroW) (iblk0 V c 1 t)

def bblk0 (V : VT Ideal) (c : Dev nD) (t : Fin cfg0.N) : Vec Ideal S1024 .f32 := iblk0 V c 2 t

/-- One accumulation: `acc` plus the product of point `n`'s masked x block with its w block. -/
def accStep0 (V : VT Ideal) (c : Dev nD) (n : ℕ) (hn : n < cfg0.N) (acc : Vec Ideal S512x1024 .f32) : Vec Ideal S512x1024 .f32 :=
  k0_pay2 (grid0.coords ⟨n, hn⟩) (xblkZ V c ⟨n, hn⟩) (wblkZ V c ⟨n, hn⟩) acc

/-- The accumulator after point `n`: restarted from zero at the first point of a row tile (k = 0), continued elsewhere. -/
def accAt0 (V : VT Ideal) (c : Dev nD) : (n : ℕ) → n < cfg0.N → Vec Ideal S512x1024 .f32
  | 0, hn => accStep0 V c 0 hn (k0_pay1 (F := Ideal))
  | n + 1, hn =>
    if (n + 1) % 30 = 0 then accStep0 V c (n + 1) hn (k0_pay1 (F := Ideal))
    else accStep0 V c (n + 1) hn (accAt0 V c n (Nat.lt_of_succ_lt hn))

theorem accAt0_reset (V : VT Ideal) (c : Dev nD) (n : ℕ) (hn : n < cfg0.N) (h0 : n % 30 = 0) :
    accAt0 V c n hn = accStep0 V c n hn (k0_pay1 (F := Ideal)) := by
  cases n with
  | zero => rfl
  | succ n => rw [accAt0]; exact if_pos h0

theorem accAt0_step (V : VT Ideal) (c : Dev nD) (n : ℕ) (hn : n + 1 < cfg0.N) (h0 : ¬(n + 1) % 30 = 0) :
    accAt0 V c (n + 1) hn = accStep0 V c (n + 1) hn (accAt0 V c n (Nat.lt_of_succ_lt hn)) := by
  rw [accAt0]; exact if_neg h0

/-- The block stored at the last point of a row tile: softplus of the accumulator plus the bias. -/
def outBlk0 (V : VT Ideal) (c : Dev nD) (t : Fin cfg0.N) : Vec Ideal S512x1024 .f32 :=
  k0_pay3 (accAt0 V c t.val t.isLt) (bblk0 V c t)

abbrev scM0 : Memref sig .tc .vmem S512x1024 .f32 := Memref.whole cc0_scratch0

/-- The invariant between points, the accumulator at `X`. -/
abbrev accInv0 (c : Dev nD) (X : Vec Ideal S512x1024 .f32) : sProp 𝕄 :=
  iprop(iprop(owns c.tc scM0 fullShare X
    ∗ Pipeline.scopedRestBut (Ix := Unit) (Name := ℕ) (U := UR sig nD τ) (Lvl := ℕ) (Val := Elt Ideal) spec0 c [cc0_scratch0]) ∗ (∃ r, prngReg c r))

def PhiS0 (V : VT Ideal) (c : Dev nD) : (n : ℕ) → n ≤ cfg0.N → sProp 𝕄
  | 0, _ => Pipeline.ΦA spec0 c
  | n + 1, hn => accInv0 c (accAt0 V c n hn)

def dat0 (V : VT Ideal) (c : Dev nD) : Dat τ (Elt Ideal) Unit ℕ (UR sig nD τ) ℕ cfg0 c where
  A w := V c (Pipeline.arrRef spec0 w)
  after w t := match w with
    | ⟨0, _⟩ => xblkZ V c t
    | ⟨1, _⟩ => wblkZ V c t
    | ⟨2, _⟩ => bblk0 V c t
    | ⟨3, _⟩ => outBlk0 V c t
  Φ t := PhiS0 V c t.val (Nat.le_of_lt_succ t.isLt)
  q _ := fullShare
  owed _ := 0

theorem A_eq0 (V : VT Ideal) (c : Dev nD) (w : Fin cfg0.W) : (dat0 V c).A w = V c (Pipeline.arrRef spec0 w) := rfl

theorem after0_3 (V : VT Ideal) (c : Dev nD) (t : Fin cfg0.N) : (dat0 V c).after 3 t = outBlk0 V c t := rfl

end Cert.KernelIdeal.Hand

end
-- ==== Proof.KIR1Data.lean ====
import proofs.«167389_j35253091565659_2_alg».proof.Proof.KICommon
noncomputable section
namespace Cert.KernelIdeal.Hand
open Cert.KernelIdeal Cert.KernelIdeal.Gen
open Idealize.ShloMosaic
open Idealize.SL.RA
open Idealize.ShloMosaic.Pipeline (Dat)

def iblk1 (V : VT Ideal) (c : Dev nD) (w : Fin cfg1.W) (t : Fin cfg1.N) :
    ((cfg1.win w).xblock (cfg1.grid.coords t)).Idx → Elt Ideal (cfg1.win w).elt :=
  ((cfg1.win w).blk t).view.read (Elt Ideal) (V c (Pipeline.arrRef spec1 w))

abbrev r1_x : Rect S512x1024 := Rect.unit (s := S512x1024) ![0, 0] S512x1024.size inb_S512x1024_S512x1024_0_0
abbrev r1_w : Rect S1024x1024 := Rect.unit (s := S1024x1024) ![0, 0] S1024x1024.size inb_S1024x1024_S1024x1024_0_0
abbrev r1_b : Rect S1024 := Rect.unit (s := S1024) ![0] S1024.size inb_S1024_S1024_0

/-- The accumulator after the one reduction step: zero plus the product of the two blocks. -/
def acc1 (x0 : Vec Ideal S512x1024 .f32) (x1 : Vec Ideal S1024x1024 .f32) : Vec Ideal S512x1024 .f32 :=
  k1_pay2 (View.ld x0 r1_x) (View.ld x1 r1_w) (k1_pay1 (F := Ideal))

/-- The result block: softplus of the accumulator plus the bias. -/
def out1_3 (x0 : Vec Ideal S512x1024 .f32) (x1 : Vec Ideal S1024x1024 .f32) (x2 : Vec Ideal S1024 .f32) :
    Vec Ideal S512x1024 .f32 :=
  View.canon [⟨r1_x, k1_pay3 (acc1 x0 x1) (View.ld x2 r1_b)⟩]

def dat1 (V : VT Ideal) (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (V : VT Ideal) (c : Dev nD) (w : Fin cfg1.W) : (dat1 V c).A w = V c (Pipeline.arrRef spec1 w) := rfl

theorem after1_3 (V : VT Ideal) (c : Dev nD) (t : Fin cfg1.N) :
    (dat1 V c).after 3 t = out1_3 (iblk1 V c 0 t) (iblk1 V c 1 t) (iblk1 V c 2 t) := by dsimp only [dat1]

end Cert.KernelIdeal.Hand
end
-- ==== Proof.KIR2Data.lean ====
import proofs.«167389_j35253091565659_2_alg».proof.Proof.KICommon
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
local notation "𝕄" => MT nD τ sig Unit (Elt Ideal) ℕ (UR sig nD τ) ℕ

/-- The pair (running maximum, running sum). -/
abbrev SC2 : Type := Vec Ideal S256x1 .f32 × Vec Ideal S256x1 .f32

/-- mu's block at point `t`, read off the array as the region finds it. -/
def mublk2 (V : VT Ideal) (c : Dev nD) (t : Fin cfg2.N) : Vec Ideal S256x300 .f32 :=
  ((cfg2.win 0).blk t).view.read (Elt Ideal) (V c (Pipeline.arrRef spec2 0))

/-- emb's block at point `t`, its part inside the array (640 rows, 560 at v = 46). -/
def embblk2 (V : VT Ideal) (c : Dev nD) (t : Fin cfg2.N) : ((cfg2.win 1).xblock (cfg2.grid.coords t)).Idx → Elt Ideal (cfg2.win 1).elt :=
  ((cfg2.win 1).blk t).view.read (Elt Ideal) (V c (Pipeline.arrRef spec2 1))

/-- The same filled out to 640 rows with zero. -/
def embz2 (V : VT Ideal) (c : Dev nD) (t : Fin cfg2.N) : Vec Ideal S640x300 .f32 :=
  (cfg2.win 1).fill (cfg2.grid.coords t) (fun _ => (Scalar.ofBits .f32 0#32 : Ideal .f32)) (embblk2 V c t)

/-- What the reset at v = 0 stores: m = NEG, l = 0. -/
def init2 : SC2 := (k2_pay2 (F := Ideal), k2_pay3 (F := Ideal))

/-- One point's update of the pair: m' = max(m, rowmax), l' = exp(m - m') * l + rowsum(exp(masked logits - m')). -/
def step2 (i : grid2.Coords) (x0 : Vec Ideal S256x300 .f32) (x1 : Vec Ideal S640x300 .f32) (s : SC2) : SC2 :=
  (k2_pay1 (k2_pay6 i x0 x1 s.1), k2_pay7 i x0 x1 s.1 s.1 s.2)

/-- The pair after the body at position `n`: the update of the reset pair where v = 0, of what the point before left elsewhere. -/
def scAt2 (V : VT Ideal) (c : Dev nD) : (n : ℕ) → n < cfg2.N → SC2
  | 0, hn => step2 (grid2.coords ⟨0, hn⟩) (mublk2 V c ⟨0, hn⟩) (embz2 V c ⟨0, hn⟩) init2
  | n + 1, hn =>
    step2 (grid2.coords ⟨n + 1, hn⟩) (mublk2 V c ⟨n + 1, hn⟩) (embz2 V c ⟨n + 1, hn⟩)
      (if (n + 1) % 47 = 0 then init2 else scAt2 V c n (Nat.lt_of_succ_lt hn))

theorem scAt2_first (V : VT Ideal) (c : Dev nD) (t : Fin cfg2.N) (h : t.val % 47 = 0) :
    scAt2 V c t.val t.isLt = step2 (grid2.coords t) (mublk2 V c t) (embz2 V c t) init2 := by
  obtain ⟨_ | n, hn⟩ := t
  · rfl
  · have h' : (n + 1) % 47 = 0 := h
    rw [scAt2, if_pos h']

theorem scAt2_next (V : VT Ideal) (c : Dev nD) (t : Fin cfg2.N) (h : ¬t.val % 47 = 0) :
    scAt2 V c t.val t.isLt = step2 (grid2.coords t) (mublk2 V c t) (embz2 V c t)
      (scAt2 V c (t.val - 1) (Nat.lt_of_le_of_lt (Nat.sub_le _ _) t.isLt)) := by
  obtain ⟨_ | n, hn⟩ := t
  · exact absurd (Nat.zero_mod _) h
  · have h' : ¬(n + 1) % 47 = 0 := h
    rw [scAt2, if_neg h']
    rfl

abbrev scM2_0 : Memref sig .tc .vmem S256x1 .f32 := Memref.whole cc2_scratch0
abbrev scM2_1 : Memref sig .tc .vmem S256x1 .f32 := Memref.whole cc2_scratch1

/-- The scratch pair at `s`, the region's other scoped buffers at anything, and the generator register. -/
abbrev scr2 (c : Dev nD) (s : SC2) : sProp 𝕄 :=
  iprop(iprop(iprop(owns (c : Thread nD τ) scM2_0 fullShare s.1 ∗ owns (c : Thread nD τ) scM2_1 fullShare s.2)
      ∗ Pipeline.scopedRestBut (Ix := Unit) (Name := ℕ) (U := UR sig nD τ) (Lvl := ℕ) (Val := Elt Ideal) spec2 c [cc2_scratch0, cc2_scratch1])
    ∗ (∃ r, prngReg c r))

/-- The invariant before position `n`: what the launch hands over, then the scratch pair at what the point before left. -/
def PhiS2 (V : VT Ideal) (c : Dev nD) : (n : ℕ) → n ≤ cfg2.N → sProp 𝕄
  | 0, _ => Pipeline.ΦA spec2 c
  | n + 1, hn => scr2 c (scAt2 V c n hn)

/-- The proof data: inputs at their blocks (emb's filled out with zero), the result buffers at the pair after the point. -/
def dat2 (V : VT Ideal) (c : Dev nD) : Dat τ (Elt Ideal) Unit ℕ (UR sig nD τ) ℕ cfg2 c where
  A w := V c (Pipeline.arrRef spec2 w)
  after w t := match w with
    | ⟨0, _⟩ => mublk2 V c t
    | ⟨1, _⟩ => embz2 V c t
    | ⟨2, _⟩ => (scAt2 V c t.val t.isLt).1
    | ⟨3, _⟩ => (scAt2 V c t.val t.isLt).2
  Φ t := PhiS2 V c t.val (Nat.le_of_lt_succ t.isLt)
  q _ := fullShare
  owed _ := 0

theorem A_eq2 (V : VT Ideal) (c : Dev nD) (w : Fin cfg2.W) : (dat2 V c).A w = V c (Pipeline.arrRef spec2 w) := by
  dsimp only [dat2]

theorem after2_0 (V : VT Ideal) (c : Dev nD) (t : Fin cfg2.N) : (dat2 V c).after 0 t = mublk2 V c t := by dsimp only [dat2]
theorem after2_1 (V : VT Ideal) (c : Dev nD) (t : Fin cfg2.N) : (dat2 V c).after 1 t = embz2 V c t := by dsimp only [dat2]
theorem after2_2 (V : VT Ideal) (c : Dev nD) (t : Fin cfg2.N) : (dat2 V c).after 2 t = (scAt2 V c t.val t.isLt).1 := by dsimp only [dat2]
theorem after2_3 (V : VT Ideal) (c : Dev nD) (t : Fin cfg2.N) : (dat2 V c).after 3 t = (scAt2 V c t.val t.isLt).2 := by dsimp only [dat2]

end Cert.KernelIdeal.Hand

end
-- ==== Proof.KIR3Data.lean ====
import proofs.«167389_j35253091565659_2_alg».proof.Proof.KICommon
import Idealize.ShloMosaic.PureOps.Ideal
import Idealize.ShloMosaic.PureOps.Ideal.Laws
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
local notation "𝕄" => MT nD τ sig Unit (Elt Ideal) ℕ (UR sig nD τ) ℕ

variable (V : VT Ideal)

/-- Window `w`'s block at point `t`, read off its array as the region finds it: its part inside the array. -/
def iblk3 (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

/-- The embedding table's block at point `t`, 640 rows: those inside the array, and zero past the array's end. -/
def eblk3 (c : Dev nD) (t : Fin cfg3.N) : Vec Ideal S640x300 .f32 :=
  win3_1.fill (grid3.coords t) (fun _ => Scalar.ofBits (F := Ideal) .f32 0#32) (iblk3 V c 1 t)

abbrev r3_0 : Rect S512x300 := Rect.unit (s := S512x300) ![0, 0] S512x300.size inb_S512x300_S512x300_0_0
abbrev r3_1 : Rect S640x300 := Rect.unit (s := S640x300) ![0, 0] S640x300.size inb_S640x300_S640x300_0_0
abbrev r3_2 : Rect S512x1 := Rect.unit (s := S512x1) ![0, 0] S512x1.size inb_S512x1_S512x1_0_0
abbrev r3_4 : Rect S2048x512 := Rect.unit (s := S2048x512) ![0, 0] S2048x512.size inb_S2048x512_S2048x512_0_0
abbrev r3_5 : Rect S2048x640 := Rect.unit (s := S2048x640) ![0, 0] S2048x640.size inb_S2048x640_S2048x640_0_0

/-- The result's buffer after the body: its one store, of zx_phi · beta, over the whole buffer. -/
def out3_5 (i : grid3.Coords) (x0 : Vec Ideal S512x300 .f32) (x1 : Vec Ideal S640x300 .f32) (x2 : Vec Ideal S512x1 .f32)
    (x3 : Vec Ideal S512x1 .f32) (x4 : Vec Ideal S2048x512 .bf16) : Vec Ideal S2048x640 .f32 :=
  View.canon [⟨r3_5, k3_pay1 i (View.ld x0 r3_0) (View.ld x1 r3_1) (View.ld x2 r3_2) (View.ld x3 r3_2) (View.ld x4 r3_4)⟩]

/-- The proof data: each input's buffer at its block (the table's filled out with zero), the result's at the product of those. -/
def dat3 (c : Dev nD) : Dat τ (Elt Ideal) Unit ℕ (UR sig nD τ) ℕ cfg3 c where
  A w := V c (Pipeline.arrRef spec3 w)
  after w t := match w with
    | ⟨0, _⟩ => iblk3 V c 0 t
    | ⟨1, _⟩ => eblk3 V c t
    | ⟨2, _⟩ => iblk3 V c 2 t
    | ⟨3, _⟩ => iblk3 V c 3 t
    | ⟨4, _⟩ => iblk3 V c 4 t
    | ⟨5, _⟩ => out3_5 (grid3.coords t) (iblk3 V c 0 t) (eblk3 V c t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = eblk3 V c t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (grid3.coords t) (iblk3 V c 0 t) (eblk3 V c t) (iblk3 V c 2 t) (iblk3 V c 3 t) (iblk3 V c 4 t) := by dsimp only [dat3]

/-- The one store covers the buffer and every load is of a whole buffer: what is left is the payload of the contents. -/
theorem out3_5_eq (i : grid3.Coords) (x0 : Vec Ideal S512x300 .f32) (x1 : Vec Ideal S640x300 .f32) (x2 : Vec Ideal S512x1 .f32)
    (x3 : Vec Ideal S512x1 .f32) (x4 : Vec Ideal S2048x512 .bf16) :
    out3_5 i x0 x1 x2 x3 x4 = k3_pay1 i x0 x1 x2 x3 x4 := by
  have hz : (![0, 0] : Fin 2 → Nat) = fun _ => 0 := funext fun a => by fin_cases a <;> rfl
  unfold out3_5
  rw [View.canon_unit_zero hz, View.ld_unit_zero (S := S512x300) hz, View.ld_unit_zero (S := S640x300) hz,
    View.ld_unit_zero (S := S512x1) hz, View.ld_unit_zero (S := S512x1) hz, View.ld_unit_zero (S := S2048x512) hz]

end Cert.KernelIdeal.Hand

end
-- ==== Proof.KIFold.lean ====
import proofs.«167389_j35253091565659_2_alg».proof.Proof.KIR0Data
import proofs.«167389_j35253091565659_2_alg».proof.Proof.KIR1Data
import proofs.«167389_j35253091565659_2_alg».proof.Proof.KIR2Data
import proofs.«167389_j35253091565659_2_alg».proof.Proof.KIR3Data

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ)

/-! Every buffer's contents at each boundary between two items: after a region its arrays at their final contents, after host operations those applied. -/

abbrev W0 : Dev nD → Valuation τ sig (Elt Ideal) := fun c b => m ((c : Dev nD), b)
abbrev V0 : VT Ideal := fun c b => W0 m c b
def W1 (c : Dev nD) : Valuation τ sig (Elt Ideal) :=
  Pipeline.withArrays spec0 c (W0 m c) fun w => (dat0 (V0 m) c).arrAt w cfg0.N
abbrev V1 : VT Ideal := fun c b => W1 m c b
def W2 (c : Dev nD) : Valuation τ sig (Elt Ideal) :=
  Pipeline.withArrays spec1 c (W1 m c) fun w => (dat1 (V1 m) c).arrAt w cfg1.N
abbrev W3 : Dev nD → Valuation τ sig (Elt Ideal) := fun c => StableHlo.after hostOps2 (W2 m c)
abbrev W4 : Dev nD → Valuation τ sig (Elt Ideal) := fun c => StableHlo.after hostOps2_1 (W3 m c)
abbrev W5 : Dev nD → Valuation τ sig (Elt Ideal) := fun c => StableHlo.after hostOps2_2 (W4 m c)
abbrev W6 : Dev nD → Valuation τ sig (Elt Ideal) := fun c => StableHlo.after hostOps2_3 (W5 m c)
abbrev W7 : Dev nD → Valuation τ sig (Elt Ideal) := fun c => StableHlo.after hostOps2_4 (W6 m c)
abbrev V7 : VT Ideal := fun c b => W7 m c b
def W8 (c : Dev nD) : Valuation τ sig (Elt Ideal) :=
  Pipeline.withArrays spec2 c (W7 m c) fun w => (dat2 (V7 m) c).arrAt w cfg2.N
abbrev W9 : Dev nD → Valuation τ sig (Elt Ideal) := fun c => StableHlo.after hostOps3 (W8 m c)
abbrev V9 : VT Ideal := fun c b => W9 m c b
def W10 (c : Dev nD) : Valuation τ sig (Elt Ideal) :=
  Pipeline.withArrays spec3 c (W9 m c) fun w => (dat3 (V9 m) c).arrAt w cfg3.N

/-- Every region's proof data, each at its region's entry contents. -/
def pdats : (p : Fin 4) → (c : Dev nD) → Dat τ (Elt Ideal) Unit ℕ (UR sig nD τ) ℕ (Pipeline.pin (pcfgs (F := Ideal)) (fun p => (cfgs p).toPCfg_adm) p) c
  | ⟨0, _⟩ => fun c => dat0 (V0 m) c
  | ⟨1, _⟩ => fun c => dat1 (V1 m) c
  | ⟨2, _⟩ => fun c => dat2 (V7 m) c
  | ⟨3, _⟩ => fun c => dat3 (V9 m) c

end Cert.KernelIdeal.Hand

end
-- ==== Proof.KIR0Body.lean ====
import proofs.«167389_j35253091565659_2_alg».proof.Proof.KIR0Data
import Idealize.ShloMosaic.Lib.Pipeline.Value
import Idealize.ShloMosaic.Lib.ValueIdx
import Idealize.ShloMosaic.Lib.WordArith
noncomputable section
namespace Cert.KernelIdeal.Hand
open Cert.KernelIdeal Cert.KernelIdeal.Gen
open Idealize.ShloMosaic Idealize.ShloMosaic.TcCoe Idealize.ShloMosaic.Tactic
open Idealize.SL.RA Idealize.SL.BI
open scoped Idealize.SL.BI
open Idealize.SL.BI.BIBase Idealize.SL.Sem
open Idealize.ShloMosaic.Pipeline (Dat Window BodyObligationLoose)
local notation "𝕄" => MT nD τ sig Unit (Elt Ideal) ℕ (UR sig nD τ) ℕ

abbrev cond0_0 (i : grid0.Coords) : Prop := (Scalar.cmpi .ne (Scalar.extui (Scalar.cmpi .eq (BitVec.ofNat 32 (i 2).val) 0#32)) 0#32) = 1#1
abbrev cond0_1 (i : grid0.Coords) : Prop := k0_cond2 i = 1#1

theorem mask_iff (a b : ℕ) (ha : a < 30) (hb : b < 1024) :
    IntOp.cmpi .slt (IntOp.addi (Scalar.muli (BitVec.ofNat 32 a) 1024#32) (BitVec.ofNat 32 b)) 30000#32 = 1#1 ↔ a * 1024 + b < 30000 := by
  have e : IntOp.addi (Scalar.muli (BitVec.ofNat 32 a) 1024#32) (BitVec.ofNat 32 b) = BitVec.ofNat 32 (a * 1024 + b) := by
    unfold IntOp.addi Scalar.muli IntOp.muli
    rw [show (1024#32 : BitVec 32) = BitVec.ofNat 32 1024 from rfl, ← BitVec.ofNat_mul, ← BitVec.ofNat_add]
  rw [e]; unfold IntOp.cmpi; simp only []
  rw [WordArith.ofBool_eq_one_iff, BitVec.slt, decide_eq_true_iff, WordArith.toInt_ofNat_small _ (by omega), show (30000#32 : BitVec 32).toInt = 30000 from by decide]
  omega

theorem xsize0 : ∀ i : grid0.Coords, (win0_0.xsize i 0 = 512 ∧ win0_1.xsize i 0 = 1024) ∧
    min 1024 (30000 - (i 2).val * 1024) ≤ win0_0.xsize i 1 ∧ min 1024 (30000 - (i 2).val * 1024) ≤ win0_1.xsize i 1 := by decide +kernel

/-- A column index inside the arrays lies inside the clipped part of both blocks. -/
theorem moved0 (i : grid0.Coords) (p : S512x1024.Idx) (q : S1024x1024.Idx) (hq : (p 1).val = (q 1).val) (h : (i 2).val * 1024 + (p 1).val < 30000) :
    win0_0.moved i p = true ∧ win0_1.moved i q = true := by
  obtain ⟨⟨a0, a1⟩, b0, b1⟩ := xsize0 i
  have hp : (p 1).val < 1024 := (p 1).isLt
  refine ⟨(Window.moved_iff _ _ _).mpr fun a => ?_, (Window.moved_iff _ _ _).mpr fun a => ?_⟩
  · match a with
    | ⟨0, _⟩ => exact lt_of_lt_of_eq (p 0).isLt a0.symm
    | ⟨1, _⟩ => show (p 1).val < win0_0.xsize i 1; omega
  · match a with
    | ⟨0, _⟩ => exact lt_of_lt_of_eq (q 0).isLt a1.symm
    | ⟨1, _⟩ => show (q 1).val < win0_1.xsize i 1; omega

/-- The accumulation does not depend on what fills the blocks past the arrays' last column: the x entry there is masked to zero. -/
theorem pay2_fill (i : grid0.Coords) (d0 : S512x1024.Idx → EReal) (d1 : S1024x1024.Idx → EReal)
    (xb : (win0_0.xblock i).Idx → EReal) (wb : (win0_1.xblock i).Idx → EReal) (acc : Vec Ideal S512x1024 .f32) :
    k0_pay2 (F := Ideal) i (win0_0.fill i d0 xb) (win0_1.fill i d1 wb) acc
      = k0_pay2 (F := Ideal) i (win0_0.fill i (fun _ => zeroW) xb) (win0_1.fill i (fun _ => zeroW) wb) acc := by
  funext j
  unfold k0_pay2
  simp only [shapeCast_self, matmul]
  rw [ValueIdx.addf_apply, ValueIdx.addf_apply, Ideal.matmul_constant_zero_apply, Ideal.matmul_constant_zero_apply]
  refine congrArg _ (Finset.sum_congr rfl fun k _ => ?_)
  have hpq := (DotDims.lhsIdx_val_of_single dot_S512x1024_S1024x1024_S512x1024_1_1_0_0_n_n rfl j k).trans (DotDims.rhsIdx_val_of_single _ rfl j k).symm
  generalize DotDims.lhsIdx _ j k = p at hpq ⊢
  generalize DotDims.rhsIdx _ j k = q at hpq ⊢
  simp only [ValueIdx.truncf_apply, ValueIdx.select_apply]
  generalize hm : cmpi CmpIPredicate.slt _ _ p = m
  by_cases h1 : m = 1#1
  · obtain ⟨m0, m1⟩ := moved0 i p q hpq ((mask_iff _ _ (i 2).isLt (p 1).isLt).mp (by rw [← iota_single_apply]; exact hm.trans h1))
    unfold Window.fill; rw [dif_pos m0, dif_pos m0, dif_pos m1, dif_pos m1]
  · rw [ValueIdx.eq_zero_of_ne_one h1, ValueIdx.select_zero, ValueIdx.select_zero]
    show Ideal.ofBits .f32 0#32 * _ = Ideal.ofBits .f32 0#32 * _
    rw [Ideal.ofBits_zero_f32, zero_mul, zero_mul]

theorem hz0 : (![0, 0] : Fin 2 → ℕ) = fun _ => 0 := funext fun a => by fin_cases a <;> rfl
theorem hz1 : (![0] : Fin 1 → ℕ) = fun _ => 0 := funext fun a => by fin_cases a; rfl

abbrev r0 : Rect S512x1024 := Rect.unit (s := S512x1024) ![0, 0] S512x1024.size inb_S512x1024_S512x1024_0_0

/-- Of writes the last of which covers every index, that one's payload is read back. -/
theorem read_writes_head {κ : Kind} {sp : Space} (v : View sig κ sp S512x1024 .f32) (f : v.ty.Contents (Elt Ideal)) (p : Vec Ideal S512x1024 .f32)
    (L : List (View.Piece (Elt Ideal) S512x1024 .f32)) : v.read (Elt Ideal) (v.writes (Elt Ideal) f (⟨r0, p⟩ :: L)) = p := by
  rw [View.read_writes_eq_canon _ _ _ fun y => ⟨_, List.mem_cons_self, View.mem_set_unit_zero hz0 inb_S512x1024_S512x1024_0_0 y⟩,
    View.canon_cons_unit_zero (S := S512x1024) hz0]

/-- The point is the first of its row tile, the last, or neither. -/
theorem tri0 : ∀ i : grid0.Coords, cond0_0 i ∧ ¬cond0_1 i ∨ ¬cond0_0 i ∧ ¬cond0_1 i ∨ ¬cond0_0 i ∧ cond0_1 i := by decide +kernel

theorem run0 (c : Dev nD) (E : Set ℕ) (i : grid0.Coords)
    (arg3 : Memref sig .tc .vmem S512x1024 .f32) (harg3 : arg3.IsWhole) (arg4 : Memref sig .tc .vmem S1024x1024 .f32) (harg4 : arg4.IsWhole)
    (arg5 : Memref sig .tc .vmem S1024 .f32) (harg5 : arg5.IsWhole) (arg6 : Memref sig .tc .vmem S512x1024 .f32) (harg6 : arg6.IsWhole)
    (arg7 : Memref sig .tc .vmem S512x1024 .f32) (harg7 : arg7.IsWhole)
    (X0 : Vec Ideal S512x1024 .f32) (X1 : Vec Ideal S1024x1024 .f32) (X2 : Vec Ideal S1024 .f32) (d xs : Vec Ideal S512x1024 .f32) (K : PUnit → sProp 𝕄) :
    iprop(owns c.tc arg3 fullShare X0 ∗ owns c.tc arg4 fullShare X1 ∗ owns c.tc arg5 fullShare X2
        ∗ owns c.tc arg6 fullShare d ∗ owns c.tc arg7 fullShare xs
        ∗ (iprop(owns c.tc arg3 fullShare X0 ∗ owns c.tc arg4 fullShare X1 ∗ owns c.tc arg5 fullShare X2
            ∗ owns c.tc arg6 fullShare (if cond0_1 i then k0_pay3 (k0_pay2 i X0 X1 (if cond0_0 i then k0_pay1 (F := Ideal) else xs)) X2 else d)
            ∗ owns c.tc arg7 fullShare (k0_pay2 i X0 X1 (if cond0_0 i then k0_pay1 (F := Ideal) else xs))) -∗ K ⟨⟩))
      ⊢ wp frame (wpE (defs₀ (F := Ideal)) Variants.none c none) E (cc0__gemm_act_kernel i arg3 harg3 arg4 harg4 arg5 harg5 arg6 harg6 arg7 harg7) K := by
  obtain ⟨hc0, hc1⟩ | ⟨hc0, hc1⟩ | ⟨hc0, hc1⟩ := tri0 i <;> simp only [cond0_0, cond0_1, hc0, hc1, if_true, if_false, eq_self_iff_true]
  all_goals
    simp only [cc0__gemm_act_kernel_eq_skeleton]; unfold cc0__gemm_act_kernel_skel owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hfs
    sl_exec (disch := first | exact hc0 | exact hc1)
    sl_step
    iapply Hk
    isplitl [H0]; swap; isplitl [H1]; swap; isplitl [H2]; swap; isplitl [H3]; swap
    all_goals iexists _; isplitr; swap; first | iexact H0 | iexact H1 | iexact H2 | iexact H3 | iexact HS
    all_goals ipureintro; try sl_unfold_words
    all_goals try rw [read_writes_head]
    all_goals simp only [View.readAt_eq_ld, hf0, hf1, hf2, hf3, hfs, View.ld_unit_zero (S := S512x1024) hz0, View.ld_unit_zero (S := S1024x1024) hz0,
      View.ld_unit_zero (S := S1024) hz1, View.readCov_unit_zero (S := S512x1024) _ hz0]

theorem hcond0_0 : ∀ t : Fin cfg0.N, cond0_0 (grid0.coords t) ↔ t.val % 30 = 0 :=
  (by decide +kernel : ∀ t : Fin grid0.N, cond0_0 (grid0.coords t) ↔ t.val % 30 = 0)

theorem stored0_3 : ∀ t : Fin cfg0.N, if cond0_1 (grid0.coords t) then cfg0.idle 3 (grid0.coords t) = false
    else cfg0.idle 3 (grid0.coords t) = true ∧ (cfg0.win 3).flush t = false := by decide +kernel

theorem before0_0 (V : VT Ideal) (c : Dev nD) (t : Fin cfg0.N) (d) :
    (dat0 V c).before 0 t d = win0_0.fill (grid0.coords t) d (iblk0 V c 0 t) := (dat0 V c).before_fetched 0 t (fetch0_0 t) d
theorem before0_1 (V : VT Ideal) (c : Dev nD) (t : Fin cfg0.N) (d) :
    (dat0 V c).before 1 t d = win0_1.fill (grid0.coords t) d (iblk0 V c 1 t) := (dat0 V c).before_fetched 1 t (fetch0_1 t) d
theorem before0_2 (V : VT Ideal) (c : Dev nD) (t : Fin cfg0.N) (d) : (dat0 V c).before 2 t d = bblk0 V c t :=
  (dat0 V c).before_in_eq_fetched 2 rfl (fun _ => rfl) (fun _ _ _ => rfl) (fun _ => rfl) t d

theorem PhiA0_eq (c : Dev nD) :
    (Pipeline.ΦA spec0 c : sProp 𝕄)
      = iprop(iprop((∃ d, owns c.tc scM0 fullShare d) ∗ Pipeline.scopedRestBut (Ix := Unit) (Name := ℕ) (U := UR sig nD τ) (Lvl := ℕ) (Val := Elt Ideal) spec0 c [cc0_scratch0]) ∗ (∃ r, prngReg c r)) := by
  unfold Pipeline.ΦA; rw [scopedRest0_split]; simp only [scM0, owns_whole]; rfl

/-- Before point `t` the accumulator holds some `xs` from which the point's step gives `accAt0` at `t`. -/
theorem Phi0_open (V : VT Ideal) (c : Dev nD) (t : Fin cfg0.N) :
    (dat0 V c).Φ t.castSucc ⊢ iprop(∃ xs, ⌜k0_pay2 (grid0.coords t) (xblkZ V c t) (wblkZ V c t) (if cond0_0 (grid0.coords t) then k0_pay1 (F := Ideal) else xs)
      = accAt0 V c t.val t.isLt⌝ ∗ accInv0 c xs) := by
  unfold accInv0
  obtain ⟨_ | n, hn⟩ := t
  · show Pipeline.ΦA spec0 c ⊢ _
    rw [PhiA0_eq]
    iintro ⟨⟨⟨%d, HS⟩, HR⟩, Hg⟩
    iexists d; isplitr; · ipureintro; rw [if_pos ((hcond0_0 _).mpr rfl)]; rfl
    iframe
  · show accInv0 c (accAt0 V c n (Nat.lt_of_succ_lt hn)) ⊢ _
    iintro H; iexists _; isplitr; swap; · iexact H
    ipureintro
    by_cases h : (n + 1) % 30 = 0
    · rw [accAt0_reset V c _ hn h, if_pos ((hcond0_0 _).mpr h)]; rfl
    · rw [accAt0_step V c n hn h, if_neg (mt (hcond0_0 _).mp h)]; rfl

theorem out0_3 (V : VT Ideal) (c : Dev nD) (t : Fin cfg0.N) (d) :
    owns c.tc (st0_3 t) fullShare (if cond0_1 (grid0.coords t) then outBlk0 V c t else (dat0 V c).before 3 t d) ⊢ (dat0 V c).leaves 3 t := by
  have h := stored0_3 t
  by_cases h1 : cond0_1 (grid0.coords t)
  · rw [if_pos h1] at h ⊢; unfold Dat.leaves; rw [h]; exact .rfl
  · rw [if_neg h1] at h ⊢; rw [Dat.leaves_idle _ 3 t h.1 h.2]; iintro H; iexists d; iexact H

theorem sound_body0 (V : VT Ideal) (c : Dev nD) (t : Fin cfg0.N) :
    iprop((dat0 V c).Φ t.castSucc ∗ (dat0 V c).owesAt () t.castSucc
      ∗ (∃ d, owns c.tc (st0_0 t) fullShare ((dat0 V c).before 0 t d))
      ∗ (∃ d, owns c.tc (st0_1 t) fullShare ((dat0 V c).before 1 t d))
      ∗ (∃ d, owns c.tc (st0_2 t) fullShare ((dat0 V c).before 2 t d))
      ∗ (∃ d, owns c.tc (st0_3 t) fullShare ((dat0 V c).before 3 t d)))
    ⊢ wp frame (wpE (defs₀ (F := Ideal)) Variants.none c none) Set.univ (bodyAt0 t) fun _ =>
      iprop(accInv0 c (accAt0 V c t.val t.isLt) ∗ (dat0 V c).owesAt () t.castSucc
        ∗ (∃ d, owns c.tc (st0_0 t) fullShare (win0_0.fill (grid0.coords t) d (win0_0.cut (grid0.coords t) (xblkZ V c t))))
        ∗ (∃ d, owns c.tc (st0_1 t) fullShare (win0_1.fill (grid0.coords t) d (win0_1.cut (grid0.coords t) (wblkZ V c t))))
        ∗ owns c.tc (st0_2 t) fullShare (bblk0 V c t)
        ∗ (dat0 V c).leaves 3 t) := by
  simp only [before0_0, before0_1, before0_2, xblkZ, wblkZ, Window.cut_fill]
  iintro ⟨HΦ, Ho, ⟨%d0, H0⟩, ⟨%d1, H1⟩, ⟨%d2, H2⟩, ⟨%d3, H3⟩⟩
  icases (Phi0_open V c t) $$ HΦ with ⟨%xs, %hacc, ⟨HS, HR⟩, Hg⟩
  iapply run0 c Set.univ (grid0.coords t) _ _ _ _ _ _ _ _ _ _ _ _ _ _ xs
  iframe H0 H1 H2 H3 HS
  iintro ⟨H0, H1, H2, H3, HS⟩
  rw [(pay2_fill (grid0.coords t) d0 d1 _ _ _).trans hacc]
  unfold accInv0
  iframe HS HR Hg Ho H2
  isplitl [H0]; · iexists _; iexact H0
  isplitl [H1]; · iexists _; iexact H1
  iapply out0_3 V c t d3; iexact H3

theorem body_obligation0 (V : VT Ideal) (c : Dev nD) :
    BodyObligationLoose (dat0 V c) (defs₀ (F := Ideal)) Variants.none () Set.univ := fun t => by
  rw [bigSep_W0, bigSep_W0]
  exact sound_body0 V c t

theorem hin0 (V : VT Ideal) (c : Dev nD) : Pipeline.ΦA spec0 c ⊢ ((dat0 V c).Φ 0 : sProp 𝕄) := .rfl

theorem hout0 (V : VT Ideal) (c : Dev nD) : ((dat0 V c).Φ (Fin.last cfg0.N) : sProp 𝕄) ⊢ Pipeline.ΦA spec0 c := by
  rw [PhiA0_eq]
  show accInv0 c _ ⊢ _
  iintro ⟨⟨HS, HR⟩, Hg⟩
  iframe HR Hg
  iexists _; iexact HS

end Cert.KernelIdeal.Hand

end
-- ==== Proof.KIR1Body.lean ====
import proofs.«167389_j35253091565659_2_alg».proof.Proof.KIR1Data
noncomputable section
namespace Cert.KernelIdeal.Hand
open Cert.KernelIdeal Cert.KernelIdeal.Gen
open Idealize.ShloMosaic Idealize.ShloMosaic.TcCoe Idealize.ShloMosaic.Tactic
open Idealize.SL.RA Idealize.SL.BI
open scoped Idealize.SL.BI
open Idealize.SL.BI.BIBase Idealize.SL.Sem
open Idealize.ShloMosaic.Pipeline (Dat BodyObligation BodyObligationLoose)
local notation "𝕄" => MT nD τ sig Unit (Elt Ideal) ℕ (UR sig nD τ) ℕ

abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

/-- The reduction axis has extent one, so both conditions hold at every point. -/
theorem hcond1 : ∀ t : Fin cfg1.N, cond1_0 (grid1.coords t) ∧ cond1_1 (grid1.coords t) ∧ cfg1.idle 3 (grid1.coords t) = false :=
  (by decide +kernel : ∀ t : Fin grid1.N, cond1_0 (grid1.coords t) ∧ cond1_1 (grid1.coords t) ∧ cfg1.idle 3 (grid1.coords t) = false)

theorem before1 (V : VT Ideal) (c : Dev nD) (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨fun d => ?_, fun d => ?_, fun d => ?_⟩ <;>
  exact (dat1 V c).before_in_eq_fetched _ rfl (fun _ => rfl) (fun _ _ _ => rfl) (fun _ => rfl) t d

theorem sound_kernel1 (c : Dev nD) (E : Set ℕ) (i : grid1.Coords) (hc0 : cond1_0 i) (hc1 : cond1_1 i)
    (arg3 : Memref sig .tc .vmem S512x1024 .f32) (harg3 : arg3.IsWhole) (arg4 : Memref sig .tc .vmem S1024x1024 .f32) (harg4 : arg4.IsWhole)
    (arg5 : Memref sig .tc .vmem S1024 .f32) (harg5 : arg5.IsWhole) (arg6 : Memref sig .tc .vmem S512x1024 .f32) (harg6 : arg6.IsWhole)
    (arg7 : Memref sig .tc .vmem S512x1024 .f32) (harg7 : arg7.IsWhole)
    (x0 : Vec Ideal S512x1024 .f32) (x1 : Vec Ideal S1024x1024 .f32) (x2 : Vec Ideal S1024 .f32) (K : PUnit → sProp 𝕄) :
    iprop(owns c.tc arg3 fullShare x0 ∗ owns c.tc arg4 fullShare x1 ∗ owns c.tc arg5 fullShare x2
        ∗ (∃ d, owns c.tc arg6 fullShare d) ∗ (∃ d, owns c.tc arg7 fullShare d)
        ∗ (iprop(owns c.tc arg3 fullShare x0 ∗ owns c.tc arg4 fullShare x1 ∗ owns c.tc arg5 fullShare x2
            ∗ owns c.tc arg6 fullShare (out1_3 x0 x1 x2) ∗ (∃ d, owns c.tc arg7 fullShare d)) -∗ K ⟨⟩))
      ⊢ wp frame (wpE (defs₀ (F := Ideal)) Variants.none c none) E (cc1__gemm_act_kernel i arg3 harg3 arg4 harg4 arg5 harg5 arg6 harg6 arg7 harg7) K := by
  simp only [cc1__gemm_act_kernel_eq_skeleton]; unfold cc1__gemm_act_kernel_skel owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc0 | exact hc1)
  sl_step
  iapply Hk
  isplitl [H0]; swap; isplitl [H1]; swap; isplitl [H2]; swap; isplitl [H3]; swap
  · iexists _, _; isplitr; swap; · iexact H4
    ipureintro; rfl
  all_goals iexists _; isplitr; swap; first | iexact H0 | iexact H1 | iexact H2 | iexact H3
  all_goals ipureintro
  · rw [View.read_writes_eq_canon _ _ _ (View.cover_of_tiled _ S512x1024.size (by rfl))]
    unfold out1_3 acc1
    sl_unfold_run_names
    simp only [View.readCov_cons_toLoadRect, View.readAt_eq_ld]
  all_goals rfl

abbrev scM1 : Memref sig .tc .vmem S512x1024 .f32 := Memref.whole cc1_scratch0

theorem PhiA1_eq (c : Dev nD) :
    (Pipeline.ΦA spec1 c : sProp 𝕄)
      = iprop(iprop((∃ d, owns c.tc scM1 fullShare d)
          ∗ Pipeline.scopedRestBut (Ix := Unit) (Name := ℕ) (U := UR sig nD τ) (Lvl := ℕ) (Val := Elt Ideal) spec1 c [cc1_scratch0])
          ∗ (∃ r, prngReg c r)) := by
  unfold Pipeline.ΦA; rw [scopedRest1_split]; simp only [scM1, owns_whole]; rfl

theorem sound_body1 (V : VT Ideal) (c : Dev nD) (t : Fin cfg1.N) :
    iprop(Pipeline.ΦA spec1 c ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d))
      ∗ (∃ d, owns c.tc (st1_3 t) fullShare ((dat1 V c).before 3 t d)))
    ⊢ wp frame (wpE (defs₀ (F := Ideal)) Variants.none c none) Set.univ (bodyAt1 t) fun _ =>
      iprop(Pipeline.ΦA spec1 c ∗ (dat1 V c).owesAt () t.castSucc
        ∗ owns c.tc (st1_0 t) fullShare (iblk1 V c 0 t)
        ∗ owns c.tc (st1_1 t) fullShare (iblk1 V c 1 t)
        ∗ owns c.tc (st1_2 t) fullShare (iblk1 V c 2 t)
        ∗ (dat1 V c).leavesExact 3 t) := by
  obtain ⟨hc0, hc1, hl⟩ := hcond1 t
  simp only [(before1 V c t).1, (before1 V c t).2.1, (before1 V c t).2.2]
  unfold Dat.leavesExact; rw [hl, PhiA1_eq]; simp only [after1_3]
  iintro ⟨⟨⟨HS, HR⟩, Hg⟩, Ho, ⟨%d0, H0⟩, ⟨%d1, H1⟩, ⟨%d2, H2⟩, ⟨%d3, H3⟩⟩
  iapply sound_kernel1 c Set.univ (grid1.coords t) hc0 hc1
  iframe H0 H1 H2 HS
  isplitl [H3]; · iexists _; iexact H3
  iintro ⟨H0, H1, H2, H3, HS⟩
  iframe

theorem body_obligation1 (V : VT Ideal) (c : Dev nD) :
    BodyObligationLoose (dat1 V c) (defs₀ (F := Ideal)) Variants.none () Set.univ :=
  BodyObligation.loose _ fun t => by
    rw [bigSep_W1, bigSep_W1]
    exact sound_body1 V c t

theorem hin1 (V : VT Ideal) (c : Dev nD) : Pipeline.ΦA spec1 c ⊢ ((dat1 V c).Φ 0 : sProp 𝕄) := .rfl

theorem hout1 (V : VT Ideal) (c : Dev nD) : ((dat1 V c).Φ (Fin.last cfg1.N) : sProp 𝕄) ⊢ Pipeline.ΦA spec1 c := .rfl

end Cert.KernelIdeal.Hand
end
-- ==== Proof.KIR2Runs.lean ====
import proofs.«167389_j35253091565659_2_alg».proof.Proof.KIR2Data
import Idealize.ShloMosaic.Lib.Pipeline.Value
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
local notation "𝕄" => MT nD τ sig Unit (Elt Ideal) ℕ (UR sig nD τ) ℕ

/-- The body's first branch condition (the reset) over the grid coordinates: v = 0. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 47 = 0 :=
  (by decide +kernel : ∀ t : Fin grid2.N, cond2_0 (grid2.coords t) ↔ t.val % 47 = 0)

/-- Its second (the results' stores): v = 46. -/
abbrev cond2_1 (i : grid2.Coords) : Prop := k2_cond2 i = 1#1
theorem hcond2_1 : ∀ t : Fin cfg2.N, cond2_1 (grid2.coords t) ↔ t.val % 47 = 46 :=
  (by decide +kernel : ∀ t : Fin grid2.N, cond2_1 (grid2.coords t) ↔ t.val % 47 = 46)

theorem hz2 : (![0, 0] : Fin 2 → Nat) = fun _ => 0 := funext fun a => by fin_cases a <;> rfl

theorem ld2_mu (X : Vec Ideal S256x300 .f32) :
    View.ld X (Rect.unit (s := S256x300) ![0, 0] ![256, 300] inb_S256x300_S256x300_0_0) = X := View.ld_unit_zero hz2 _ X
theorem ld2_emb (X : Vec Ideal S640x300 .f32) :
    View.ld X (Rect.unit (s := S640x300) ![0, 0] ![640, 300] inb_S640x300_S640x300_0_0) = X := View.ld_unit_zero hz2 _ X
theorem ld2_sc (X : Vec Ideal S256x1 .f32) :
    View.ld X (Rect.unit (s := S256x1) ![0, 0] ![256, 1] inb_S256x1_S256x1_0_0) = X := View.ld_unit_zero hz2 _ X

/-- A load of the whole buffer after a store over the whole buffer reads the stored payload. -/
theorem readCov2_sc (v : View sig .tc .vmem S256x1 .f32) (p : Vec Ideal S256x1 .f32) :
    v.readCov [⟨Rect.unit (s := S256x1) ![0, 0] ![256, 1] inb_S256x1_S256x1_0_0, p⟩]
      (Rect.unit (s := S256x1) ![0, 0] ![256, 1] inb_S256x1_S256x1_0_0).toLoadRect = p := by
  rw [View.readCov_eq_canon_ld _ _ _ (View.cover_of_tiled _ S256x1.size (by rfl)), View.canon_cons_unit_zero hz2, View.ld_unit_zero hz2]

/-- A buffer whose last store was over the whole of it reads that store's payload. -/
theorem read_whole2 (v : View sig .tc .vmem S256x1 .f32) (f) (p : Vec Ideal S256x1 .f32) (L) :
    v.read (Elt Ideal) (v.writes (Elt Ideal) f (⟨Rect.unit (s := S256x1) ![0, 0] S256x1.size inb_S256x1_S256x1_0_0, p⟩ :: L)) = p :=
  (View.read_writes_eq_canon _ _ _ fun y => ⟨_, List.mem_cons_self, View.mem_set_unit_zero hz2 inb_S256x1_S256x1_0_0 y⟩).trans
    (View.canon_cons_unit_zero hz2 _ _ _)

set_option maxHeartbeats 4000000 in
/-- The body at every point at once: the pair leaves at the update `S` (of the reset pair where v = 0); the results take `S` where v = 46. -/
theorem run2 (c : Dev nD) (E : Set ℕ) (i : grid2.Coords)
    (arg2 : Memref sig .tc .vmem S256x300 .f32) (harg2 : arg2.IsWhole) (arg3 : Memref sig .tc .vmem S640x300 .f32) (harg3 : arg3.IsWhole)
    (arg4 : Memref sig .tc .vmem S256x1 .f32) (harg4 : arg4.IsWhole) (arg5 : Memref sig .tc .vmem S256x1 .f32) (harg5 : arg5.IsWhole)
    (arg6 : Memref sig .tc .vmem S256x1 .f32) (harg6 : arg6.IsWhole) (arg7 : Memref sig .tc .vmem S256x1 .f32) (harg7 : arg7.IsWhole)
    (hx : cond2_0 i → ¬cond2_1 i) (x0 : Vec Ideal S256x300 .f32) (x1 : Vec Ideal S640x300 .f32) (s1 s2 o1 o2 : Vec Ideal S256x1 .f32)
    (S : SC2) (hS : S = step2 i x0 x1 (if cond2_0 i then init2 else (s1, s2))) (R : SC2) (hR : R = if cond2_1 i then S else (o1, o2))
    (K : PUnit → sProp 𝕄) :
    iprop(owns (c : Thread nD τ) arg2 fullShare x0 ∗ owns (c : Thread nD τ) arg3 fullShare x1
        ∗ owns (c : Thread nD τ) arg6 fullShare s1 ∗ owns (c : Thread nD τ) arg7 fullShare s2
        ∗ owns (c : Thread nD τ) arg4 fullShare o1 ∗ owns (c : Thread nD τ) arg5 fullShare o2
        ∗ (iprop(owns (c : Thread nD τ) arg2 fullShare x0 ∗ owns (c : Thread nD τ) arg3 fullShare x1
            ∗ owns (c : Thread nD τ) arg6 fullShare S.1 ∗ owns (c : Thread nD τ) arg7 fullShare S.2
            ∗ owns (c : Thread nD τ) arg4 fullShare R.1 ∗ owns (c : Thread nD τ) arg5 fullShare R.2) -∗ K ⟨⟩))
      ⊢ wp frame (wpE (defs₀ (F := Ideal)) Variants.none c none) E (cc2__stats_kernel i arg2 harg2 arg3 harg3 arg4 harg4 arg5 harg5 arg6 harg6 arg7 harg7) K := by
  simp only [cc2__stats_kernel_eq_skeleton]; unfold cc2__stats_kernel_skel
  simp only [k2_part1_eq_skeleton]; unfold k2_part1_skel
  unfold owns
  iintro ⟨⟨%f0, %hf0, H0⟩, ⟨%f1, %hf1, H1⟩, ⟨%f6, %hf6, H6⟩, ⟨%f7, %hf7, H7⟩, ⟨%f4, %hf4, H4⟩, ⟨%f5, %hf5, H5⟩, Hk⟩
  subst hf0 hf1 hf6 hf7 hf4 hf5 hR hS
  by_cases hc0 : cond2_0 i <;> by_cases hc1 : cond2_1 i
  · exact absurd hc1 (hx hc0)
  all_goals
    sl_exec (disch := first | exact hc0 | exact hc1)
    sl_step
    iapply Hk
    first | rw [if_pos hc0] | rw [if_neg hc0]
    first | rw [if_pos hc1] | rw [if_neg hc1]
    isplitl [H0]
    · iexists f0; isplitr; · ipureintro; rfl
      iexact H0
    isplitl [H1]
    · iexists f1; isplitr; · ipureintro; rfl
      iexact H1
    isplitl [H6]; rotate_left; isplitl [H7]; rotate_left; isplitl [H4]; rotate_left
    all_goals
      iexists _; isplitr
      swap; · iassumption
      ipureintro
      first
        | refine (read_whole2 _ _ _ _).trans ?_
          (try sl_unfold_run_names)
          simp only [View.readAt_eq_ld, ld2_mu, ld2_emb, ld2_sc, readCov2_sc] <;> rfl
        | rfl

end Cert.KernelIdeal.Hand

end
-- ==== Proof.KIR2Body.lean ====
import proofs.«167389_j35253091565659_2_alg».proof.Proof.KIR2Runs
import Idealize.ShloMosaic.Lib.Pipeline.Value
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
local notation "𝕄" => MT nD τ sig Unit (Elt Ideal) ℕ (UR sig nD τ) ℕ

abbrev D2 := dot_S256x300_S640x300_S256x640_1_1_0_0_n_n

/-- Where the column mask holds the global column is below 30000 (the words are small: no wrap, signed = unsigned). -/
theorem mask2_lt (i : grid2.Coords) (j : S256x640.Idx) (h : k2_pay4 i j = 1#1) : (i 1).val * 640 + (j 1).val < 30000 := by
  have hv : (i 1).val < 47 := (i 1).isLt
  have hj : (j 1).val < 640 := (j 1).isLt
  unfold k2_pay4 at h
  simp only [cmpi, addi, broadcast, iota_single_apply, IntOp.cmpi, IntOp.addi, Scalar.muli, IntOp.muli] at h
  rw [iota_single_apply] at h
  generalize (i 1).val = v at *
  generalize (j 1).val = jc at *
  have hb : (BitVec.ofNat 32 v * 640#32 + BitVec.ofNat 32 jc).slt 30000#32 = true := by
    cases hs : (BitVec.ofNat 32 v * 640#32 + BitVec.ofNat 32 jc).slt 30000#32
    · rw [hs] at h; exact absurd h (by decide)
    · rfl
  have hx : (BitVec.ofNat 32 v * 640#32 + BitVec.ofNat 32 jc).toNat = v * 640 + jc := by
    simp only [BitVec.toNat_add, BitVec.toNat_mul, BitVec.toNat_ofNat]; omega
  have hlt := BitVec.slt_iff_toInt_lt.mp hb
  rw [BitVec.toInt_eq_toNat_cond, BitVec.toInt_eq_toNat_cond, hx] at hlt
  simp only [BitVec.toNat_ofNat] at hlt
  split at hlt <;> split at hlt <;> omega

/-- Point `t`'s second coordinate is v = t mod 47; emb's block there has 640 rows inside the array (560 at v = 46) and 300 columns. -/
theorem pt_facts2 : ∀ t : Fin cfg2.N, (grid2.coords t 1).val = t.val % 47
    ∧ (cfg2.win 1).xsize (grid2.coords t) 0 = min 640 (30000 - (t.val % 47) * 640) ∧ (cfg2.win 1).xsize (grid2.coords t) 1 = 300 :=
  (by decide +kernel : ∀ t : Fin grid2.N, (grid2.coords t 1).val = t.val % 47
    ∧ win2_1.xsize (grid2.coords t) 0 = min 640 (30000 - (t.val % 47) * 640) ∧ win2_1.xsize (grid2.coords t) 1 = 300)

/-- A valid column's logit reads row `col` of emb's block, a row inside the array. -/
theorem moved2_of_mask (t : Fin cfg2.N) (j : S256x640.Idx) (h : k2_pay4 (grid2.coords t) j = 1#1) (k : D2.contr.Idx) :
    (cfg2.win 1).moved (grid2.coords t) (D2.rhsIdx j k) = true := by
  rw [(cfg2.win 1).moved_iff]
  have hm := mask2_lt _ j h
  obtain ⟨hc, h0, h1⟩ := pt_facts2 t
  rw [hc] at hm
  have hj : (j 1).val < 640 := (j 1).isLt
  intro a
  fin_cases a
  · show (j 1).val < (cfg2.win 1).xsize (grid2.coords t) 0
    rw [h0]; omega
  · show (D2.rhsIdx j k 1).val < (cfg2.win 1).xsize (grid2.coords t) 1
    rw [h1]; exact (D2.rhsIdx j k 1).isLt

/-- Both selects discard the columns that are not valid, so the masked logits at two fillers of emb's block agree. -/
theorem pay5_fill (t : Fin cfg2.N) (x0 : Vec Ideal S256x300 .f32)
    (g : ((cfg2.win 1).xblock (cfg2.grid.coords t)).Idx → Elt Ideal (cfg2.win 1).elt) (d d' : S640x300.Idx → Ideal .f32) :
    k2_pay5 (grid2.coords t) x0 ((cfg2.win 1).fill (grid2.coords t) d g)
      = k2_pay5 (grid2.coords t) x0 ((cfg2.win 1).fill (grid2.coords t) d' g) := by
  funext j
  unfold k2_pay5
  simp only [select, Scalar.select]
  split
  · next hm =>
    show FloatOps.matmul D2 none _ _ (constant S256x640 .f32 0x00000000#32) j = FloatOps.matmul D2 none _ _ (constant S256x640 .f32 0x00000000#32) j
    rw [Ideal.matmul_constant_zero_apply, Ideal.matmul_constant_zero_apply]
    refine Finset.sum_congr rfl fun k _ => ?_
    have e : (cfg2.win 1).fill (grid2.coords t) d g (D2.rhsIdx j k) = (cfg2.win 1).fill (grid2.coords t) d' g (D2.rhsIdx j k) := by
      unfold Window.fill; rw [dif_pos (moved2_of_mask t j hm k), dif_pos (moved2_of_mask t j hm k)]
    simp only [truncf]
    rw [e]
  · rfl

/-- So the update at emb's block filled out with zero is the update at the block filled out with anything. -/
theorem step2_embz (V : VT Ideal) (c : Dev nD) (t : Fin cfg2.N) (d : (cfg2.win 1).block.Idx → Elt Ideal (cfg2.win 1).elt) (s : SC2) :
    step2 (grid2.coords t) (mublk2 V c t) (embz2 V c t) s
      = step2 (grid2.coords t) (mublk2 V c t) ((cfg2.win 1).fill (grid2.coords t) d (embblk2 V c t)) s := by
  unfold embz2 step2 k2_pay7 k2_pay6
  rw [pay5_fill t _ _ _ d]

/-- Only the points with v = 46 write the results. -/
theorem res2_idle : ∀ t : Fin cfg2.N, ¬cond2_1 (grid2.coords t) →
    (cfg2.idle 2 (grid2.coords t) = true ∧ (cfg2.win 2).flush t = false) ∧ cfg2.idle 3 (grid2.coords t) = true ∧ (cfg2.win 3).flush t = false := by
  decide +kernel
theorem res2_live : ∀ t : Fin cfg2.N, cond2_1 (grid2.coords t) → cfg2.idle 2 (grid2.coords t) = false ∧ cfg2.idle 3 (grid2.coords t) = false := by
  decide +kernel

/-- What the region starts from: the scratch pair at anything. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt Ideal) spec2 c [cc2_scratch0, cc2_scratch1])
        ∗ (∃ r, prngReg c r)) := by
  unfold Pipeline.ΦA; rw [scopedRest2_split]; simp only [scM2_0, scM2_1, owns_whole]; rfl

/-- The invariant at a point's start gives the scratch pair at some `s`; the pair after the point is the update from `s` (or the reset). -/
theorem PhiS2_open (V : VT Ideal) (c : Dev nD) (t : Fin cfg2.N) :
    ((dat2 V c).Φ t.castSucc : sProp 𝕄) ⊢ iprop(∃ s, scr2 c s ∗ ⌜scAt2 V c t.val t.isLt
      = step2 (grid2.coords t) (mublk2 V c t) (embz2 V c t) (if t.val % 47 = 0 then init2 else s)⌝) := by
  obtain ⟨_ | n, hn⟩ := t
  · show Pipeline.ΦA spec2 c ⊢ _
    rw [PhiA2_eq]
    iintro ⟨⟨⟨⟨%a, HS0⟩, ⟨%b, HS1⟩⟩, Hrest⟩, Hg⟩
    iexists (a, b); unfold scr2; iframe; ipureintro; rfl
  · show scr2 c (scAt2 V c n _) ⊢ _
    iintro H; iexists _; isplitl
    · iexact H
    ipureintro; rfl

/-- At every point the body finds mu's block. -/
theorem before2_0 (V : VT Ideal) (c : Dev nD) (t : Fin cfg2.N) (d) : (dat2 V c).before 0 t d = mublk2 V c t :=
  ((dat2 V c).before_in_eq_fetched 0 rfl (fun _ => rfl) (fun _ _ _ => rfl)
      (fun t => by rw [after2_0]; unfold Dat.blockOf mublk2; rw [A_eq2]; try rfl) t d).trans
    (by unfold Dat.fetched Dat.blockOf mublk2; rw [A_eq2]; try rfl)

/-- At every point the body finds emb's block on the rows inside the array, anything past them. -/
theorem before2_1 (V : VT Ideal) (c : Dev nD) (t : Fin cfg2.N) (d) :
    (dat2 V c).before 1 t d = (cfg2.win 1).fill (grid2.coords t) d (embblk2 V c t) := by
  unfold Dat.before; rw [if_pos (fetch2_1 t)]
  unfold Dat.fetched Dat.blockOf embblk2; rw [A_eq2]

theorem leaves2_0 (V : VT Ideal) (c : Dev nD) (t : Fin cfg2.N) :
    (dat2 V c).leaves 0 t = owns (c : Thread nD τ) (st2_0 t) fullShare (mublk2 V c t) := by
  show owns (c : Thread nD τ) (st2_0 t) fullShare ((dat2 V c).after 0 t) = _
  rw [after2_0]

theorem leaves2_1 (V : VT Ideal) (c : Dev nD) (t : Fin cfg2.N) :
    (dat2 V c).leaves 1 t = iprop(∃ d, owns (c : Thread nD τ) (st2_1 t) fullShare ((cfg2.win 1).fill (grid2.coords t) d (embblk2 V c t))) := by
  show iprop(∃ d, owns (c : Thread nD τ) (st2_1 t) fullShare ((cfg2.win 1).fill (grid2.coords t) d ((cfg2.win 1).cut (grid2.coords t) ((dat2 V c).after 1 t)))) = _
  rw [after2_1]; unfold embz2; rw [(cfg2.win 1).cut_fill]

theorem leaves2_2_live (V : VT Ideal) (c : Dev nD) (t : Fin cfg2.N) (h : cond2_1 (grid2.coords t)) :
    (dat2 V c).leaves 2 t = owns (c : Thread nD τ) (st2_2 t) fullShare (scAt2 V c t.val t.isLt).1 := by
  unfold Dat.leaves; rw [(res2_live t h).1, after2_2]
theorem leaves2_3_live (V : VT Ideal) (c : Dev nD) (t : Fin cfg2.N) (h : cond2_1 (grid2.coords t)) :
    (dat2 V c).leaves 3 t = owns (c : Thread nD τ) (st2_3 t) fullShare (scAt2 V c t.val t.isLt).2 := by
  unfold Dat.leaves; rw [(res2_live t h).2, after2_3]

/-- What the body is called with at point `t`, the windows one by one, -/
def bodyPre2 (V : VT Ideal) (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (V : VT Ideal) (c : Dev nD) (t : Fin cfg2.N) : sProp 𝕄 :=
  iprop((dat2 V c).Φ t.succ ∗ (dat2 V c).owesAt () t.succ
    ∗ (dat2 V c).leaves 0 t ∗ (dat2 V c).leaves 1 t ∗ (dat2 V c).leaves 2 t ∗ (dat2 V c).leaves 3 t)

set_option maxHeartbeats 4000000 in
/-- The body at any point: its update does not read past the array's end, so it is the update at the zero filler, which the data name. -/
theorem sound_body2 (V : VT Ideal) (c : Dev nD) (t : Fin cfg2.N) :
    bodyPre2 V c t ⊢ wp frame (wpE (defs₀ (F := Ideal)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.succ = scr2 c (scAt2 V c t.val t.isLt) from rfl, leaves2_0, leaves2_1]
  unfold scr2
  iintro ⟨HΦ, Ho, ⟨%d0, H0⟩, ⟨%d1, H1⟩, ⟨%d2, H2⟩, ⟨%d3, H3⟩⟩
  icases (PhiS2_open V c t) $$ HΦ with ⟨%s, ⟨⟨⟨HS0, HS1⟩, Hrest⟩, Hg⟩, %hs⟩
  iapply (run2 c Set.univ (grid2.coords t) _ _ _ _ _ _ _ _ _ _ _ _
    (fun h0 h1 => by have := (hcond2_0 t).mp h0; have := (hcond2_1 t).mp h1; omega)
    (mublk2 V c t) ((cfg2.win 1).fill (grid2.coords t) d1 (embblk2 V c t)) s.1 s.2 ((dat2 V c).before 2 t d2) ((dat2 V c).before 3 t d3)
    (scAt2 V c t.val t.isLt) (hs.trans ((step2_embz V c t d1 _).trans (congrArg _ (if_congr (hcond2_0 t).symm rfl rfl)))) _ rfl _)
  iframe H0 H1 HS0 HS1 H2 H3
  iintro ⟨H0, H1, HS0, HS1, H2, H3⟩
  iframe HS0 HS1 Hrest Hg Ho H0
  isplitl [H1]; · iexists d1; iexact H1
  by_cases hc1 : cond2_1 (grid2.coords t)
  · rw [if_pos hc1, leaves2_2_live V c t hc1, leaves2_3_live V c t hc1]; iframe
  · obtain ⟨⟨i2, f2⟩, i3, f3⟩ := res2_idle t hc1
    rw [if_neg hc1, Dat.leaves_idle _ 2 t i2 f2, Dat.leaves_idle _ 3 t i3 f3]
    isplitl [H2] <;> (iexists _; iassumption)

theorem body_obligation2 (V : VT Ideal) (c : Dev nD) :
    BodyObligationLoose (dat2 V c) (defs₀ (F := Ideal)) Variants.none () Set.univ := fun t => by
  rw [bigSep_W2, bigSep_W2]
  exact sound_body2 V c t

theorem hin2 (V : VT Ideal) (c : Dev nD) : Pipeline.ΦA spec2 c ⊢ ((dat2 V c).Φ 0 : sProp 𝕄) := .rfl

/-- After the last point the scratch pair's named contents are forgotten. -/
theorem hout2 (V : VT Ideal) (c : Dev nD) : ((dat2 V c).Φ (Fin.last cfg2.N) : sProp 𝕄) ⊢ Pipeline.ΦA spec2 c := by
  rw [PhiA2_eq]
  show scr2 c _ ⊢ _
  iintro ⟨⟨⟨HS0, HS1⟩, Hrest⟩, Hg⟩
  iframe Hrest Hg
  isplitl [HS0] <;> (iexists _; iassumption)

end Cert.KernelIdeal.Hand

end
-- ==== Proof.KIR3Pay.lean ====
import proofs.«167389_j35253091565659_2_alg».proof.Proof.KIR3Data
import Idealize.ShloMosaic.Lib.ValueIdx
import Idealize.ShloMosaic.Lib.WordArith
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
local notation "𝕄" => MT nD τ sig Unit (Elt Ideal) ℕ (UR sig nD τ) ℕ

open Idealize.ShloMosaic.ValueIdx

/-- Below 47 * 640 nothing wraps: the signed comparison of the words is the comparison of the numbers. -/
theorem valid3_word (a q : Nat) (ha : a < 47) (hq : q < 640) :
    IntOp.cmpi .slt (BitVec.ofNat 32 a * 640#32 + BitVec.ofNat 32 q) 30000#32
      = if a * 640 + q < 30000 then 1#1 else 0#1 := by
  have h1 : (BitVec.ofNat 32 a).toInt = a := WordArith.toInt_ofNat_small a (by omega)
  have h2 : (640#32 : BitVec 32).toInt = 640 := by decide
  have h3 : (BitVec.ofNat 32 a * 640#32).toInt = a * 640 := by
    rw [WordArith.toInt_mul_of_bounds _ _ (by rw [h1, h2]; omega) (by rw [h1, h2]; omega), h1, h2]
  have h4 : (BitVec.ofNat 32 q).toInt = q := WordArith.toInt_ofNat_small q (by omega)
  have h5 : (BitVec.ofNat 32 a * 640#32 + BitVec.ofNat 32 q).toInt = a * 640 + q := by
    rw [WordArith.toInt_add_of_bounds _ _ (by rw [h3, h4]; omega) (by rw [h3, h4]; omega), h3, h4]
  have h6 : (30000#32 : BitVec 32).toInt = 30000 := by decide
  unfold IntOp.cmpi
  simp only [BitVec.slt, h5, h6]
  by_cases h : a * 640 + q < 30000
  · rw [if_pos h]; have : ((a : ℤ) * 640 + q < 30000) := by omega
    simp [this]
  · rw [if_neg h]; have : ¬((a : ℤ) * 640 + q < 30000) := by omega
    simp [this]

/-- A product contracting one axis of extent `n`, into the zero splat, at an index: the sum over that axis's coordinate. -/
theorem matmul1_apply {sl sr so : Shape} (D : DotDims sl sr so) (n : Nat) (hr : D.contr.rank = 1) (hs : D.contr.size ⟨0, by omega⟩ = n)
    (x : FVec Ideal sl .bf16) (y : FVec Ideal sr .bf16) (j : so.Idx) (jl : Fin n → sl.Idx) (jr : Fin n → sr.Idx)
    (hl : ∀ k, D.lhsIdx j ((contrEquiv1 D n hr hs).symm k) = jl k) (hR : ∀ k, D.rhsIdx j ((contrEquiv1 D n hr hs).symm k) = jr k) :
    matmul D none x y (constant so .f32 0x00000000#32) j = ∑ k : Fin n, x (jl k) * y (jr k) := by
  simp only [matmul]
  rw [Ideal.matmul_constant_zero_apply, ← Equiv.sum_comp (contrEquiv1 D n hr hs).symm]
  exact Finset.sum_congr rfl fun k _ => by rw [hl, hR]

/-- The logits' product at (t, q): the sum over the 300 embedding coordinates. -/
theorem logit3_apply (x0 : FVec Ideal S512x300 .bf16) (x1 : FVec Ideal S640x300 .bf16) (t : Fin 512) (q : Fin 640) :
    matmul dot_S512x300_S640x300_S512x640_1_1_0_0_n_n none x0 x1 (constant S512x640 .f32 0x00000000#32) (ix2 t q)
      = ∑ k : Fin 300, x0 (ix2 t k) * x1 (ix2 q k) := by
  refine matmul1_apply _ 300 rfl rfl x0 x1 _ (fun k => ix2 t k) (fun k => ix2 q k) (fun k => ?_) (fun k => ?_) <;>
    exact funext fun a => Fin.ext (by
      have hk := contrEquiv1_symm_val dot_S512x300_S640x300_S512x640_1_1_0_0_n_n 300 rfl rfl k
      fin_cases a
      · rfl
      · first
        | exact (DotDims.lhsIdx_val_of_single _ rfl _ _).trans hk
        | exact (DotDims.rhsIdx_val_of_single _ rfl _ _).trans hk)

/-- The result's product at (p, q): the sum over the 512 topics. -/
theorem recon3_apply (x4 : FVec Ideal S2048x512 .bf16) (b : FVec Ideal S512x640 .bf16) (p : Fin 2048) (q : Fin 640) :
    matmul dot_S2048x512_S512x640_S2048x640_1_0_0_1_n_n none x4 b (constant S2048x640 .f32 0x00000000#32) (ix2 p q)
      = ∑ t : Fin 512, x4 (ix2 p t) * b (ix2 t q) := by
  have hk := contrEquiv1_symm_val dot_S2048x512_S512x640_S2048x640_1_0_0_1_n_n 512 rfl rfl
  refine matmul1_apply _ 512 rfl rfl x4 b _ (fun k => ix2 p k) (fun k => ix2 k q) (fun k => ?_) (fun k => ?_) <;>
    exact funext fun a => Fin.ext (by
      fin_cases a
      · first | rfl | exact (DotDims.rhsIdx_val_of_single _ rfl _ _).trans (hk k)
      · first | rfl | exact (DotDims.lhsIdx_val_of_single _ rfl _ _).trans (hk k))

/-- A column of 512 statistics broadcast along the 640 block columns, at (t, q): the statistic of row t. -/
theorem bcast_col3 (x : Vec Ideal S512x1 .f32) (t : Fin 512) (q : Fin 640) :
    broadcastTo S512x640 (shapeCast S512x1 x shapeCasts_S512x1_S512x1) broadcasts_S512x1_S512x640 (ix2 t q) = x (ix2 t (0 : Fin 1)) := by
  rw [shapeCast_self]
  exact broadcastTo_apply x _ (ix2 t q) (ix2 t (0 : Fin 1)) (fun a => by fin_cases a <;> rfl)

/-- The softmax weight at topic `t`, block column `q`: exp (mu_t · emb_q - m_t) / l_t inside the vocabulary, zero past its end. -/
def beta3 (a : Nat) (x0 : Vec Ideal S512x300 .f32) (x1 : Vec Ideal S640x300 .f32) (x2 : Vec Ideal S512x1 .f32)
    (x3 : Vec Ideal S512x1 .f32) (t : Fin 512) (q : Fin 640) : EReal :=
  if a * 640 + q.val < 30000 then
    Ideal.div (Ideal.exp ((∑ k : Fin 300, x0 (ix2 t k) * x1 (ix2 q k)) - x2 (ix2 t (0 : Fin 1)))) (x3 (ix2 t (0 : Fin 1)))
  else 0

/-- The stored block at (p, q): zx_phi's row p against the weights' column q. -/
theorem k3_pay1_apply (i : grid3.Coords) (x0 : Vec Ideal S512x300 .f32) (x1 : Vec Ideal S640x300 .f32) (x2 : Vec Ideal S512x1 .f32)
    (x3 : Vec Ideal S512x1 .f32) (x4 : Vec Ideal S2048x512 .bf16) (p : Fin 2048) (q : Fin 640) :
    k3_pay1 i x0 x1 x2 x3 x4 (ix2 p q) = ∑ t : Fin 512, x4 (ix2 p t) * beta3 (i 0).val x0 x1 x2 x3 t q := by
  unfold k3_pay1
  dsimp only
  rw [recon3_apply]
  refine Finset.sum_congr rfl fun t _ => ?_
  rw [shapeCast_self, truncf_apply, select_apply]
  congr 1
  have hv : cmpi CmpIPredicate.slt (addi (broadcast S512x640 (Scalar.muli (BitVec.ofNat 32 (i 0).val) 640#32))
        (iota Kind.tc S512x640 32 [1] iota_S512x640_d1_w32)) (broadcast S512x640 30000#32) (ix2 t q)
      = if (i 0).val * 640 + q.val < 30000 then 1#1 else 0#1 := by
    show IntOp.cmpi .slt (BitVec.ofNat 32 (i 0).val * 640#32 + iota Kind.tc S512x640 32 [1] iota_S512x640_d1_w32 (ix2 t q)) 30000#32 = _
    rw [iota_single_apply]; exact valid3_word _ _ (i 0).isLt q.isLt
  rw [hv]
  unfold beta3
  split
  · rw [select_one, divf_apply, show ∀ a : FVec Ideal S512x640 .f32, exp a (ix2 t q) = Ideal.exp (a (ix2 t q)) from fun _ => rfl,
      subf_apply, select_apply, hv, if_pos ‹_›, select_one, logit3_apply, bcast_col3, bcast_col3]
    rfl
  · rw [select_zero, broadcast_apply]
    exact Ideal.ofBits_zero_f32

/-- Point `t`'s coordinate is `t`; the table's rows and the result's columns inside their arrays number min 640 (30000 - 640 t). -/
theorem xs_facts3 : ∀ t : Fin cfg3.N, ((grid3.coords t) 0).val = t.val
    ∧ win3_1.xsize (grid3.coords t) 0 = min 640 (30000 - t.val * 640) ∧ win3_1.xsize (grid3.coords t) 1 = 300
    ∧ win3_5.xsize (grid3.coords t) 0 = 2048 ∧ win3_5.xsize (grid3.coords t) 1 = min 640 (30000 - t.val * 640) :=
  (by decide +kernel : ∀ t : Fin grid3.N, _)

theorem idx_facts3 : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = t.val :=
  (by decide +kernel : ∀ t : Fin grid3.N, _)

/-- A filled block at an element inside the array is the block there, whatever fills the rest. -/
theorem fill3_1_congr (i : grid3.Coords) (d d' : S640x300.Idx → Elt Ideal .f32) (g : (win3_1.xblock i).Idx → Elt Ideal .f32)
    (j : S640x300.Idx) (hj : ∀ a, (j a).val < win3_1.xsize i a) : win3_1.fill i d g j = win3_1.fill i d' g j := by
  have hm : win3_1.moved i j = true := (win3_1.moved_iff i j).mpr hj
  unfold Window.fill; rw [dif_pos hm, dif_pos hm]

end Cert.KernelIdeal.Hand

end
-- ==== Proof.KIR3Body.lean ====
import proofs.«167389_j35253091565659_2_alg».proof.Proof.KIR3Pay
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
local notation "𝕄" => MT nD τ sig Unit (Elt Ideal) ℕ (UR sig nD τ) ℕ

open Idealize.ShloMosaic.ValueIdx

variable (V : VT Ideal)

/-- The one store is over the whole result buffer: it covers it. -/
theorem cover3_5 (p0 : Vec Ideal S2048x640 .f32) (y : S2048x640.Idx) :
    ∃ pc ∈ ([⟨r3_5, p0⟩] : List (View.Piece (Elt Ideal) S2048x640 .f32)), y ∈ pc.1.set :=
  ⟨_, List.mem_singleton_self _, View.mem_set_unit_zero (funext fun a => by fin_cases a <;> rfl) inb_S2048x640_S2048x640_0_0 y⟩

set_option maxHeartbeats 1000000 in
/-- The body on whole buffers, the inputs' at ANY contents: they stay, and the result's leaves at `out3_5` of them. -/
theorem sound_kernel3 (c : Dev nD) (E : Set ℕ) (i : grid3.Coords)
    (arg1 : Memref sig .tc .vmem S512x300 .f32) (harg1 : arg1.IsWhole) (arg2 : Memref sig .tc .vmem S640x300 .f32) (harg2 : arg2.IsWhole)
    (arg3 : Memref sig .tc .vmem S512x1 .f32) (harg3 : arg3.IsWhole) (arg4 : Memref sig .tc .vmem S512x1 .f32) (harg4 : arg4.IsWhole)
    (arg5 : Memref sig .tc .vmem S2048x512 .bf16) (harg5 : arg5.IsWhole) (arg6 : Memref sig .tc .vmem S2048x640 .f32) (harg6 : arg6.IsWhole)
    (x0 : Vec Ideal S512x300 .f32) (x1 : Vec Ideal S640x300 .f32) (x2 : Vec Ideal S512x1 .f32) (x3 : Vec Ideal S512x1 .f32)
    (x4 : Vec Ideal S2048x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 i x0 x1 x2 x3 x4)) -∗ K ⟨⟩))
      ⊢ wp frame (wpE (defs₀ (F := Ideal)) Variants.none c none) E
          (cc3__recon_kernel i arg1 harg1 arg2 harg2 arg3 harg3 arg4 harg4 arg5 harg5 arg6 harg6) K := by
  simp only [cc3__recon_kernel_eq_skeleton]; unfold cc3__recon_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; rotate_left; isplitl [H1]; rotate_left; isplitl [H2]; rotate_left; isplitl [H3]; rotate_left
  isplitl [H4]; rotate_left
  all_goals
    iexists _; isplitr
    swap; · iassumption
    ipureintro
    first | exact View.read_writes_eq_canon _ _ _ (cover3_5 _) | rfl

/-- The four inputs of one block each (mu, m, l, zx_phi): the body finds that block at every point. -/
theorem before3_in (c : Dev nD) (t : Fin cfg3.N) :
    (∀ d, (dat3 V c).before 0 t d = iblk3 V c 0 t) ∧ (∀ d, (dat3 V c).before 2 t d = iblk3 V c 2 t)
      ∧ (∀ d, (dat3 V c).before 3 t d = iblk3 V c 3 t) ∧ (∀ d, (dat3 V c).before 4 t d = iblk3 V c 4 t) := by
  refine ⟨?_, ?_, ?_, ?_⟩ <;> exact fun d =>
    ((dat3 V c).before_in_eq_fetched _ rfl (fun _ => rfl) (fun _ _ _ => rfl)
      (fun t => by show iblk3 V c _ t = _; unfold Dat.blockOf iblk3; rw [A_eq3]; try rfl) t d).trans
      (by unfold Dat.fetched Dat.blockOf iblk3; rw [A_eq3]; try rfl)

/-- The body finds the table's block on the rows inside the array and, past them, anything. -/
theorem before3_1 (c : Dev nD) (t : Fin cfg3.N) (d) :
    (dat3 V c).before 1 t d = win3_1.fill (grid3.coords t) d (iblk3 V c 1 t) := by
  unfold Dat.before; rw [if_pos (fetch3_1 t)]; unfold Dat.fetched Dat.blockOf iblk3; rw [A_eq3]

/-- Two table blocks that agree on row `q` give the stored block the same column `q`. -/
theorem k3_pay1_congr_row (i : grid3.Coords) (x0 : Vec Ideal S512x300 .f32) (x1 x1' : Vec Ideal S640x300 .f32)
    (x2 : Vec Ideal S512x1 .f32) (x3 : Vec Ideal S512x1 .f32) (x4 : Vec Ideal S2048x512 .bf16) (p : Fin 2048) (q : Fin 640)
    (h : ∀ k : Fin 300, x1 (ix2 q k) = x1' (ix2 q k)) :
    k3_pay1 i x0 x1 x2 x3 x4 (ix2 p q) = k3_pay1 i x0 x1' x2 x3 x4 (ix2 p q) := by
  simp only [k3_pay1_apply, beta3, h]

/-- A result column inside its array reads a table row inside the table: that part of the result ignores the table's filler. -/
theorem cut_out3_5_congr (c : Dev nD) (t : Fin cfg3.N) (d1 : S640x300.Idx → Elt Ideal .f32) :
    win3_5.cut (grid3.coords t) (out3_5 (grid3.coords t) (iblk3 V c 0 t) (win3_1.fill (grid3.coords t) d1 (iblk3 V c 1 t))
        (iblk3 V c 2 t) (iblk3 V c 3 t) (iblk3 V c 4 t))
      = win3_5.cut (grid3.coords t) (out3_5 (grid3.coords t) (iblk3 V c 0 t) (eblk3 V c t) (iblk3 V c 2 t) (iblk3 V c 3 t) (iblk3 V c 4 t)) := by
  obtain ⟨e0, e1, e2, e3, e4⟩ := xs_facts3 t
  funext j
  have hj0 : (j 0).val < 2048 := e3 ▸ (j 0).isLt
  have hj1 : (j 1).val < min 640 (30000 - t.val * 640) := e4 ▸ (j 1).isLt
  have hx : win3_5.xinj (grid3.coords t) j = ix2 (⟨(j 0).val, hj0⟩ : Fin 2048) (⟨(j 1).val, by omega⟩ : Fin 640) :=
    funext fun a => Fin.ext (by fin_cases a <;> rfl)
  show out3_5 _ _ _ _ _ _ (win3_5.xinj (grid3.coords t) j) = out3_5 _ _ _ _ _ _ (win3_5.xinj (grid3.coords t) j)
  rw [out3_5_eq, out3_5_eq, hx]
  refine k3_pay1_congr_row _ _ _ _ _ _ _ _ _ fun k => fill3_1_congr _ _ _ _ _ fun a => ?_
  fin_cases a
  · show (j 1).val < win3_1.xsize (grid3.coords t) 0; rw [e1]; exact hj1
  · show k.val < win3_1.xsize (grid3.coords t) 1; rw [e2]; exact k.isLt

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns: the two cut windows' buffers stated on the part inside the arrays. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare
        ((cfg3.win 1).fill (cfg3.grid.coords t) d ((cfg3.win 1).cut (cfg3.grid.coords t) ((dat3 V c).after 1 t))))
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ (∃ d, owns (c : Thread nD τ) (st3_5 t) fullShare
        ((cfg3.win 5).fill (cfg3.grid.coords t) d ((cfg3.win 5).cut (cfg3.grid.coords t) ((dat3 V c).after 5 t)))))

/-- The body at any point: `sound_kernel3` at the table's buffer filled out with anything; the result is stated on its part inside the array. -/
theorem sound_body3 (c : Dev nD) (t : Fin cfg3.N) :
    bodyPre3 V c t ⊢ wp frame (wpE (defs₀ (F := Ideal)) Variants.none c none) Set.univ (bodyAt3 t) (fun _ => bodyPost3 V c t) := by
  unfold bodyPre3 bodyPost3 bodyAt3
  obtain ⟨b0, b2, b3, b4⟩ := before3_in V c t
  simp only [b0, b2, b3, b4, before3_1]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t)
    (win3_1.fill (grid3.coords t) d1 (iblk3 V c 1 t)) (iblk3 V c 2 t) (iblk3 V c 3 t) (iblk3 V c 4 t) _)
  iframe H0 H1 H2 H3 H4
  isplitl [H5]; · iexists _; iexact H5
  iintro ⟨H0, H1, H2, H3, H4, H5⟩
  iframe HΦ Ho H0 H2 H3 H4
  isplitl [H1]
  · iexists d1
    rw [show (cfg3.win 1).cut (cfg3.grid.coords t) (eblk3 V c t) = iblk3 V c 1 t from win3_1.cut_fill _ _ _]
    iexact H1
  iexists out3_5 (grid3.coords t) (iblk3 V c 0 t) (win3_1.fill (grid3.coords t) d1 (iblk3 V c 1 t)) (iblk3 V c 2 t) (iblk3 V c 3 t) (iblk3 V c 4 t)
  rw [show (cfg3.win 5).fill (cfg3.grid.coords t) _ ((cfg3.win 5).cut (cfg3.grid.coords t) _) = _ from
    win3_5.fill_congr_cut _ (cut_out3_5_congr V c t d1)]
  iexact H5

theorem body_obligation3 (c : Dev nD) : BodyObligationLoose (dat3 V c) (defs₀ (F := Ideal)) Variants.none () Set.univ := fun t => by
  rw [bigSep_W3, bigSep_W3]
  exact sound_body3 V c t

theorem hin3 (c : Dev nD) : Pipeline.ΦA spec3 c ⊢ ((dat3 V c).Φ 0 : sProp 𝕄) := .rfl
theorem hout3 (c : Dev nD) : ((dat3 V c).Φ (Fin.last cfg3.N) : sProp 𝕄) ⊢ Pipeline.ΦA spec3 c := .rfl

end Cert.KernelIdeal.Hand

end
-- ==== Proof.KIFoldFacts.lean ====
import proofs.«167389_j35253091565659_2_alg».proof.Proof.KIFold

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ)

/-! After a region each of its arrays holds its final contents, and every other buffer is as the region found it. -/

theorem W1_arr (c : Dev nD) (w : Fin cfg0.W) :
    W1 m c (Proc.devRef .tc (Pipeline.arrRef spec0 w)) = (dat0 (V0 m) c).arrAt w cfg0.N :=
  Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) :=
  Pipeline.withArrays_of_ne spec0 c _ _ b hb
theorem W2_arr (c : Dev nD) (w : Fin cfg1.W) :
    W2 m c (Proc.devRef .tc (Pipeline.arrRef spec1 w)) = (dat1 (V1 m) c).arrAt w cfg1.N :=
  Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) :=
  Pipeline.withArrays_of_ne spec1 c _ _ b hb
theorem W8_arr (c : Dev nD) (w : Fin cfg2.W) :
    W8 m c (Proc.devRef .tc (Pipeline.arrRef spec2 w)) = (dat2 (V7 m) c).arrAt w cfg2.N :=
  Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) :=
  Pipeline.withArrays_of_ne spec2 c _ _ b hb
theorem W10_arr (c : Dev nD) (w : Fin cfg3.W) :
    W10 m c (Proc.devRef .tc (Pipeline.arrRef spec3 w)) = (dat3 (V9 m) c).arrAt w cfg3.N :=
  Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) :=
  Pipeline.withArrays_of_ne spec3 c _ _ b hb

end Cert.KernelIdeal.Hand

end
-- ==== Proof.KIRun.lean ====
import proofs.«167389_j35253091565659_2_alg».proof.Proof.KIFold
import proofs.«167389_j35253091565659_2_alg».proof.Proof.KIR0Body
import proofs.«167389_j35253091565659_2_alg».proof.Proof.KIR1Body
import proofs.«167389_j35253091565659_2_alg».proof.Proof.KIR2Body
import proofs.«167389_j35253091565659_2_alg».proof.Proof.KIR3Body
import proofs.«167389_j35253091565659_2_alg».proof.Proof.KIFoldFacts
import proofs.«167389_j35253091565659_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

abbrev adm : (p : Fin 4) → (pcfgs (F := Ideal) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- The thread state between two items: the program's buffers at the contents `W`, beside `R`. -/
abbrev stateAt (W : Dev nD → Valuation τ sig (Elt Ideal)) (c : Dev nD) : sProp 𝕄 :=
  iprop(StableHlo.held (c : Thread nD τ) (Pipeline.ucRefs τ sig) (W c) ∗ R c)

set_option backward.isDefEq.respectTransparency.types false in
/-- Region `p` as an item: entered with the buffers at `V`, left with them at `V'`, its arrays at their final contents and the rest as entered. -/
def regionItem (p : Fin 4) (lf : Pipeline.LaunchFacts (nD := nD) (τ := τ) cfgs p) (V V' : Dev nD → Valuation τ sig (Elt Ideal))
    (hq : ∀ c w, (pdats m p c).q w = fullShare)
    (hA : ∀ c w, (pdats m p c).A w = V c (Pipeline.arrRef (cfgs p).spec w))
    (howed : ∀ c t, (pdats m p c).owed t = 0) (hrec : ∀ c t x, x ∈ (pdats m p c).recorded t)
    (hbody : ∀ c, BodyObligationLoose (pdats m p c) (defs₀ (F := Ideal)) 𝒱₀ () Set.univ)
    (hin : ∀ c, Pipeline.ΦA (cfgs p).spec c ⊢ ((pdats m p c).Φ 0 : sProp 𝕄))
    (hout : ∀ c, ((pdats m p c).Φ (Fin.last (cfgs p).N) : sProp 𝕄) ⊢ Pipeline.ΦA (cfgs p).spec c)
    (harr : ∀ c w, V' c (Proc.devRef .tc (Pipeline.arrRef (cfgs p).spec w)) = (pdats m p c).arrAt w (cfgs p).N)
    (hne : ∀ c b, (∀ w, Pipeline.arrRef (cfgs p).spec w ≠ b) → V' c (Proc.devRef .tc b) = V c (Proc.devRef .tc b)) :
    Pipeline.RegionSeg (pcfgs (F := Ideal)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre := stateAt V
  post := stateAt V'
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    unfold Pipeline.Dat.owesAt Pipeline.owesWithin
    rw [howed c 0]
    have hsplit := Pipeline.arrays_of_unscopedBufs (p := p) (pcfgs (F := Ideal)) adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c 0 x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    unfold Pipeline.Dat.owesAt Pipeline.owesWithin
    rw [howed c (Fin.last _)]
    have hjoin := Pipeline.unscopedBufs_of_arrays (p := p) (pcfgs (F := Ideal)) adm (Ix := Unit) (Name := ℕ) (U := UR sig nD τ) (Lvl := ℕ)
      lf.win lf.arr_whole c (pdats m) ((pdats m p c).share_full (hq c))
      (fun b => V c b) (fun b => V' c b) ((pdats m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

section Launch

variable (ρ : Dev nD → PrngReg)

/-- A stretch of host operations as an item: the buffers go from the contents `W` to the operations applied to them. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The ten items in order. -/
abbrev segs : List (Pipeline.Seg (pcfgs (F := Ideal)) adm (pdats m) () defs₀ 𝒱₀ L lv) :=
  [ .region (regionItem m 0 launch0 (W0 m) (W1 m) (fun _ _ => rfl) (fun _ _ => rfl) (fun _ _ => rfl) (fun _ _ _ => trivial)
      (body_obligation0 (V0 m)) (hin0 (V0 m)) (hout0 (V0 m)) (W1_arr m) (W1_of_ne m)),
    .region (regionItem m 1 launch1 (W1 m) (W2 m) (fun _ _ => rfl) (fun _ _ => rfl) (fun _ _ => rfl) (fun _ _ _ => trivial)
      (body_obligation1 (V1 m)) (hin1 (V1 m)) (hout1 (V1 m)) (W2_arr m) (W2_of_ne m)),
    .host (hseg hostOps2 hostOps2_sub hostOps2_fresh (W2 m)),
    .host (hseg hostOps2_1 hostOps2_1_sub hostOps2_1_fresh (W3 m)),
    .host (hseg hostOps2_2 hostOps2_2_sub hostOps2_2_fresh (W4 m)),
    .host (hseg hostOps2_3 hostOps2_3_sub hostOps2_3_fresh (W5 m)),
    .host (hseg hostOps2_4 hostOps2_4_sub hostOps2_4_fresh (W6 m)),
    .region (regionItem m 2 launch2 (W7 m) (W8 m) (fun _ _ => rfl) (fun _ _ => rfl) (fun _ _ => rfl) (fun _ _ _ => trivial)
      (body_obligation2 (V7 m)) (hin2 (V7 m)) (hout2 (V7 m)) (W8_arr m) (W8_of_ne m)),
    .host (hseg hostOps3 hostOps3_sub hostOps3_fresh (W8 m)),
    .region (regionItem m 3 launch3 (W9 m) (W10 m) (fun _ _ => rfl) (fun _ _ => rfl) (fun _ _ => rfl) (fun _ _ _ => trivial)
      (body_obligation3 (V9 m)) (hin3 (V9 m)) (hout3 (V9 m)) (W10_arr m) (W10_of_ne m)) ]

theorem main_run (c : Dev nD) : main (F := Ideal) c = Pipeline.Seg.run (segs m) :=
  (main_chain c).trans (by chain_rfl)

abbrev Tₙ (c : Dev nD) : sProp 𝕄 := iprop(StableHlo.held (c : Thread nD τ) (Pipeline.ucRefs τ sig) (W10 m c) ∗ ∃ r, prngReg c r)

set_option backward.isDefEq.respectTransparency.types false in
/-- From zero counters every weakly fair execution terminates without fault and ends with each buffer at the contents `W10`. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := Ideal)) adm (pdats m) () cellOf_inj emb₁ defs₀ 𝒱₀ L lv m ρ main
    (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stateAt (W0 m)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Launch

end Cert.KernelIdeal.Hand

end
-- ==== Proof.KIArgs.lean ====
import proofs.«167389_j35253091565659_2_alg».proof.Proof.KIFoldFacts
import proofs.«167389_j35253091565659_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ)

/-- A stretch of host operations leaves every buffer none of its operations writes. -/
theorem W3_of (c : Dev nD) (r : Ref sig .tc) (h : r ∉ hostOps2_W) : W3 m c (Proc.devRef .tc r) = W2 m c (Proc.devRef .tc r) :=
  StableHlo.after_of_writes_sub hostOps2 _ hostOps2_writes h
theorem W4_of (c : Dev nD) (r : Ref sig .tc) (h : r ∉ hostOps2_1_W) : W4 m c (Proc.devRef .tc r) = W3 m c (Proc.devRef .tc r) :=
  StableHlo.after_of_writes_sub hostOps2_1 _ hostOps2_1_writes h
theorem W5_of (c : Dev nD) (r : Ref sig .tc) (h : r ∉ hostOps2_2_W) : W5 m c (Proc.devRef .tc r) = W4 m c (Proc.devRef .tc r) :=
  StableHlo.after_of_writes_sub hostOps2_2 _ hostOps2_2_writes h
theorem W6_of (c : Dev nD) (r : Ref sig .tc) (h : r ∉ hostOps2_3_W) : W6 m c (Proc.devRef .tc r) = W5 m c (Proc.devRef .tc r) :=
  StableHlo.after_of_writes_sub hostOps2_3 _ hostOps2_3_writes h
theorem W7_of (c : Dev nD) (r : Ref sig .tc) (h : r ∉ hostOps2_4_W) : W7 m c (Proc.devRef .tc r) = W6 m c (Proc.devRef .tc r) :=
  StableHlo.after_of_writes_sub hostOps2_4 _ hostOps2_4_writes h
theorem W9_of (c : Dev nD) (r : Ref sig .tc) (h : r ∉ hostOps3_W) : W9 m c (Proc.devRef .tc r) = W8 m c (Proc.devRef .tc r) :=
  StableHlo.after_of_writes_sub hostOps3 _ hostOps3_writes h

theorem W7_of_W2 (c : Dev nD) (r : Ref sig .tc) (h2 : r ∉ hostOps2_W) (h3 : r ∉ hostOps2_1_W) (h4 : r ∉ hostOps2_2_W)
    (h5 : r ∉ hostOps2_3_W) (h6 : r ∉ hostOps2_4_W) : W7 m c (Proc.devRef .tc r) = W2 m c (Proc.devRef .tc r) :=
  (W7_of m c r h6).trans <| (W6_of m c r h5).trans <| (W5_of m c r h4).trans <| (W4_of m c r h3).trans (W3_of m c r h2)

/-- A region leaves the array of a window it only reads as it found it. -/
theorem W8_in (c : Dev nD) (w : Fin cfg2.W) (hin : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hin _).trans (A_eq2 (V7 m) c w))

/-- A region leaves in a buffer that is no output window's array what it found there. -/
theorem withArrays_keep {cfg : Pipeline.Cfg sig Λ₀} {c : Dev nD} (dat : Dat τ (Elt Ideal) Unit ℕ (UR sig nD τ) ℕ cfg c) (V : Valuation τ sig (Elt Ideal))
    (hA : ∀ w, dat.A w = V (Proc.devRef .tc (Pipeline.arrRef cfg.spec w))) (hinj : Function.Injective (Pipeline.arrRef cfg.spec))
    (r : Ref sig .tc) (h : ∀ w, Pipeline.arrRef cfg.spec w = r → (cfg.win w).isOut = false) :
    Pipeline.withArrays cfg.spec c V (fun w => dat.arrAt w cfg.N) (Proc.devRef .tc r) = V (Proc.devRef .tc r) := by
  by_cases e : ∃ w, Pipeline.arrRef cfg.spec w = r
  · obtain ⟨w, rfl⟩ := e
    rw [Pipeline.withArrays_arr _ hinj, dat.arrAt_in w (h w rfl), hA]
  · exact Pipeline.withArrays_of_ne _ c _ _ r fun w hw => e ⟨w, hw⟩

/-- `r` is no region's output array and no host operation's result. -/
abbrev Kept (r : Ref sig .tc) : Prop :=
  (∀ w, Pipeline.arrRef spec0 w = r → (cfg0.win w).isOut = false) ∧ (∀ w, Pipeline.arrRef spec1 w = r → (cfg1.win w).isOut = false)
  ∧ r ∉ hostOps2_W ∧ r ∉ hostOps2_1_W ∧ r ∉ hostOps2_2_W ∧ r ∉ hostOps2_3_W ∧ r ∉ hostOps2_4_W
  ∧ (∀ w, Pipeline.arrRef spec2 w = r → (cfg2.win w).isOut = false) ∧ r ∉ hostOps3_W
  ∧ ∀ w, Pipeline.arrRef spec3 w = r → (cfg3.win w).isOut = false

/-- Such a buffer holds what it held at launch after the second region, the second and the fourth host stretch, and at the end. -/
theorem kept_eq (c : Dev nD) (r : Ref sig .tc) (h : Kept r) :
    W2 m c (Proc.devRef .tc r) = W0 m c (Proc.devRef .tc r) ∧ W4 m c (Proc.devRef .tc r) = W0 m c (Proc.devRef .tc r)
    ∧ W6 m c (Proc.devRef .tc r) = W0 m c (Proc.devRef .tc r) ∧ W10 m c (Proc.devRef .tc r) = W0 m c (Proc.devRef .tc r) := by
  obtain ⟨h0, h1, h2, h3, h4, h5, h6, h7, h8, h9⟩ := h
  have e2 := (withArrays_keep (dat1 (V1 m) c) (W1 m c) (A_eq1 (V1 m) c) launch1.win.arr_inj r h1).trans
    (withArrays_keep (dat0 (V0 m) c) (W0 m c) (A_eq0 (V0 m) c) launch0.win.arr_inj r h0)
  have e4 := (W4_of m c r h3).trans ((W3_of m c r h2).trans e2)
  have e6 := (W6_of m c r h5).trans ((W5_of m c r h4).trans e4)
  exact ⟨e2, e4, e6, (withArrays_keep (dat3 (V9 m) c) (W9 m c) (A_eq3 (V9 m) c) launch3.win.arr_inj r h9).trans <| (W9_of m c r h8).trans <|
    (withArrays_keep (dat2 (V7 m) c) (W7 m c) (A_eq2 (V7 m) c) launch2.win.arr_inj r h7).trans <| (W7_of m c r h6).trans e6⟩

theorem W10_main_arg15 (c : Dev nD) : W10 m c (Proc.devRef .tc main_arg15) = m ((c : Thread nD τ).loc main_arg15) :=
  (kept_eq m c main_arg15 (by decide)).2.2.2

/-- The sample and the mixture weights are none of the last two regions' arrays and not the narrowing's result. -/
theorem W10_main_v53 (c : Dev nD) : W10 m c (Proc.devRef .tc main_v53) = W7 m c (Proc.devRef .tc main_v53) :=
  (W10_of_ne m c main_v53 (by decide)).trans <| (W9_of m c main_v53 (by decide)).trans (W8_of_ne m c main_v53 (by decide))
theorem W10_main_v80 (c : Dev nD) : W10 m c (Proc.devRef .tc main_v80) = W7 m c (Proc.devRef .tc main_v80) :=
  (W10_of_ne m c main_v80 (by decide)).trans <| (W9_of m c main_v80 (by decide)).trans (W8_of_ne m c main_v80 (by decide))

end Cert.KernelIdeal.Hand

end
-- ==== Proof.KIResults.lean ====
import proofs.«167389_j35253091565659_2_alg».proof.Proof.KIRun
import proofs.«167389_j35253091565659_2_alg».proof.Proof.KIArgs

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run ends with the five results at the last boundary's contents and the eighteen arguments, which no item writes, as launched. -/
theorem run_results : θ_run defs (onTc (τ := τ) (main (F := Ideal))) ⟨m, fun _ => 0, ρ⟩ (fun r => ∀ c : Dev nD,
      r.2.mem ((c.tc : Thread nD τ).loc main_v53) = W10 m c (Proc.devRef .tc main_v53)
      ∧ r.2.mem ((c.tc : Thread nD τ).loc main_v83) = W10 m c (Proc.devRef .tc main_v83)
      ∧ r.2.mem ((c.tc : Thread nD τ).loc main_v53) = W10 m c (Proc.devRef .tc main_v53)
      ∧ r.2.mem ((c.tc : Thread nD τ).loc main_arg15) = W10 m c (Proc.devRef .tc main_arg15)
      ∧ r.2.mem ((c.tc : Thread nD τ).loc main_v80) = W10 m c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => by
    have hm (b : Ref sig .tc) (hb : ¬ (Proc.devRef .tc b : DevRef τ sig).isScoped) := h c _ (mem_uc b hb)
    refine ⟨hm _ (by decide), hm _ (by decide), hm _ (by decide), hm _ (by decide), hm _ (by decide), ?_⟩
    and_intros <;> exact (hm _ (by decide)).trans (kept_eq m c _ (by decide)).2.2.2)
    (run_all m ρ)

end Cert.KernelIdeal.Hand

end
-- ==== Proof.KIFrame.lean ====
import proofs.«167389_j35253091565659_2_alg».proof.Proof.KIResults

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

theorem frame_ki : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2.2.2.2.2) (run_results m ρ)

end Cert.KernelIdeal.Hand

end
-- ==== Proof.RefStages.lean ====
import proofs.«167389_j35253091565659_2_alg».proof.Proof.Gen.ReferenceIdeal
import Idealize.ShloMosaic.PureOps.Ideal

noncomputable section

namespace Cert.ReferenceIdeal.Hand

open Cert.ReferenceIdeal Cert.ReferenceIdeal.Gen Idealize.ShloMosaic

def hostSoftplus (x : FVec Ideal S2048x1024 .f32) : FVec Ideal S2048x1024 .f32 :=
  select (cmpf .une (subf x (broadcastInDim S2048x1024 ![] bcast_S_S2048x1024 (constant (F := Ideal) S_ .f32 0x00000000#32))) (subf x (broadcastInDim S2048x1024 ![] bcast_S_S2048x1024 (constant (F := Ideal) S_ .f32 0x00000000#32)))) (addf x (broadcastInDim S2048x1024 ![] bcast_S_S2048x1024 (constant (F := Ideal) S_ .f32 0x00000000#32))) (addf (maximumf x (broadcastInDim S2048x1024 ![] bcast_S_S2048x1024 (constant (F := Ideal) S_ .f32 0x00000000#32))) (Host.log1p (F := Ideal) (Host.exp (F := Ideal) (Host.negf (F := Ideal) (Host.absf (F := Ideal) (subf x (broadcastInDim S2048x1024 ![] bcast_S_S2048x1024 (constant (F := Ideal) S_ .f32 0x00000000#32))))))))

def res_en1 (a0 : FVec Ideal S2048x30000 .f32) (a3 : FVec Ideal S1024x30000 .f32) (a4 : FVec Ideal S1024 .f32) : FVec Ideal S2048x1024 .f32 :=
  hostSoftplus (addf (Host.dotGeneral (F := Ideal) dot_S2048x30000_S30000x1024_S2048x1024_1_0_0_1_n_n none a0 (transpose S30000x1024 [1, 0] a3 transposes_S1024x30000_S30000x1024_1_0)) (broadcastInDim S2048x1024 ![0, 1] bcast_S1x1024_S2048x1024_0_1 (broadcastInDim S1x1024 ![1] bcast_S1024_S1x1024_1 a4)))

def res_en2 (e1 : FVec Ideal S2048x1024 .f32) (a5 : FVec Ideal S1024x1024 .f32) (a6 : FVec Ideal S1024 .f32) : FVec Ideal S2048x1024 .f32 :=
  hostSoftplus (addf (Host.dotGeneral (F := Ideal) dot_S2048x1024_S1024x1024_S2048x1024_1_0_0_1_n_n none e1 (transpose S1024x1024 [1, 0] a5 transposes_S1024x1024_S1024x1024_1_0)) (broadcastInDim S2048x1024 ![0, 1] bcast_S1x1024_S2048x1024_0_1 (broadcastInDim S1x1024 ![1] bcast_S1024_S1x1024_1 a6)))

def hostLin64 (e : FVec Ideal S2048x1024 .f32) (w : FVec Ideal S64x1024 .f32) (b : FVec Ideal S64 .f32) : FVec Ideal S2048x64 .f32 :=
  addf (Host.dotGeneral (F := Ideal) dot_S2048x1024_S1024x64_S2048x64_1_0_0_1_n_n none e (transpose S1024x64 [1, 0] w transposes_S64x1024_S1024x64_1_0)) (broadcastInDim S2048x64 ![0, 1] bcast_S1x64_S2048x64_0_1 (broadcastInDim S1x64 ![1] bcast_S64_S1x64_1 b))

def hostMean64 (x : FVec Ideal S2048x64 .f32) : FVec Ideal S64 .f32 :=
  Host.divf (F := Ideal) (Host.reduceAdd (F := Ideal) x (constant (F := Ideal) S_ .f32 0x00000000#32) reducesTo_S2048x64_S64_d0 h_S_) (broadcastInDim S64 ![] bcast_S_S64 (constant (F := Ideal) S_ .f32 0x45000000#32))

def hostMeanRow (x : FVec Ideal S2048x64 .f32) : FVec Ideal S1x64 .f32 :=
  Host.divf (F := Ideal) (broadcastInDim S1x64 ![1] bcast_S64_S1x64_1 (Host.reduceAdd (F := Ideal) x (constant (F := Ideal) S_ .f32 0x00000000#32) reducesTo_S2048x64_S64_d0 h_S_)) (broadcastInDim S1x64 ![] bcast_S_S1x64 (constant (F := Ideal) S_ .f32 0x45000000#32))

def hostDev (x : FVec Ideal S2048x64 .f32) : FVec Ideal S2048x64 .f32 :=
  subf x (broadcastInDim S2048x64 ![0, 1] bcast_S1x64_S2048x64_0_1 (hostMeanRow x))

def hostVar64 (x : FVec Ideal S2048x64 .f32) : FVec Ideal S64 .f32 :=
  select (broadcastInDim S64 ![] bcast_S_S64 (cmpf .ogt (subf (constant (F := Ideal) S_ .f32 0x45000000#32) (sitofp (F := Ideal) .f32 (constantI S_ 32 0#32))) (constant (F := Ideal) S_ .f32 0x00000000#32))) (Host.divf (F := Ideal) (Host.reduceAdd (F := Ideal) (mulf (hostDev x) (hostDev x)) (constant (F := Ideal) S_ .f32 0x00000000#32) reducesTo_S2048x64_S64_d0 h_S_) (broadcastInDim S64 ![] bcast_S_S64 (subf (constant (F := Ideal) S_ .f32 0x45000000#32) (sitofp (F := Ideal) .f32 (constantI S_ 32 0#32))))) (broadcastInDim S64 ![] bcast_S_S64 (constant (F := Ideal) S_ .f32 0x7FC00000#32))

def hostBn (x : FVec Ideal S2048x64 .f32) (g : FVec Ideal S64 .f32) (b : FVec Ideal S64 .f32) : FVec Ideal S2048x64 .f32 :=
  addf (mulf (mulf (subf x (broadcastInDim S2048x64 ![0, 1] bcast_S1x64_S2048x64_0_1 (broadcastInDim S1x64 ![1] bcast_S64_S1x64_1 (hostMean64 x)))) (broadcastInDim S2048x64 ![0, 1] bcast_S1x64_S2048x64_0_1 (broadcastInDim S1x64 ![1] bcast_S64_S1x64_1 (Host.rsqrt (F := Ideal) (addf (hostVar64 x) (broadcastInDim S64 ![] bcast_S_S64 (constant (F := Ideal) S_ .f32 0x3727C5AC#32))))))) (broadcastInDim S2048x64 ![0, 1] bcast_S1x64_S2048x64_0_1 (broadcastInDim S1x64 ![1] bcast_S64_S1x64_1 g))) (broadcastInDim S2048x64 ![0, 1] bcast_S1x64_S2048x64_0_1 (broadcastInDim S1x64 ![1] bcast_S64_S1x64_1 b))

def res_pm (e2 : FVec Ideal S2048x1024 .f32) (a7 : FVec Ideal S64x1024 .f32) (a8 : FVec Ideal S64 .f32) (a11 : FVec Ideal S64 .f32) (a12 : FVec Ideal S64 .f32) : FVec Ideal S2048x64 .f32 :=
  hostBn (hostLin64 e2 a7 a8) a11 a12

def res_plv (e2 : FVec Ideal S2048x1024 .f32) (a9 : FVec Ideal S64x1024 .f32) (a10 : FVec Ideal S64 .f32) (a13 : FVec Ideal S64 .f32) (a14 : FVec Ideal S64 .f32) : FVec Ideal S2048x64 .f32 :=
  hostBn (hostLin64 e2 a9 a10) a13 a14

def hostSample (pm : FVec Ideal S2048x64 .f32) (plv : FVec Ideal S2048x64 .f32) (a2 : FVec Ideal S2048x64 .f32) : FVec Ideal S2048x64 .f32 :=
  addf pm (mulf (Host.sqrt (F := Ideal) (Host.exp (F := Ideal) plv)) a2)

def res_z (e2 : FVec Ideal S2048x1024 .f32) (a2 : FVec Ideal S2048x64 .f32) (a7 : FVec Ideal S64x1024 .f32) (a8 : FVec Ideal S64 .f32) (a9 : FVec Ideal S64x1024 .f32) (a10 : FVec Ideal S64 .f32) (a11 : FVec Ideal S64 .f32) (a12 : FVec Ideal S64 .f32) (a13 : FVec Ideal S64 .f32) (a14 : FVec Ideal S64 .f32) : FVec Ideal S2048x64 .f32 :=
  hostSample (res_pm e2 a7 a8 a11 a12) (res_plv e2 a9 a10 a13 a14) a2

def hostNegHalfDist (z : FVec Ideal S2048x64 .f32) (a15 : FVec Ideal S512x64 .f32) : FVec Ideal S2048x512 .f32 :=
  mulf (broadcastInDim S2048x512 ![] bcast_S_S2048x512 (constant (F := Ideal) S_ .f32 0xBF000000#32)) (subf (addf (broadcastInDim S2048x512 ![0, 1] bcast_S2048x1_S2048x512_0_1 (broadcastInDim S2048x1 ![0] bcast_S2048_S2048x1_0 (Host.reduceAdd (F := Ideal) (mulf z z) (constant (F := Ideal) S_ .f32 0x00000000#32) reducesTo_S2048x64_S2048_d1 h_S_))) (broadcastInDim S2048x512 ![0, 1] bcast_S1x512_S2048x512_0_1 (broadcastInDim S1x512 ![1] bcast_S512_S1x512_1 (Host.reduceAdd (F := Ideal) (mulf a15 a15) (constant (F := Ideal) S_ .f32 0x00000000#32) reducesTo_S512x64_S512_d1 h_S_)))) (mulf (broadcastInDim S2048x512 ![] bcast_S_S2048x512 (constant (F := Ideal) S_ .f32 0x40000000#32)) (Host.dotGeneral (F := Ideal) dot_S2048x64_S64x512_S2048x512_1_0_0_1_n_n none z (transpose S64x512 [1, 0] a15 transposes_S512x64_S64x512_1_0))))

def hostRowMaxPhi (d : FVec Ideal S2048x512 .f32) : FVec Ideal S2048 .f32 :=
  maximumf (broadcastInDim S2048 ![] bcast_S_S2048 (constant (F := Ideal) S_ .f32 0xFF800000#32)) (Host.reduce FloatOps.maximumf d (constant (F := Ideal) S_ .f32 0xFF800000#32) reducesTo_S2048x512_S2048_d1 h_S_)

def hostExpPhi (d : FVec Ideal S2048x512 .f32) : FVec Ideal S2048x512 .f32 :=
  Host.exp (F := Ideal) (subf d (broadcastInDim S2048x512 ![0, 1] bcast_S2048x1_S2048x512_0_1 (broadcastInDim S2048x1 ![0] bcast_S2048_S2048x1_0 (hostRowMaxPhi d))))

def hostSoftmaxPhi (d : FVec Ideal S2048x512 .f32) : FVec Ideal S2048x512 .f32 :=
  Host.divf (F := Ideal) (hostExpPhi d) (broadcastInDim S2048x512 ![0, 1] bcast_S2048x1_S2048x512_0_1 (broadcastInDim S2048x1 ![0] bcast_S2048_S2048x1_0 (Host.reduceAdd (F := Ideal) (hostExpPhi d) (constant (F := Ideal) S_ .f32 0x00000000#32) reducesTo_S2048x512_S2048_d1 h_S_)))

def res_phi (z : FVec Ideal S2048x64 .f32) (a15 : FVec Ideal S512x64 .f32) : FVec Ideal S2048x512 .f32 :=
  hostSoftmaxPhi (hostNegHalfDist z a15)

def hostLogits (a16 : FVec Ideal S512x300 .f32) (a17 : FVec Ideal S30000x300 .f32) : FVec Ideal S512x30000 .f32 :=
  Host.dotGeneral (F := Ideal) dot_S512x300_S300x30000_S512x30000_1_0_0_1_n_n none a16 (transpose S300x30000 [1, 0] a17 transposes_S30000x300_S300x30000_1_0)

def hostRowMaxBeta (l : FVec Ideal S512x30000 .f32) : FVec Ideal S512 .f32 :=
  maximumf (broadcastInDim S512 ![] bcast_S_S512 (constant (F := Ideal) S_ .f32 0xFF800000#32)) (Host.reduce FloatOps.maximumf l (constant (F := Ideal) S_ .f32 0xFF800000#32) reducesTo_S512x30000_S512_d1 h_S_)

def hostExpBeta (l : FVec Ideal S512x30000 .f32) : FVec Ideal S512x30000 .f32 :=
  Host.exp (F := Ideal) (subf l (broadcastInDim S512x30000 ![0, 1] bcast_S512x1_S512x30000_0_1 (broadcastInDim S512x1 ![0] bcast_S512_S512x1_0 (hostRowMaxBeta l))))

def hostSoftmaxBeta (l : FVec Ideal S512x30000 .f32) : FVec Ideal S512x30000 .f32 :=
  Host.divf (F := Ideal) (hostExpBeta l) (broadcastInDim S512x30000 ![0, 1] bcast_S512x1_S512x30000_0_1 (broadcastInDim S512x1 ![0] bcast_S512_S512x1_0 (Host.reduceAdd (F := Ideal) (hostExpBeta l) (constant (F := Ideal) S_ .f32 0x00000000#32) reducesTo_S512x30000_S512_d1 h_S_)))

def res_beta (a16 : FVec Ideal S512x300 .f32) (a17 : FVec Ideal S30000x300 .f32) : FVec Ideal S512x30000 .f32 :=
  hostSoftmaxBeta (hostLogits a16 a17)

def res_recon (phi : FVec Ideal S2048x512 .f32) (beta : FVec Ideal S512x30000 .f32) : FVec Ideal S2048x30000 .f32 :=
  Host.dotGeneral (F := Ideal) dot_S2048x512_S512x30000_S2048x30000_1_0_0_1_n_n none phi beta

end Cert.ReferenceIdeal.Hand

end
-- ==== Proof.RefRun.lean ====
import proofs.«167389_j35253091565659_2_alg».proof.Proof.RefStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

section Line

variable {F : FTy → Type} [FloatOps F]

/-- Softplus of `x` entry by entry, over the buffers of one call. -/
abbrev softplusOps (x : TRef sig ⟨S2048x1024, .f32⟩) (φ : fn_softplus.Bufs) : List (HloOp τ sig (Elt F)) :=
  [TRef.nullary φ.cst (constant S_ .f32 0x00000000#32),
   TRef.unary φ.cst φ.v0 (broadcastInDim S2048x1024 ![] bcast_S_S2048x1024),
   TRef.binary x φ.v0 φ.v1 maximumf,
   TRef.unary φ.cst φ.v2 (broadcastInDim S2048x1024 ![] bcast_S_S2048x1024),
   TRef.binary x φ.v2 φ.v3 subf,
   TRef.binary φ.v3 φ.v3 φ.v4 (cmpf .une),
   TRef.unary φ.cst φ.v5 (broadcastInDim S2048x1024 ![] bcast_S_S2048x1024),
   TRef.binary x φ.v5 φ.v6 addf,
   TRef.unary φ.v3 φ.v7 Host.absf,
   TRef.unary φ.v7 φ.v8 Host.negf,
   TRef.unary φ.v8 φ.v9 Host.exp,
   TRef.unary φ.v9 φ.v10 Host.log1p,
   TRef.binary φ.v1 φ.v10 φ.v11 addf,
   TRef.ternary φ.v4 φ.v6 φ.v11 φ.v12 select]

/-- The biased column variance of `x`, over the buffers of one call. -/
abbrev varOps (x : TRef sig ⟨S2048x64, .f32⟩) (n : TRef sig ⟨S_, .i32⟩) (φ : fn_var.Bufs) : List (HloOp τ sig (Elt F)) :=
  [TRef.nullary φ.cst (constant S_ .f32 0x00000000#32),
   TRef.binary x φ.cst φ.v0 (fun x v => Host.reduceAdd x v reducesTo_S2048x64_S64_d0 h_S_),
   TRef.unary φ.v0 φ.v1 (broadcastInDim S1x64 ![1] bcast_S64_S1x64_1),
   TRef.nullary φ.cst_0 (constant S_ .f32 0x45000000#32),
   TRef.unary φ.cst_0 φ.v2 (broadcastInDim S1x64 ![] bcast_S_S1x64),
   TRef.binary φ.v1 φ.v2 φ.v3 Host.divf,
   TRef.unary φ.v3 φ.v4 (broadcastInDim S2048x64 ![0, 1] bcast_S1x64_S2048x64_0_1),
   TRef.binary x φ.v4 φ.v5 subf,
   TRef.binary φ.v5 φ.v5 φ.v6 mulf,
   TRef.unary n φ.v7 (sitofp .f32),
   TRef.nullary φ.cst_1 (constant S_ .f32 0x45000000#32),
   TRef.binary φ.cst_1 φ.v7 φ.v8 subf,
   TRef.nullary φ.cst_2 (constant S_ .f32 0x00000000#32),
   TRef.binary φ.v6 φ.cst_2 φ.v9 (fun x v => Host.reduceAdd x v reducesTo_S2048x64_S64_d0 h_S_),
   TRef.unary φ.v8 φ.v10 (broadcastInDim S64 ![] bcast_S_S64),
   TRef.binary φ.v9 φ.v10 φ.v11 Host.divf,
   TRef.nullary φ.cst_3 (constant S_ .f32 0x00000000#32),
   TRef.binary φ.v8 φ.cst_3 φ.v12 (cmpf .ogt),
   TRef.nullary φ.cst_4 (constant S_ .f32 0x7FC00000#32),
   TRef.unary φ.cst_4 φ.call0.v0 id,
   TRef.unary φ.call0.v0 φ.call0.v1 (broadcastInDim S64 ![] bcast_S_S64),
   TRef.ternary φ.v12 φ.v11 φ.call0.v1 φ.call0.v2 (fun p a b => select (broadcastInDim S64 ![] bcast_S_S64 p) a b)]

/-- The first dense layer: product with the transposed weight, plus the bias row, then softplus. -/
abbrev A1 : List (HloOp τ sig (Elt F)) :=
  [unary main_arg3 main_v0 (transpose S30000x1024 [1, 0] · transposes_S1024x30000_S30000x1024_1_0),
   binary main_arg0 main_v0 main_v1 (fun l r => Host.dotGeneral dot_S2048x30000_S30000x1024_S2048x1024_1_0_0_1_n_n none l r),
   unary main_arg4 main_v2 (broadcastInDim S1x1024 ![1] bcast_S1024_S1x1024_1),
   unary main_v2 main_v3 (broadcastInDim S2048x1024 ![0, 1] bcast_S1x1024_S2048x1024_0_1),
   binary main_v1 main_v3 main_v4 addf] ++ softplusOps (.of main_v4) main_call0

/-- The second dense layer, of the same shape. -/
abbrev A2 : List (HloOp τ sig (Elt F)) :=
  [unary main_arg5 main_v6 (transpose S1024x1024 [1, 0] · transposes_S1024x1024_S1024x1024_1_0),
   binary main_v5 main_v6 main_v7 (fun l r => Host.dotGeneral dot_S2048x1024_S1024x1024_S2048x1024_1_0_0_1_n_n none l r),
   unary main_arg6 main_v8 (broadcastInDim S1x1024 ![1] bcast_S1024_S1x1024_1),
   unary main_v8 main_v9 (broadcastInDim S2048x1024 ![0, 1] bcast_S1x1024_S2048x1024_0_1),
   binary main_v7 main_v9 main_v10 addf] ++ softplusOps (.of main_v10) main_call1

/-- The projection to the posterior mean, before normalisation. -/
abbrev A3 : List (HloOp τ sig (Elt F)) :=
  [unary main_arg7 main_v12 (transpose S1024x64 [1, 0] · transposes_S64x1024_S1024x64_1_0),
   binary main_v11 main_v12 main_v13 (fun l r => Host.dotGeneral dot_S2048x1024_S1024x64_S2048x64_1_0_0_1_n_n none l r),
   unary main_arg8 main_v14 (broadcastInDim S1x64 ![1] bcast_S64_S1x64_1),
   unary main_v14 main_v15 (broadcastInDim S2048x64 ![0, 1] bcast_S1x64_S2048x64_0_1),
   binary main_v13 main_v15 main_v16 addf]

/-- Batch normalisation of the mean projection over the rows. -/
abbrev A4 : List (HloOp τ sig (Elt F)) :=
  [nullary main_cst (constant S_ .f32 0x00000000#32),
   binary main_v16 main_cst main_v17 (fun x v => Host.reduceAdd x v reducesTo_S2048x64_S64_d0 h_S_),
   nullary main_cst_0 (constant S_ .f32 0x45000000#32),
   unary main_cst_0 main_v18 (broadcastInDim S64 ![] bcast_S_S64),
   binary main_v17 main_v18 main_v19 Host.divf,
   nullary main_c (constantI S_ 32 0#32)] ++ (varOps (.of main_v16) (.of main_c) main_call2 ++
  [unary main_v19 main_v21 (broadcastInDim S1x64 ![1] bcast_S64_S1x64_1),
   unary main_v21 main_v22 (broadcastInDim S2048x64 ![0, 1] bcast_S1x64_S2048x64_0_1),
   binary main_v16 main_v22 main_v23 subf,
   nullary main_cst_1 (constant S_ .f32 0x3727C5AC#32),
   unary main_cst_1 main_v24 (broadcastInDim S64 ![] bcast_S_S64),
   binary main_v20 main_v24 main_v25 addf,
   unary main_v25 main_v26 Host.rsqrt,
   unary main_v26 main_v27 (broadcastInDim S1x64 ![1] bcast_S64_S1x64_1),
   unary main_v27 main_v28 (broadcastInDim S2048x64 ![0, 1] bcast_S1x64_S2048x64_0_1),
   binary main_v23 main_v28 main_v29 mulf,
   unary main_arg11 main_v30 (broadcastInDim S1x64 ![1] bcast_S64_S1x64_1),
   unary main_v30 main_v31 (broadcastInDim S2048x64 ![0, 1] bcast_S1x64_S2048x64_0_1),
   binary main_v29 main_v31 main_v32 mulf,
   unary main_arg12 main_v33 (broadcastInDim S1x64 ![1] bcast_S64_S1x64_1),
   unary main_v33 main_v34 (broadcastInDim S2048x64 ![0, 1] bcast_S1x64_S2048x64_0_1),
   binary main_v32 main_v34 main_v35 addf])

/-- The projection to the posterior log-variance, before normalisation. -/
abbrev A5 : List (HloOp τ sig (Elt F)) :=
  [unary main_arg9 main_v36 (transpose S1024x64 [1, 0] · transposes_S64x1024_S1024x64_1_0),
   binary main_v11 main_v36 main_v37 (fun l r => Host.dotGeneral dot_S2048x1024_S1024x64_S2048x64_1_0_0_1_n_n none l r),
   unary main_arg10 main_v38 (broadcastInDim S1x64 ![1] bcast_S64_S1x64_1),
   unary main_v38 main_v39 (broadcastInDim S2048x64 ![0, 1] bcast_S1x64_S2048x64_0_1),
   binary main_v37 main_v39 main_v40 addf]

/-- Batch normalisation of the log-variance projection, up to the reciprocal root's first broadcast. -/
abbrev A6a : List (HloOp τ sig (Elt F)) :=
  [nullary main_cst_2 (constant S_ .f32 0x00000000#32),
   binary main_v40 main_cst_2 main_v41 (fun x v => Host.reduceAdd x v reducesTo_S2048x64_S64_d0 h_S_),
   nullary main_cst_3 (constant S_ .f32 0x45000000#32),
   unary main_cst_3 main_v42 (broadcastInDim S64 ![] bcast_S_S64),
   binary main_v41 main_v42 main_v43 Host.divf,
   nullary main_c_4 (constantI S_ 32 0#32)] ++ (varOps (.of main_v40) (.of main_c_4) main_call3 ++
  [unary main_v43 main_v45 (broadcastInDim S1x64 ![1] bcast_S64_S1x64_1),
   unary main_v45 main_v46 (broadcastInDim S2048x64 ![0, 1] bcast_S1x64_S2048x64_0_1),
   binary main_v40 main_v46 main_v47 subf,
   nullary main_cst_5 (constant S_ .f32 0x3727C5AC#32),
   unary main_cst_5 main_v48 (broadcastInDim S64 ![] bcast_S_S64),
   binary main_v44 main_v48 main_v49 addf,
   unary main_v49 main_v50 Host.rsqrt,
   unary main_v50 main_v51 (broadcastInDim S1x64 ![1] bcast_S64_S1x64_1)])

/-- The rest of that normalisation: scale and shift. -/
abbrev A6b : List (HloOp τ sig (Elt F)) :=
  [unary main_v51 main_v52 (broadcastInDim S2048x64 ![0, 1] bcast_S1x64_S2048x64_0_1),
   binary main_v47 main_v52 main_v53 mulf,
   unary main_arg13 main_v54 (broadcastInDim S1x64 ![1] bcast_S64_S1x64_1),
   unary main_v54 main_v55 (broadcastInDim S2048x64 ![0, 1] bcast_S1x64_S2048x64_0_1),
   binary main_v53 main_v55 main_v56 mulf,
   unary main_arg14 main_v57 (broadcastInDim S1x64 ![1] bcast_S64_S1x64_1),
   unary main_v57 main_v58 (broadcastInDim S2048x64 ![0, 1] bcast_S1x64_S2048x64_0_1),
   binary main_v56 main_v58 main_v59 addf]

/-- The sample: mean plus root of the exponential of the log-variance times the noise. -/
abbrev A7 : List (HloOp τ sig (Elt F)) :=
  [unary main_v59 main_v60 Host.exp,
   unary main_v60 main_v61 Host.sqrt,
   binary main_v61 main_arg2 main_v62 mulf,
   binary main_v35 main_v62 main_v63 addf]

/-- Minus half the squared distances to the centres, and their softmax along the rows. -/
abbrev A8 : List (HloOp τ sig (Elt F)) :=
  [binary main_v63 main_v63 main_v64 mulf,
   nullary main_cst_6 (constant S_ .f32 0x00000000#32),
   binary main_v64 main_cst_6 main_v65 (fun x v => Host.reduceAdd x v reducesTo_S2048x64_S2048_d1 h_S_),
   unary main_v65 main_v66 (broadcastInDim S2048x1 ![0] bcast_S2048_S2048x1_0),
   binary main_arg15 main_arg15 main_v67 mulf,
   nullary main_cst_7 (constant S_ .f32 0x00000000#32),
   binary main_v67 main_cst_7 main_v68 (fun x v => Host.reduceAdd x v reducesTo_S512x64_S512_d1 h_S_),
   unary main_v68 main_v69 (broadcastInDim S1x512 ![1] bcast_S512_S1x512_1),
   unary main_v66 main_v70 (broadcastInDim S2048x512 ![0, 1] bcast_S2048x1_S2048x512_0_1),
   unary main_v69 main_v71 (broadcastInDim S2048x512 ![0, 1] bcast_S1x512_S2048x512_0_1),
   binary main_v70 main_v71 main_v72 addf,
   unary main_arg15 main_v73 (transpose S64x512 [1, 0] · transposes_S512x64_S64x512_1_0),
   binary main_v63 main_v73 main_v74 (fun l r => Host.dotGeneral dot_S2048x64_S64x512_S2048x512_1_0_0_1_n_n none l r),
   nullary main_cst_8 (constant S_ .f32 0x40000000#32),
   unary main_cst_8 main_v75 (broadcastInDim S2048x512 ![] bcast_S_S2048x512),
   binary main_v75 main_v74 main_v76 mulf,
   binary main_v72 main_v76 main_v77 subf,
   nullary main_cst_9 (constant S_ .f32 0xBF000000#32),
   unary main_cst_9 main_v78 (broadcastInDim S2048x512 ![] bcast_S_S2048x512),
   binary main_v78 main_v77 main_v79 mulf,
   nullary main_cst_10 (constant S_ .f32 0xFF800000#32),
   binary main_v79 main_cst_10 main_v80 (fun x v => Host.reduce FloatOps.maximumf x v reducesTo_S2048x512_S2048_d1 h_S_),
   nullary main_cst_11 (constant S_ .f32 0xFF800000#32),
   unary main_cst_11 main_v81 (broadcastInDim S2048 ![] bcast_S_S2048),
   binary main_v81 main_v80 main_v82 maximumf,
   unary main_v82 main_v83 (broadcastInDim S2048x1 ![0] bcast_S2048_S2048x1_0),
   unary main_v83 main_v84 (broadcastInDim S2048x512 ![0, 1] bcast_S2048x1_S2048x512_0_1),
   binary main_v79 main_v84 main_v85 subf,
   unary main_v85 main_v86 Host.exp,
   nullary main_cst_12 (constant S_ .f32 0x00000000#32),
   binary main_v86 main_cst_12 main_v87 (fun x v => Host.reduceAdd x v reducesTo_S2048x512_S2048_d1 h_S_),
   unary main_v87 main_v88 (broadcastInDim S2048x1 ![0] bcast_S2048_S2048x1_0),
   unary main_v88 main_v89 (broadcastInDim S2048x512 ![0, 1] bcast_S2048x1_S2048x512_0_1),
   binary main_v86 main_v89 main_v90 Host.divf]

/-- The logits against the word embeddings and their softmax's numerator and row sums. -/
abbrev A9a : List (HloOp τ sig (Elt F)) :=
  [unary main_arg17 main_v91 (transpose S300x30000 [1, 0] · transposes_S30000x300_S300x30000_1_0),
   binary main_arg16 main_v91 main_v92 (fun l r => Host.dotGeneral dot_S512x300_S300x30000_S512x30000_1_0_0_1_n_n none l r),
   nullary main_cst_13 (constant S_ .f32 0xFF800000#32),
   binary main_v92 main_cst_13 main_v93 (fun x v => Host.reduce FloatOps.maximumf x v reducesTo_S512x30000_S512_d1 h_S_),
   nullary main_cst_14 (constant S_ .f32 0xFF800000#32),
   unary main_cst_14 main_v94 (broadcastInDim S512 ![] bcast_S_S512),
   binary main_v94 main_v93 main_v95 maximumf,
   unary main_v95 main_v96 (broadcastInDim S512x1 ![0] bcast_S512_S512x1_0),
   unary main_v96 main_v97 (broadcastInDim S512x30000 ![0, 1] bcast_S512x1_S512x30000_0_1),
   binary main_v92 main_v97 main_v98 subf,
   unary main_v98 main_v99 Host.exp,
   nullary main_cst_15 (constant S_ .f32 0x00000000#32),
   binary main_v99 main_cst_15 main_v100 (fun x v => Host.reduceAdd x v reducesTo_S512x30000_S512_d1 h_S_),
   unary main_v100 main_v101 (broadcastInDim S512x1 ![0] bcast_S512_S512x1_0)]

/-- That softmax's division. -/
abbrev A9b : List (HloOp τ sig (Elt F)) :=
  [unary main_v101 main_v102 (broadcastInDim S512x30000 ![0, 1] bcast_S512x1_S512x30000_0_1),
   binary main_v99 main_v102 main_v103 Host.divf]

/-- The reconstruction: the product of the two softmax arrays. -/
abbrev A10 : List (HloOp τ sig (Elt F)) :=
  [binary main_v90 main_v103 main_v104 (fun l r => Host.dotGeneral dot_S2048x512_S512x30000_S2048x30000_1_0_0_1_n_n none l r)]

abbrev P0 : List (HloOp τ sig (Elt F)) := A1 ++ (A2 ++ (A3 ++ (A4 ++ (A5 ++ A6a))))

abbrev P1 : List (HloOp τ sig (Elt F)) := A6b ++ (A7 ++ (A8 ++ A9a))

abbrev P2 : List (HloOp τ sig (Elt F)) := A9b ++ A10

/-- The whole program's operations in order. -/
abbrev ops : List (HloOp τ sig (Elt F)) := P0 ++ (P1 ++ P2)

theorem main_part0_eq (c : Dev nD) : main_part0 (F := F) c = seq P0 := rfl
theorem main_part1_eq (c : Dev nD) : main_part1 (F := F) c = seq P1 := rfl
theorem main_part2_eq (c : Dev nD) : main_part2 (F := F) c = seq P2 := rfl
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  repeat' apply And.intro
  all_goals first | simp only [nullary_bufs_sub, unary_bufs_sub, binary_bufs_sub, ternary_bufs_sub] | exact binary_bufs_sub ..

end Line

/-- The line cut into ten consecutive stages. -/
def stage : ℕ → List (HloOp τ sig (Elt Ideal))
  | 0 => A1 | 1 => A2 | 2 => A3 | 3 => A4 | 4 => A5 | 5 => A6a ++ A6b | 6 => A7 | 7 => A8 | 8 => A9a ++ A9b | 9 => A10 | _ => []

/-- The number of the first buffer each stage writes: buffers are numbered in the order the program defines them. -/
def lo : ℕ → ℕ
  | 0 => 18 | 1 => 37 | 2 => 56 | 3 => 61 | 4 => 105 | 5 => 110 | 6 => 154 | 7 => 158 | 8 => 192 | 9 => 208 | _ => 0

theorem stage_writes : ∀ k, (stage k).Forall fun op => ∀ b ∈ op.writes, ∃ y : Ref sig .tc, b = Proc.devRef (τ := τ) .tc y ∧ lo k ≤ y.idx
  | 0 | 1 | 2 | 3 | 4 | 5 | 6 | 7 | 8 | 9 => by
    repeat' apply And.intro
    all_goals exact fun _ hb => ⟨_, Finset.mem_singleton.mp hb, by decide⟩
  | _ + 10 => trivial

/-- The contents after the first `k` stages. -/
def val (V : Valuation τ sig (Elt Ideal)) : ℕ → Valuation τ sig (Elt Ideal)
  | 0 => V
  | k + 1 => after (stage k) (val V k)

/-- A buffer numbered below a stage's first keeps its contents through it. -/
theorem val_step (V : Valuation τ sig (Elt Ideal)) (k : ℕ) {r : Ref sig .tc} (h : r.idx < lo k) :
    val V (k + 1) (no_index (Proc.devRef .tc r)) = val V k (Proc.devRef .tc r) :=
  after_of_forall_not_mem _ _ fun op hop hb => by
    obtain ⟨y, e, hy⟩ := List.forall_iff_forall_mem.mp (stage_writes k) op hop _ hb
    cases Proc.devRef_injective _ e
    exact Nat.not_lt.mpr hy h

/-- A buffer numbered below the first `k` stages' buffers still holds what it held at first. -/
theorem val_arg (V : Valuation τ sig (Elt Ideal)) {r : Ref sig .tc} :
    ∀ k, (∀ i < k, r.idx < lo i) → val V k (no_index (Proc.devRef .tc r)) = V (Proc.devRef .tc r)
  | 0, _ => rfl
  | k + 1, h => (val_step V k (h k k.lt_succ_self)).trans (val_arg V k fun i hi => h i (hi.trans k.lt_succ_self))

/-- Contents after two lists run one after the other. -/
theorem after_app : ∀ (l₁ l₂ : List (HloOp τ sig (Elt Ideal))) (V : Valuation τ sig (Elt Ideal)), after (l₁ ++ l₂) V = after l₂ (after l₁ V)
  | [], _, _ => rfl
  | op :: l₁, l₂, V => by rw [List.cons_append, after_cons, after_cons, after_app l₁ l₂]

theorem after_ops (V : Valuation τ sig (Elt Ideal)) : after (ops (F := Ideal)) V = val V 10 := by
  simp only [ops, P0, P1, P2, val, stage, after_app]

def resEn1 (m : (ℓ : Loc nD τ sig) → Buf (Elt Ideal) ℓ) (c : Dev nD) : FVec Ideal S2048x1024 .f32 := res_en1 (m ((c.tc : Thread nD τ).loc main_arg0)) (m ((c.tc : Thread nD τ).loc main_arg3)) (m ((c.tc : Thread nD τ).loc main_arg4))

def resEn2 (m : (ℓ : Loc nD τ sig) → Buf (Elt Ideal) ℓ) (c : Dev nD) : FVec Ideal S2048x1024 .f32 := res_en2 (resEn1 m c) (m ((c.tc : Thread nD τ).loc main_arg5)) (m ((c.tc : Thread nD τ).loc main_arg6))

def resZ (m : (ℓ : Loc nD τ sig) → Buf (Elt Ideal) ℓ) (c : Dev nD) : FVec Ideal S2048x64 .f32 :=
  res_z (resEn2 m c) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

def resPhi (m : (ℓ : Loc nD τ sig) → Buf (Elt Ideal) ℓ) (c : Dev nD) : FVec Ideal S2048x512 .f32 := res_phi (resZ m c) (m ((c.tc : Thread nD τ).loc main_arg15))

def resBeta (m : (ℓ : Loc nD τ sig) → Buf (Elt Ideal) ℓ) (c : Dev nD) : FVec Ideal S512x30000 .f32 := res_beta (m ((c.tc : Thread nD τ).loc main_arg16)) (m ((c.tc : Thread nD τ).loc main_arg17))

def resRecon (m : (ℓ : Loc nD τ sig) → Buf (Elt Ideal) ℓ) (c : Dev nD) : FVec Ideal S2048x30000 .f32 := res_recon (resPhi m c) (resBeta m c)

def resPm (m : (ℓ : Loc nD τ sig) → Buf (Elt Ideal) ℓ) (c : Dev nD) : FVec Ideal S2048x64 .f32 := res_pm (resEn2 m c) (m ((c.tc : Thread nD τ).loc main_arg7)) (m ((c.tc : Thread nD τ).loc main_arg8)) (m ((c.tc : Thread nD τ).loc main_arg11)) (m ((c.tc : Thread nD τ).loc main_arg12))
def resPlv (m : (ℓ : Loc nD τ sig) → Buf (Elt Ideal) ℓ) (c : Dev nD) : FVec Ideal S2048x64 .f32 := res_plv (resEn2 m c) (m ((c.tc : Thread nD τ).loc main_arg9)) (m ((c.tc : Thread nD τ).loc main_arg10)) (m ((c.tc : Thread nD τ).loc main_arg13)) (m ((c.tc : Thread nD τ).loc main_arg14))

section Stages

variable (m : (ℓ : Loc nD τ sig) → Buf (Elt Ideal) ℓ) (c : Dev nD)

theorem val1_v5 : val (launchContents m c) 1 (no_index (Proc.devRef .tc main_v5)) = resEn1 m c := by
  show after A1 _ _ = _
  simp only [A1, softplusOps, List.cons_append, List.nil_append]
  after_results_simp
  simp (disch := decide) only [val_arg]
  simp only [TRef.ofBuf, TRef.toBuf, cast_eq]
  rfl
theorem val2_v11 : val (launchContents m c) 2 (no_index (Proc.devRef .tc main_v11)) = resEn2 m c := by
  show after A2 _ _ = _
  simp only [A2, softplusOps, List.cons_append, List.nil_append]
  after_results_simp
  simp (disch := decide) only [val_arg, val1_v5]
  simp only [TRef.ofBuf, TRef.toBuf, cast_eq]
  rfl
theorem val3_v16 : val (launchContents m c) 3 (no_index (Proc.devRef .tc main_v16)) = hostLin64 (resEn2 m c) (m ((c.tc : Thread nD τ).loc main_arg7)) (m ((c.tc : Thread nD τ).loc main_arg8)) := by
  show after A3 _ _ = _
  simp only [A3]
  after_results_simp
  simp (disch := decide) only [val_arg, val2_v11]
  rfl
theorem val4_v35 : val (launchContents m c) 4 (no_index (Proc.devRef .tc main_v35)) = resPm m c := by
  show after A4 _ _ = _
  simp only [A4, varOps, List.cons_append, List.nil_append]
  after_results_simp
  simp (disch := decide) only [val_arg, val3_v16]
  rfl
theorem val5_v40 : val (launchContents m c) 5 (no_index (Proc.devRef .tc main_v40)) = hostLin64 (resEn2 m c) (m ((c.tc : Thread nD τ).loc main_arg9)) (m ((c.tc : Thread nD τ).loc main_arg10)) := by
  show after A5 _ _ = _
  simp only [A5]
  after_results_simp
  simp (disch := decide) only [val_arg, val_step, val2_v11]
  rfl
theorem val6_v59 : val (launchContents m c) 6 (no_index (Proc.devRef .tc main_v59)) = resPlv m c := by
  show after (A6a ++ A6b) _ _ = _
  simp only [A6a, A6b, varOps, List.cons_append, List.nil_append]
  after_results_simp
  simp (disch := decide) only [val_arg, val5_v40]
  rfl
theorem val7_v63 : val (launchContents m c) 7 (no_index (Proc.devRef .tc main_v63)) = resZ m c := by
  show after A7 _ _ = _
  simp only [A7]
  after_results_simp
  simp (disch := decide) only [val_arg, val_step, val6_v59, val4_v35]
  rfl
theorem val8_v90 : val (launchContents m c) 8 (no_index (Proc.devRef .tc main_v90)) = resPhi m c := by
  show after A8 _ _ = _
  simp only [A8]
  after_results_simp
  simp (disch := decide) only [val_arg, val7_v63]
  rfl
theorem val9_v103 : val (launchContents m c) 9 (no_index (Proc.devRef .tc main_v103)) = resBeta m c := by
  show after (A9a ++ A9b) _ _ = _
  simp only [A9a, A9b, List.cons_append, List.nil_append]
  after_results_simp
  simp (disch := decide) only [val_arg]
  rfl
theorem val10_v104 : val (launchContents m c) 10 (no_index (Proc.devRef .tc main_v104)) = resRecon m c := by
  show after A10 _ _ = _
  simp only [A10]
  after_results_simp
  simp (disch := decide) only [val_step, val8_v90, val9_v103]
  rfl

end Stages

/-- Every weakly fair run of the reference ends with the three results at their composed terms and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v63) = resZ m c
      ∧ r.2.mem ((c.tc : Thread nD τ).loc main_v104) = resRecon m c
      ∧ r.2.mem ((c.tc : Thread nD τ).loc main_v90) = resPhi m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => by
      simp only [after_ops] at h
      refine ⟨(h c _).trans (by simp (disch := decide) only [val_step, val7_v63]), (h c _).trans (val10_v104 m c),
        (h c _).trans (by simp (disch := decide) only [val_step, val8_v90]), ?_⟩
      repeat' apply And.intro
      all_goals exact (h c _).trans (val_arg _ 10 (by decide)))
    (run_seq scopedRefs_eq scopedSems_eq defs main (fun _ => ops) main_eq (fun _ => ops_sub) m ρ)

/-- The same run with the results dropped: it terminates and the arguments end unchanged. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2.2.2) (run m ρ)

end Cert.ReferenceIdeal.Hand

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev Sh1 (a : Nat) : Shape := ⟨1, ![a]⟩
abbrev Sh2 (a b : Nat) : Shape := ⟨2, ![a, b]⟩

/-- `softplus a = max a 0 + log (1 + exp (-|a|))` with `|a| = max a (-a)`. -/
def softplus (a : EReal) : EReal := max a 0 + Ideal.log1p (Ideal.exp (-(max a (-a))))

/-- Nothing differs from itself, ordered or unordered. -/
theorem cmp_one_self (x : EReal) : Ideal.cmp .one x x = 0#1 := by
  simp [Ideal.cmp]

theorem cmp_une_self (x : EReal) : Ideal.cmp .une x x = 0#1 := by
  simp [Ideal.cmp]

theorem softplus_kernel_form (a : EReal) :
    Scalar.select (Ideal.cmp .one (a - 0) (a - 0)) (a + 0)
        (max a 0 + Ideal.log1p (Ideal.exp (0 - max (a - 0) (-(a - 0))))) = softplus a := by
  rw [cmp_one_self, select_zero, sub_zero, zero_sub]; rfl

theorem softplus_host_form (a : EReal) :
    Scalar.select (Ideal.cmp .une (a - 0) (a - 0)) (a + 0)
        (max a 0 + Ideal.log1p (Ideal.exp (-(max (a - 0) (-(a - 0)))))) = softplus a := by
  rw [cmp_une_self, select_zero, sub_zero]; rfl

theorem softplus_kernel_ops (a z : Ideal .f32) (hz : z = 0) :
    Scalar.select (FloatOps.cmpf .one (FloatOps.subf a z) (FloatOps.subf a z)) (FloatOps.addf a z)
        (FloatOps.addf (FloatOps.maximumf a z)
          (FloatOps.log1p (FloatOps.exp (FloatOps.subf z (FloatOps.absf (FloatOps.subf a z)))))) = softplus a := by
  subst hz; exact softplus_kernel_form a

theorem softplus_host_ops (a z : Ideal .f32) (hz : z = 0) :
    Scalar.select (FloatOps.cmpf .une (FloatOps.subf a z) (FloatOps.subf a z)) (FloatOps.addf a z)
        (FloatOps.addf (FloatOps.maximumf a z)
          (FloatOps.hostUnary .log1p (FloatOps.hostUnary .exp (FloatOps.hostNegf (FloatOps.hostAbsf (FloatOps.subf a z)))))) = softplus a := by
  subst hz; exact softplus_host_form a

/-- `softplus (x · wᵀ + b)`. -/
def gemmBiasSoftplus (M K N : Nat) (x : (Sh2 M K).Idx → EReal) (w : (Sh2 N K).Idx → EReal)
    (b : (Sh1 N).Idx → EReal) : (Sh2 M N).Idx → EReal :=
  fun i => softplus ((∑ p : Fin K, x (ix2 (n0 := M) (n1 := K) (i 0) p) * w (ix2 (n0 := N) (n1 := K) (i 1) p))
    + b (ix1 (n := N) (i 1)))

/-- `mu · embᵀ`. -/
def logits (mu : (Sh2 512 300).Idx → EReal) (emb : (Sh2 30000 300).Idx → EReal) : (Sh2 512 30000).Idx → EReal :=
  fun i => ∑ k : Fin 300, mu (ix2 (n0 := 512) (n1 := 300) (i 0) k) * emb (ix2 (n0 := 30000) (n1 := 300) (i 1) k)

def rowMax (R C : Nat) (x : (Sh2 R C).Idx → EReal) (r : Fin R) : EReal :=
  Finset.univ.sup fun c : Fin C => x (ix2 (n0 := R) (n1 := C) r c)

def rowExpSum (R C : Nat) (x : (Sh2 R C).Idx → EReal) (r : Fin R) : EReal :=
  ∑ c : Fin C, Ideal.exp (x (ix2 (n0 := R) (n1 := C) r c) - rowMax R C x r)

/-- The softmax along rows: `exp (x[i,j] - maxᵢ) / ∑_c exp (x[i,c] - maxᵢ)`. -/
def rowSoftmax (R C : Nat) (x : (Sh2 R C).Idx → EReal) : (Sh2 R C).Idx → EReal :=
  fun i => Ideal.div (Ideal.exp (x i - rowMax R C x (i 0))) (rowExpSum R C x (i 0))

/-- The plain product `a · b`. -/
def matmulRC (M K N : Nat) (a : (Sh2 M K).Idx → EReal) (b : (Sh2 K N).Idx → EReal) : (Sh2 M N).Idx → EReal :=
  fun i => ∑ k : Fin K, a (ix2 (n0 := M) (n1 := K) (i 0) k) * b (ix2 (n0 := K) (n1 := N) k (i 1))

end Cert.Spec
-- ==== Proof.LibBlockedSum.lean ====
import Mathlib.Algebra.BigOperators.Fin
import Mathlib.Algebra.BigOperators.Group.Finset.Basic
import Mathlib.Data.EReal.Operations

open scoped BigOperators
open Finset

namespace Cert.LibBlockedSum

variable {α : Type*} [AddCommMonoid α]

/-- `g` extended by zero from `n` on. -/
def ext0 {n : ℕ} (g : Fin n → α) (i : ℕ) : α := if h : i < n then g ⟨i, h⟩ else 0

theorem ext0_of_lt {n : ℕ} (g : Fin n → α) {i : ℕ} (h : i < n) : ext0 g i = g ⟨i, h⟩ := dif_pos h

theorem ext0_of_le {n : ℕ} (g : Fin n → α) {i : ℕ} (h : n ≤ i) : ext0 g i = 0 := dif_neg (Nat.not_lt.mpr h)

theorem ext0_val {n : ℕ} (g : Fin n → α) (p : Fin n) : ext0 g p.val = g p := ext0_of_lt g p.isLt

theorem sum_range_succ_block (G : ℕ → α) (T k : ℕ) :
    ∑ i ∈ range ((k + 1) * T), G i = ∑ i ∈ range (k * T), G i + ∑ q ∈ range T, G (k * T + q) := by
  rw [Nat.succ_mul, sum_range_add]

/-- Over a range that reaches `n` the extension by zero sums to the sum of `g`: the tail is zero. -/
theorem sum_range_ext0 {n N : ℕ} (g : Fin n → α) (hN : n ≤ N) :
    ∑ i ∈ range N, ext0 g i = ∑ p : Fin n, g p := by
  rw [← Finset.sum_subset (range_subset_range.2 hN) fun i _ hi => ext0_of_le g (not_lt.mp (mem_range.not.mp hi)),
    Finset.sum_range]
  exact Finset.sum_congr rfl fun p _ => ext0_val g p

end Cert.LibBlockedSum
-- ==== Proof.LibBlockedTerms.lean ====
import proofs.«167389_j35253091565659_2_alg».proof.Proof.LibBlockedSum

open scoped BigOperators
open Finset

namespace Cert.LibBlockedSum

/-- One block more of a blocked sum of products: past `n` the first factor is zero, and `0 * d = 0` in the extended reals. -/
theorem sum_blocks_masked_mul_succ {n T : ℕ} (a w : Fin n → EReal) (k : ℕ) (acc : EReal)
    (hacc : acc = ∑ i ∈ range (k * T), ext0 (fun p => a p * w p) i) (x d : Fin T → EReal)
    (hx : ∀ (q : Fin T) (h : k * T + q.val < n), x q = a ⟨k * T + q.val, h⟩)
    (hd : ∀ (q : Fin T) (h : k * T + q.val < n), d q = w ⟨k * T + q.val, h⟩) :
    acc + ∑ q : Fin T, (if k * T + q.val < n then x q else 0) * d q
      = ∑ i ∈ range ((k + 1) * T), ext0 (fun p => a p * w p) i := by
  rw [hacc, sum_range_succ_block, Finset.sum_range fun q => ext0 (fun p => a p * w p) (k * T + q)]
  congr 1
  refine Finset.sum_congr rfl fun q _ => ?_
  by_cases h : k * T + q.val < n
  · rw [if_pos h, hx q h, hd q h, ext0_of_lt _ h]
  · rw [if_neg h, zero_mul, ext0_of_le _ (Nat.le_of_not_lt h)]

end Cert.LibBlockedSum
-- ==== Proof.KIR0Value.lean ====
import proofs.«167389_j35253091565659_2_alg».proof.Proof.KIR0Data
import proofs.«167389_j35253091565659_2_alg».proof.Proof.Spec
import proofs.«167389_j35253091565659_2_alg».proof.Proof.LibBlockedTerms
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe
open Idealize.ShloMosaic.Pipeline (Dat Window)
open Idealize.ShloMosaic.ValueIdx
open scoped BigOperators

namespace R0V

/-- The block product is against the transpose: at (p, q) it is ∑ₖ a[p,k] · b[q,k]. -/
theorem mm_apply (a : FVec Ideal S512x1024 .bf16) (b : FVec Ideal S1024x1024 .bf16) (p : Fin 512) (q : Fin 1024) :
    FloatOps.matmul dot_S512x1024_S1024x1024_S512x1024_1_1_0_0_n_n none a b (constant S512x1024 .f32 0x00000000#32) (ix2 p q)
      = ∑ k : Fin 1024, a (ix2 p k) * b (ix2 q k) := by
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  rw [show dot_S512x1024_S1024x1024_S512x1024_1_1_0_0_n_n.lhsIdx (ix2 p q) ((contrEquiv1 dot_S512x1024_S1024x1024_S512x1024_1_1_0_0_n_n 1024 rfl rfl).symm k) = ix2 p k from
      Shape.idx_ext₂ (by simp [DotDims.lhsIdx, dot_S512x1024_S1024x1024_S512x1024_1_1_0_0_n_n]; rfl) ((dot_S512x1024_S1024x1024_S512x1024_1_1_0_0_n_n.lhsIdx_val_of_single rfl _ _).trans hk),
    show dot_S512x1024_S1024x1024_S512x1024_1_1_0_0_n_n.rhsIdx (ix2 p q) ((contrEquiv1 dot_S512x1024_S1024x1024_S512x1024_1_1_0_0_n_n 1024 rfl rfl).symm k) = ix2 q k from
      Shape.idx_ext₂ (by simp [DotDims.rhsIdx, dot_S512x1024_S1024x1024_S512x1024_1_1_0_0_n_n]; rfl) ((dot_S512x1024_S1024x1024_S512x1024_1_1_0_0_n_n.rhsIdx_val_of_single rfl _ _).trans hk)]

/-- Small non-negative words compare signed as their values do, so the mask selects where `k * 1024 + col < 30000`. -/
theorem mask_select {α : Type} (k col : ℕ) (hk : k < 30) (hc : col < 1024) (x y : α) :
    Scalar.select (IntOp.cmpi .slt (IntOp.addi (Scalar.muli (BitVec.ofNat 32 k) 1024#32) (BitVec.ofNat 32 col)) 30000#32) x y
      = if k * 1024 + col < 30000 then x else y := by
  have e : (IntOp.addi (Scalar.muli (BitVec.ofNat 32 k) 1024#32) (BitVec.ofNat 32 col)).toNat = k * 1024 + col := by
    unfold IntOp.addi Scalar.muli IntOp.muli
    simp only [BitVec.toNat_add, BitVec.toNat_mul, BitVec.toNat_ofNat]
    omega
  have hi := StableHlo.Predicate.slt_iff_toNat (b := 30000#32) (by rw [e]; omega) (by decide)
  rw [e] at hi
  by_cases h : k * 1024 + col < 30000
  · rw [if_pos h, hi.mpr h, select_one]
  · rw [if_neg h, eq_zero_of_ne_one fun h1 => h (hi.mp h1), select_zero]

/-- One accumulation at (r, q): the entry plus ∑ over the tile's columns of x (zero past the array's end) times row q of w. -/
theorem pay2_apply (i : grid0.Coords) (x : Vec Ideal S512x1024 .f32) (w : Vec Ideal S1024x1024 .f32)
    (acc : Vec Ideal S512x1024 .f32) (r : Fin 512) (q : Fin 1024) :
    k0_pay2 i x w acc (ix2 r q)
      = acc (ix2 r q) + ∑ col : Fin 1024, (if (i 2).val * 1024 + col.val < 30000 then x (ix2 r col) else 0) * w (ix2 q col) := by
  unfold k0_pay2
  dsimp only
  refine (congrFun (shapeCast_self _ _) (ix2 r q)).trans (congrArg (acc (ix2 r q) + ·) ?_)
  refine (mm_apply _ _ r q).trans (Finset.sum_congr rfl fun col _ => ?_)
  show Scalar.select (IntOp.cmpi .slt (IntOp.addi (Scalar.muli (BitVec.ofNat 32 (i 2).val) 1024#32)
      (iota .tc S512x1024 32 [1] iota_S512x1024_d1_w32 (ix2 r col))) 30000#32) (x (ix2 r col)) (Ideal.ofBits .f32 0x00000000#32)
      * w (ix2 q col) = _
  rw [iota_single_apply, Ideal.ofBits_zero_f32]
  exact congrArg (· * w (ix2 q col)) (mask_select (i 2).val col.val (i 2).isLt col.isLt _ _)

theorem pay1_apply (j : S512x1024.Idx) : k0_pay1 (F := Ideal) j = 0 := by
  unfold k0_pay1
  exact (congrFun (shapeCast_self _ _) j).trans Ideal.ofBits_zero_f32

/-- The stored block at (r, q): softplus of the accumulator's entry plus the bias of column q. -/
theorem pay3_apply (a : Vec Ideal S512x1024 .f32) (b : Vec Ideal S1024 .f32) (r : Fin 512) (q : Fin 1024) :
    k0_pay3 a b (ix2 r q) = Cert.Spec.softplus (a (ix2 r q) + b (ix1 q)) := by
  unfold k0_pay3
  have hb : broadcastTo S512x1024 (shapeCast S1x1024 b shapeCasts_S1024_S1x1024) broadcasts_S1x1024_S512x1024 (ix2 r q)
      = b (ix1 q) := by
    rw [broadcastTo_1b_ab_apply, shapeCast_a_1a_apply]
  exact (Cert.Spec.softplus_kernel_ops
      (a (ix2 r q) + broadcastTo S512x1024 (shapeCast S1x1024 b shapeCasts_S1024_S1x1024) broadcasts_S1x1024_S512x1024 (ix2 r q))
      (Ideal.ofBits .f32 0x00000000#32) Ideal.ofBits_zero_f32).trans (by rw [hb])

abbrev xarr (V : VT Ideal) (c : Dev nD) : (Cert.Spec.Sh2 2048 30000).Idx → EReal := V c main_arg0
abbrev warr (V : VT Ideal) (c : Dev nD) : (Cert.Spec.Sh2 1024 30000).Idx → EReal := V c main_arg3
abbrev barr (V : VT Ideal) (c : Dev nD) : (Cert.Spec.Sh1 1024).Idx → EReal := V c main_arg4
abbrev xrow (V : VT Ideal) (c : Dev nD) (row : Fin 2048) : Fin 30000 → EReal := fun pp => xarr V c (ix2 row pp)
abbrev wrow (V : VT Ideal) (c : Dev nD) (p : Fin 1024) : Fin 30000 → EReal := fun pp => warr V c (ix2 p pp)

theorem lt120 (t : Fin cfg0.N) : t.val < 120 := N_0 ▸ t.isLt

/-- Point `t` is row tile `t / 30`, K-tile `t % 30`. -/
theorem idx0_0 : ∀ t : Fin cfg0.N, win0_0.index t 0 = t.val / 30 ∧ win0_0.index t 1 = t.val % 30 :=
  (by decide +kernel : ∀ t : Fin grid0.N, _)
theorem idx0_1 : ∀ t : Fin cfg0.N, win0_1.index t 0 = 0 ∧ win0_1.index t 1 = t.val % 30 :=
  (by decide +kernel : ∀ t : Fin grid0.N, _)
theorem idx0_2 : ∀ t : Fin cfg0.N, win0_2.index t 0 = 0 :=
  (by decide +kernel : ∀ t : Fin grid0.N, _)
theorem idx0_3 : ∀ t : Fin cfg0.N, win0_3.index t 0 = t.val / 30 ∧ win0_3.index t 1 = 0 :=
  (by decide +kernel : ∀ t : Fin grid0.N, _)
theorem coord0_2 : ∀ t : Fin cfg0.N, (grid0.coords t 2).val = t.val % 30 :=
  (by decide +kernel : ∀ t : Fin grid0.N, _)

/-- Coordinate `j` is below the cut extent of a block of `k` at block index `ix` exactly when `ix * k + j` is inside `d`. -/
theorem clip_extent_lt (ix k d j : ℕ) (hj : j < k) : j < (Pipeline.Clip.of ix k d).extent k ↔ ix * k + j < d := by
  unfold Pipeline.Clip.of
  rw [Nat.succ_mul]
  generalize ix * k = m
  by_cases h : m + k ≤ d
  · rw [if_pos h]; show j < k ↔ _; omega
  · rw [if_neg h]; show j < d - m ↔ _; omega

theorem fill_apply_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; exact dif_pos h

/-- Inside the array the x block at point `t` is row `512 (t / 30) + r`, column `1024 (t % 30) + col` of x. -/
theorem xblkZ_in (V : VT Ideal) (c : Dev nD) (t : Fin cfg0.N) (r : Fin 512) (col : Fin 1024)
    (h : t.val % 30 * 1024 + col.val < 30000) (hr : t.val / 30 * 512 + r.val < 2048) :
    xblkZ V c t (ix2 r col) = xarr V c (ix2 ⟨t.val / 30 * 512 + r.val, hr⟩ ⟨t.val % 30 * 1024 + col.val, h⟩) := by
  have hN := lt120 t
  have hm : win0_0.moved (grid0.coords t) (ix2 r col) = true := (win0_0.moved_iff _ _).mpr fun a => by
    match a with
    | ⟨0, _⟩ =>
      show r.val < (Pipeline.Clip.of (win0_0.index t 0) 512 2048).extent 512
      rw [clip_extent_lt _ _ _ _ r.isLt, (idx0_0 t).1]; omega
    | ⟨1, _⟩ =>
      show col.val < (Pipeline.Clip.of (win0_0.index t 1) 1024 30000).extent 1024
      rw [clip_extent_lt _ _ _ _ col.isLt, (idx0_0 t).2]; exact h
  unfold xblkZ
  refine (fill_apply_of_moved win0_0 _ _ (iblk0 V c 0 t) _ hm).trans ?_
  show V c main_arg0 (((cfg0.win 0).blk t).view.emb _) = V c main_arg0 _
  refine congrArg _ (Shape.idx_ext₂ ?_ ?_)
  · show win0_0.index t 0 * 512 + 1 * r.val = t.val / 30 * 512 + r.val; rw [(idx0_0 t).1]; omega
  · show win0_0.index t 1 * 1024 + 1 * col.val = t.val % 30 * 1024 + col.val; rw [(idx0_0 t).2]; omega

theorem wblkZ_in (V : VT Ideal) (c : Dev nD) (t : Fin cfg0.N) (p : Fin 1024) (col : Fin 1024)
    (h : t.val % 30 * 1024 + col.val < 30000) :
    wblkZ V c t (ix2 p col) = warr V c (ix2 p ⟨t.val % 30 * 1024 + col.val, h⟩) := by
  have hm : win0_1.moved (grid0.coords t) (ix2 p col) = true := (win0_1.moved_iff _ _).mpr fun a => by
    match a with
    | ⟨0, _⟩ =>
      show p.val < (Pipeline.Clip.of (win0_1.index t 0) 1024 1024).extent 1024
      refine (clip_extent_lt _ _ _ _ p.isLt).mpr ?_
      rw [(idx0_1 t).1, Nat.zero_mul, Nat.zero_add]; exact p.isLt
    | ⟨1, _⟩ =>
      show col.val < (Pipeline.Clip.of (win0_1.index t 1) 1024 30000).extent 1024
      rw [clip_extent_lt _ _ _ _ col.isLt, (idx0_1 t).2]; exact h
  unfold wblkZ
  refine (fill_apply_of_moved win0_1 _ _ (iblk0 V c 1 t) _ hm).trans ?_
  show V c main_arg3 (((cfg0.win 1).blk t).view.emb _) = V c main_arg3 _
  refine congrArg _ (Shape.idx_ext₂ ?_ ?_)
  · show win0_1.index t 0 * 1024 + 1 * p.val = p.val; rw [(idx0_1 t).1]; omega
  · show win0_1.index t 1 * 1024 + 1 * col.val = t.val % 30 * 1024 + col.val; rw [(idx0_1 t).2]; omega

theorem bblk0_apply (V : VT Ideal) (c : Dev nD) (t : Fin cfg0.N) (p : Fin 1024) :
    bblk0 V c t (ix1 p) = barr V c (ix1 p) := by
  unfold bblk0
  show V c main_arg4 (((cfg0.win 2).blk t).view.emb _) = V c main_arg4 _
  refine congrArg _ (funext fun a => Fin.ext ?_)
  match a with
  | ⟨0, _⟩ => show win0_2.index t 0 * 1024 + 1 * p.val = p.val; rw [idx0_2 t]; omega

/-- At point `t` = (row tile `q`, K-tile `k`) an entry holding the products below column `1024 k` gains those of tile `k`. -/
theorem point_step (V : VT Ideal) (c : Dev nD) (t : Fin cfg0.N) (q k : ℕ) (hq : t.val / 30 = q) (hk : t.val % 30 = k)
    (r : Fin 512) (p : Fin 1024) (hrow : q * 512 + r.val < 2048) (acc : Vec Ideal S512x1024 .f32)
    (hacc : acc (ix2 r p) = ∑ i ∈ Finset.range (k * 1024),
      Cert.LibBlockedSum.ext0 (fun pp => xrow V c ⟨q * 512 + r.val, hrow⟩ pp * wrow V c p pp) i) :
    accStep0 V c t.val t.isLt acc (ix2 r p) = ∑ i ∈ Finset.range ((k + 1) * 1024),
      Cert.LibBlockedSum.ext0 (fun pp => xrow V c ⟨q * 512 + r.val, hrow⟩ pp * wrow V c p pp) i := by
  subst hq hk
  unfold accStep0
  rw [pay2_apply, coord0_2 ⟨t.val, t.isLt⟩]
  exact Cert.LibBlockedSum.sum_blocks_masked_mul_succ (xrow V c ⟨t.val / 30 * 512 + r.val, hrow⟩) (wrow V c p) (t.val % 30) _ hacc
    (fun col => xblkZ V c ⟨t.val, t.isLt⟩ (ix2 r col)) (fun col => wblkZ V c ⟨t.val, t.isLt⟩ (ix2 p col))
    (fun col hc => xblkZ_in V c ⟨t.val, t.isLt⟩ r col hc hrow) (fun col hc => wblkZ_in V c ⟨t.val, t.isLt⟩ p col hc)

/-- By induction on the K-tile from the zero block: after K-tile `j` the entry holds the products below column `1024 (j + 1)`. -/
theorem acc_inv (V : VT Ideal) (c : Dev nD) (q : ℕ) (r : Fin 512) (p : Fin 1024) (hrow : q * 512 + r.val < 2048) :
    ∀ (j : ℕ) (hj : j < 30) (h : 30 * q + j < cfg0.N),
      accAt0 V c (30 * q + j) h (ix2 r p) = ∑ i ∈ Finset.range ((j + 1) * 1024),
        Cert.LibBlockedSum.ext0 (fun pp => xrow V c ⟨q * 512 + r.val, hrow⟩ pp * wrow V c p pp) i
  | 0, hj, h => by
    rw [accAt0_reset V c (30 * q + 0) h (by omega)]
    exact point_step V c ⟨30 * q + 0, h⟩ q 0 (by show (30 * q + 0) / 30 = q; omega) (by show (30 * q + 0) % 30 = 0; omega)
      r p hrow (k0_pay1 (F := Ideal)) (by rw [pay1_apply]; simp)
  | j + 1, hj, h => by
    show accAt0 V c (30 * q + j + 1) h (ix2 r p) = _
    rw [accAt0_step V c (30 * q + j) h (by omega)]
    exact point_step V c ⟨30 * q + j + 1, h⟩ q (j + 1) (by show (30 * q + j + 1) / 30 = q; omega)
      (by show (30 * q + j + 1) % 30 = j + 1; omega) r p hrow _
      (acc_inv V c q r p hrow j (by omega) (Nat.lt_of_succ_lt h))

/-- Thirty tiles of 1024 reach past the 30000 columns, so the last K-tile stores softplus of the whole product plus bias. -/
theorem outBlk0_apply (V : VT Ideal) (c : Dev nD) (t : Fin cfg0.N) (ht : t.val % 30 = 29) (r : Fin 512) (p : Fin 1024)
    (hrow : t.val / 30 * 512 + r.val < 2048) :
    outBlk0 V c t (ix2 r p) = Cert.Spec.softplus
      ((∑ pp : Fin 30000, xarr V c (ix2 ⟨t.val / 30 * 512 + r.val, hrow⟩ pp) * warr V c (ix2 p pp)) + barr V c (ix1 p)) := by
  have same : ∀ (u : ℕ) (hu : u < cfg0.N), u = t.val → accAt0 V c u hu = accAt0 V c t.val t.isLt :=
    fun u hu e => by subst e; rfl
  have hd : 30 * (t.val / 30) + 29 = t.val := by omega
  have hu : 30 * (t.val / 30) + 29 < cfg0.N := by rw [hd]; exact t.isLt
  unfold outBlk0
  rw [pay3_apply, bblk0_apply, ← same _ hu hd, acc_inv V c (t.val / 30) r p hrow 29 (by omega) hu]
  exact congrArg (fun s => Cert.Spec.softplus (s + barr V c (ix1 p))) (Cert.LibBlockedSum.sum_range_ext0 _ (by norm_num))

abbrev G0 (V : VT Ideal) (c : Dev nD) : (Cert.Spec.Sh2 2048 1024).Idx → EReal :=
  Cert.Spec.gemmBiasSoftplus 2048 30000 1024 (xarr V c) (warr V c) (barr V c)

theorem flushed_eq0 (V : VT Ideal) (c : Dev nD) (t : Fin cfg0.N) (hf : (cfg0.win 3).flush t = true) :
    (dat0 V c).flushed 3 t = ((cfg0.win 3).blk t).view.read (Elt Ideal) (G0 V c) := by
  have ht : t.val % 30 = 29 := (flush0_3 t).mp hf
  have hN := lt120 t
  show win0_3.cut (grid0.coords t) ((dat0 V c).after 3 t) = _
  rw [after0_3]
  funext y
  have h0 : (y 0).val < 512 := (y 0).isLt
  have h1 : (y 1).val < 1024 := (y 1).isLt
  have hrow : t.val / 30 * 512 + (y 0).val < 2048 := by omega
  have hy : win0_3.xinj (grid0.coords t) y = ix2 (⟨(y 0).val, h0⟩ : Fin 512) (⟨(y 1).val, h1⟩ : Fin 1024) :=
    Shape.idx_ext₂ rfl rfl
  have he : ((cfg0.win 3).blk t).view.emb y
      = ix2 (⟨t.val / 30 * 512 + (y 0).val, hrow⟩ : Fin 2048) (⟨(y 1).val, h1⟩ : Fin 1024) :=
    Shape.idx_ext₂
      (by show win0_3.index t 0 * 512 + 1 * (y 0).val = t.val / 30 * 512 + (y 0).val; rw [(idx0_3 t).1]; omega)
      (by show win0_3.index t 1 * 1024 + 1 * (y 1).val = (y 1).val; rw [(idx0_3 t).2]; omega)
  show outBlk0 V c t (win0_3.xinj (grid0.coords t) y) = G0 V c (((cfg0.win 3).blk t).view.emb y)
  rw [hy, he, outBlk0_apply V c t ht ⟨(y 0).val, h0⟩ ⟨(y 1).val, h1⟩ hrow]
  rfl

/-- Row `i` of the result lies in the block of row tile `i / 512`. -/
theorem cover0 (V : VT Ideal) (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : ℕ) < 2048 := (i 0).isLt
  have h1 : (i 1 : ℕ) < 1024 := (i 1).isLt
  have hlt : 30 * ((i 0 : ℕ) / 512) + 29 < cfg0.N := by show _ < grid0.N; rw [N_0]; omega
  obtain ⟨t, htv⟩ : ∃ t : Fin cfg0.N, t.val = 30 * ((i 0 : ℕ) / 512) + 29 := ⟨⟨_, hlt⟩, rfl⟩
  refine ⟨t, (flush0_3 t).mpr (by omega), ?_⟩
  show i ∈ ((View.whole main_v0).slice (win0_3.rect t)).set
  rw [View.set_slice_whole, Rect.mem_set_unit]
  intro a
  match a with
  | ⟨0, _⟩ =>
    show win0_3.index t 0 * 512 ≤ (i 0 : ℕ) ∧ (i 0 : ℕ) < win0_3.index t 0 * 512 + 512
    rw [(idx0_3 t).1]; omega
  | ⟨1, _⟩ =>
    show win0_3.index t 1 * 1024 ≤ (i 1 : ℕ) ∧ (i 1 : ℕ) < win0_3.index t 1 * 1024 + 1024
    rw [(idx0_3 t).2]; omega

end R0V

/-- After region 0 the result array holds `softplus (x · wᵀ + b)` of the arrays it found. -/
theorem final0_3 (V : VT Ideal) (c : Dev nD) :
    (dat0 V c).arrAt 3 cfg0.N
      = Cert.Spec.gemmBiasSoftplus 2048 30000 1024 (V c main_arg0) (V c main_arg3) (V c main_arg4) :=
  (dat0 V c).arrAt_eq_of_cover 3 (R0V.G0 V c) (R0V.flushed_eq0 V c) (R0V.cover0 V c)

end Cert.KernelIdeal.Hand
end
-- ==== Proof.KIR1Value.lean ====
import proofs.«167389_j35253091565659_2_alg».proof.Proof.KIR1Data
import proofs.«167389_j35253091565659_2_alg».proof.Proof.KIR0Value
set_option maxRecDepth 16384
noncomputable section
namespace Cert.KernelIdeal.Hand
open Cert.KernelIdeal Cert.KernelIdeal.Gen
open Idealize.ShloMosaic Idealize.ShloMosaic.TcCoe
open Idealize.ShloMosaic.Pipeline (Dat Window)
open Idealize.ShloMosaic.ValueIdx
open scoped BigOperators

theorem hz1_2 : (![0, 0] : Fin 2 → Nat) = fun _ => 0 := funext fun a => by fin_cases a <;> rfl
theorem hz1_1 : (![0] : Fin 1 → Nat) = fun _ => 0 := funext fun a => by fin_cases a; rfl

/-- One grid point's result at (p, q) from the three input blocks: region 0's step without the mask, from zero. -/
theorem out1_3_apply (x0 : Vec Ideal S512x1024 .f32) (x1 : Vec Ideal S1024x1024 .f32) (x2 : Vec Ideal S1024 .f32)
    (p : Fin 512) (q : Fin 1024) :
    out1_3 x0 x1 x2 (ix2 p q)
      = Cert.Spec.softplus ((∑ k : Fin 1024, x0 (ix2 p k) * x1 (ix2 q k)) + x2 (ix1 q)) := by
  unfold out1_3 acc1
  rw [View.canon_unit_zero hz1_2]
  simp only [View.ld_unit_zero (S := S512x1024) hz1_2, View.ld_unit_zero (S := S1024x1024) hz1_2,
    View.ld_unit_zero (S := S1024) hz1_1]
  refine (R0V.pay3_apply _ x2 p q).trans ?_
  unfold k1_pay2
  simp only [shapeCast_self]
  exact congrArg (fun s => Cert.Spec.softplus (s + x2 (ix1 q)))
    ((congrArg (k1_pay1 (F := Ideal) (ix2 p q) + ·) (R0V.mm_apply _ _ p q)).trans
      ((congrArg (· + _) (R0V.pay1_apply (ix2 p q))).trans (zero_add _)))

abbrev xarr1 (V : VT Ideal) (c : Dev nD) : Vec Ideal S2048x1024 .f32 := V c main_v0
abbrev warr1 (V : VT Ideal) (c : Dev nD) : Vec Ideal S1024x1024 .f32 := V c main_arg5
abbrev barr1 (V : VT Ideal) (c : Dev nD) : Vec Ideal S1024 .f32 := V c main_arg6

/-- The second dense layer of the entry arrays. -/
abbrev G1 (V : VT Ideal) (c : Dev nD) : Vec Ideal S2048x1024 .f32 :=
  Cert.Spec.gemmBiasSoftplus 2048 1024 1024 (xarr1 V c) (warr1 V c) (barr1 V c)

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem xblk1_apply (V : VT Ideal) (c : Dev nD) (t : Fin cfg1.N) (y : S512x1024.Idx) (i : S2048x1024.Idx)
    (h0 : (i 0).val = t.val * 512 + (y 0).val) (h1 : (i 1).val = (y 1).val) : iblk1 V c 0 t y = V c main_v0 i := by
  obtain ⟨e0, e1, -⟩ := idx_facts1 t
  show V c main_v0 (((cfg1.win 0).blk t).view.emb y) = V c main_v0 i
  refine congrArg _ (Shape.idx_ext₂ ?_ ?_)
  · show win1_0.index t (0 : Fin 2) * 512 + 1 * (y 0).val = (i 0).val; omega
  · show win1_0.index t (1 : Fin 2) * 1024 + 1 * (y 1).val = (i 1).val; omega

theorem wblk1_apply (V : VT Ideal) (c : Dev nD) (t : Fin cfg1.N) (y : S1024x1024.Idx) : iblk1 V c 1 t y = V c main_arg5 y := by
  obtain ⟨-, -, e2, e3, -⟩ := idx_facts1 t
  show V c main_arg5 (((cfg1.win 1).blk t).view.emb y) = V c main_arg5 y
  refine congrArg _ (Shape.idx_ext₂ ?_ ?_)
  · show win1_1.index t (0 : Fin 2) * 1024 + 1 * (y 0).val = (y 0).val; omega
  · show win1_1.index t (1 : Fin 2) * 1024 + 1 * (y 1).val = (y 1).val; omega

theorem bblk1_apply (V : VT Ideal) (c : Dev nD) (t : Fin cfg1.N) (y : S1024.Idx) : iblk1 V c 2 t y = V c main_arg6 y := by
  obtain ⟨-, -, -, -, e4, -⟩ := idx_facts1 t
  show V c main_arg6 (((cfg1.win 2).blk t).view.emb y) = V c main_arg6 y
  refine congrArg _ (funext fun a => Fin.ext ?_)
  match a with
  | ⟨0, _⟩ => show win1_2.index t (0 : Fin 1) * 1024 + 1 * (y 0).val = (y 0).val; omega

/-- Point t's result block is block t of the layer's value. -/
theorem flushed1_3_eq (V : VT Ideal) (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  obtain ⟨-, -, -, -, -, e5, e6⟩ := idx_facts1 t
  funext j
  obtain ⟨p, q, rfl⟩ : ∃ (p : Fin 512) (q : Fin 1024), j = ix2 p q := ⟨j 0, j 1, eq_ix2 j⟩
  refine (out1_3_apply _ _ _ p q).trans ?_
  have r0 : ((((cfg1.win 3).blk t).view.emb (ix2 p q)) 0).val = t.val * 512 + p.val := by
    show win1_3.index t (0 : Fin 2) * 512 + 1 * p.val = _; omega
  have hq : (((cfg1.win 3).blk t).view.emb (ix2 p q)) 1 = q :=
    Fin.ext (by show win1_3.index t (1 : Fin 2) * 1024 + 1 * q.val = _; omega)
  show _ = Cert.Spec.softplus ((∑ k : Fin 1024, xarr1 V c (ix2 ((((cfg1.win 3).blk t).view.emb (ix2 p q)) 0) k)
      * warr1 V c (ix2 ((((cfg1.win 3).blk t).view.emb (ix2 p q)) 1) k))
      + barr1 V c (ix1 ((((cfg1.win 3).blk t).view.emb (ix2 p q)) 1)))
  rw [hq, bblk1_apply]
  refine congrArg (fun s => Cert.Spec.softplus (s + barr1 V c (ix1 q))) (Finset.sum_congr rfl fun k _ => ?_)
  rw [wblk1_apply, xblk1_apply V c t (ix2 p k) (ix2 ((((cfg1.win 3).blk t).view.emb (ix2 p q)) 0) k) r0 rfl]

/-- Row r of the result lies in the block of point r / 512. -/
theorem cover1_3_arr (i : S2048x1024.Idx) :
    ∃ t : Fin cfg1.N, (cfg1.win 3).flush t = true ∧ i ∈ ((cfg1.win 3).blk t).view.set := by
  have hi0 : (i 0).val < 2048 := (i 0).isLt
  have hi1 : (i 1).val < 1024 := (i 1).isLt
  have hlt : (i 0).val / 512 < cfg1.N := by rw [show cfg1.N = 4 from N_1]; omega
  obtain ⟨-, -, -, -, -, e5, e6⟩ := idx_facts1 ⟨(i 0).val / 512, hlt⟩
  have e5' : win1_3.index ⟨(i 0).val / 512, hlt⟩ (0 : Fin 2) = (i 0).val / 512 := e5
  refine ⟨⟨(i 0).val / 512, hlt⟩, flush1_3 _, ?_⟩
  show i ∈ ((View.whole main_v1).slice (win1_3.rect ⟨(i 0).val / 512, hlt⟩)).set
  rw [View.set_slice_whole, Rect.mem_set_unit]
  intro a
  match a with
  | ⟨0, _⟩ =>
    show win1_3.index ⟨(i 0).val / 512, hlt⟩ (0 : Fin 2) * 512 ≤ (i 0).val
      ∧ (i 0).val < win1_3.index ⟨(i 0).val / 512, hlt⟩ (0 : Fin 2) * 512 + 512
    omega
  | ⟨1, _⟩ =>
    show win1_3.index ⟨(i 0).val / 512, hlt⟩ (1 : Fin 2) * 1024 ≤ (i 1).val
      ∧ (i 1).val < win1_3.index ⟨(i 0).val / 512, hlt⟩ (1 : Fin 2) * 1024 + 1024
    omega

/-- After region 1 the result array holds the second dense layer of the arrays it found. -/
theorem final1_3_spec (V : VT Ideal) (c : Dev nD) :
    (dat1 V c).arrAt 3 cfg1.N = Cert.Spec.gemmBiasSoftplus 2048 1024 1024 (V c main_v0) (V c main_arg5) (V c main_arg6) :=
  (dat1 V c).arrAt_eq_of_cover 3 (G1 V c) (fun t _ => flushed1_3_eq V c t) cover1_3_arr

end Cert.KernelIdeal.Hand
end
-- ==== Proof.KIR3Value.lean ====
import proofs.«167389_j35253091565659_2_alg».proof.Proof.KIR3Pay
import proofs.«167389_j35253091565659_2_alg».proof.Proof.Spec
set_option maxRecDepth 16384
noncomputable section
namespace Cert.KernelIdeal.Hand
open Cert.KernelIdeal Cert.KernelIdeal.Gen
open Idealize.ShloMosaic Idealize.ShloMosaic.TcCoe
open Idealize.ShloMosaic.Pipeline (Dat Window)
open Idealize.ShloMosaic.ValueIdx

variable (V : VT Ideal)

/-- The reconstruction from the region's entry arrays: entry (p, j) is ∑ₜ zx_phi (p, t) · exp (logits (t, j) - m t) / l t. -/
def recon3 (mu : Vec Ideal S512x300 .f32) (emb : Vec Ideal S30000x300 .f32) (m : Vec Ideal S512x1 .f32) (l : Vec Ideal S512x1 .f32)
    (zx : Vec Ideal S2048x512 .bf16) : Vec Ideal S2048x30000 .f32 :=
  fun i => ∑ t : Fin 512, zx (ix2 (i 0) t)
    * Ideal.div (Ideal.exp (Cert.Spec.logits mu emb (ix2 t (i 1)) - m (ix2 t (0 : Fin 1)))) (l (ix2 t (0 : Fin 1)))

/-- mu, m, l and zx_phi are one block each, the whole array. -/
theorem iblk3_0_apply (c : Dev nD) (t : Fin cfg3.N) (y : S512x300.Idx) : iblk3 V c 0 t y = V c main_arg16 y := by
  obtain ⟨e0, e1, -⟩ := idx_facts3 t
  show V c main_arg16 (((cfg3.win 0).blk t).view.emb y) = V c main_arg16 y
  refine congrArg _ (Shape.idx_ext₂ ?_ ?_)
  · show win3_0.index t (0 : Fin 2) * 512 + 1 * (y 0).val = (y 0).val; omega
  · show win3_0.index t (1 : Fin 2) * 300 + 1 * (y 1).val = (y 1).val; omega
theorem iblk3_2_apply (c : Dev nD) (t : Fin cfg3.N) (y : S512x1.Idx) : iblk3 V c 2 t y = V c main_v81_0 y := by
  obtain ⟨-, -, -, -, e0, e1, -⟩ := idx_facts3 t
  show V c main_v81_0 (((cfg3.win 2).blk t).view.emb y) = V c main_v81_0 y
  refine congrArg _ (Shape.idx_ext₂ ?_ ?_)
  · show win3_2.index t (0 : Fin 2) * 512 + 1 * (y 0).val = (y 0).val; omega
  · show win3_2.index t (1 : Fin 2) * 1 + 1 * (y 1).val = (y 1).val; omega
theorem iblk3_3_apply (c : Dev nD) (t : Fin cfg3.N) (y : S512x1.Idx) : iblk3 V c 3 t y = V c main_v81_1 y := by
  obtain ⟨-, -, -, -, -, -, e0, e1, -⟩ := idx_facts3 t
  show V c main_v81_1 (((cfg3.win 3).blk t).view.emb y) = V c main_v81_1 y
  refine congrArg _ (Shape.idx_ext₂ ?_ ?_)
  · show win3_3.index t (0 : Fin 2) * 512 + 1 * (y 0).val = (y 0).val; omega
  · show win3_3.index t (1 : Fin 2) * 1 + 1 * (y 1).val = (y 1).val; omega
theorem iblk3_4_apply (c : Dev nD) (t : Fin cfg3.N) (y : S2048x512.Idx) : iblk3 V c 4 t y = V c main_v82 y := by
  obtain ⟨-, -, -, -, -, -, -, -, e0, e1, -⟩ := idx_facts3 t
  show V c main_v82 (((cfg3.win 4).blk t).view.emb y) = V c main_v82 y
  refine congrArg _ (Shape.idx_ext₂ ?_ ?_)
  · show win3_4.index t (0 : Fin 2) * 2048 + 1 * (y 0).val = (y 0).val; omega
  · show win3_4.index t (1 : Fin 2) * 512 + 1 * (y 1).val = (y 1).val; omega

/-- The table's block at point `t`, at a row `q` with `640 t + q` inside the array, is the array's row `640 t + q`. -/
theorem eblk3_apply (c : Dev nD) (t : Fin cfg3.N) (q : Fin 640) (k : Fin 300) (hq : t.val * 640 + q.val < 30000) :
    eblk3 V c t (ix2 q k) = V c main_arg17 (ix2 (⟨t.val * 640 + q.val, hq⟩ : Fin 30000) k) := by
  obtain ⟨e0, e1, e2, e3, e4⟩ := xs_facts3 t
  obtain ⟨-, -, i0, i1, -⟩ := idx_facts3 t
  have hm : win3_1.moved (grid3.coords t) (ix2 q k) = true := (win3_1.moved_iff _ _).mpr fun a => by
    match a with
    | ⟨0, _⟩ => show q.val < win3_1.xsize (grid3.coords t) 0; rw [e1]; have := q.isLt; omega
    | ⟨1, _⟩ => show k.val < win3_1.xsize (grid3.coords t) 1; rw [e2]; exact k.isLt
  unfold eblk3 Window.fill
  rw [dif_pos hm]
  show V c main_arg17 (((cfg3.win 1).blk t).view.emb _) = V c main_arg17 _
  refine congrArg _ (Shape.idx_ext₂ ?_ ?_)
  · show win3_1.index t (0 : Fin 2) * 640 + 1 * q.val = t.val * 640 + q.val; omega
  · show win3_1.index t (1 : Fin 2) * 300 + 1 * k.val = k.val; omega

/-- Block `t` of the reconstruction, cut at the array's end: its columns are inside the vocabulary, so the zero branches are never read. -/
theorem flushed3_5_eq (c : Dev nD) (t : Fin cfg3.N) :
    (dat3 V c).flushed 5 t = ((cfg3.win 5).blk t).view.read (Elt Ideal)
      (recon3 (V c main_arg16) (V c main_arg17) (V c main_v81_0) (V c main_v81_1) (V c main_v82)) := by
  obtain ⟨e0, e1, e2, e3, e4⟩ := xs_facts3 t
  obtain ⟨-, -, -, -, -, -, -, -, -, -, i0, i1⟩ := idx_facts3 t
  show (cfg3.win 5).cut (grid3.coords t) ((dat3 V c).after 5 t) = _
  rw [after3_5]
  funext j
  have hj0 : (j 0).val < 2048 := e3 ▸ (j 0).isLt
  have hj1 : (j 1).val < min 640 (30000 - t.val * 640) := e4 ▸ (j 1).isLt
  have hcol : t.val * 640 + (j 1).val < 30000 := by omega
  have hx : win3_5.xinj (grid3.coords t) j = ix2 (⟨(j 0).val, hj0⟩ : Fin 2048) (⟨(j 1).val, by omega⟩ : Fin 640) :=
    Shape.idx_ext₂ rfl rfl
  have hemb : ((cfg3.win 5).blk t).view.emb j = ix2 (⟨(j 0).val, hj0⟩ : Fin 2048) (⟨t.val * 640 + (j 1).val, hcol⟩ : Fin 30000) :=
    Shape.idx_ext₂ (by show win3_5.index t (0 : Fin 2) * 2048 + 1 * (j 0).val = (j 0).val; omega)
      (by show win3_5.index t (1 : Fin 2) * 640 + 1 * (j 1).val = t.val * 640 + (j 1).val; omega)
  show out3_5 _ _ _ _ _ _ (win3_5.xinj (grid3.coords t) j) = recon3 _ _ _ _ _ (((cfg3.win 5).blk t).view.emb j)
  rw [out3_5_eq, hx, k3_pay1_apply, hemb]
  unfold recon3
  refine Finset.sum_congr rfl fun t' _ => ?_
  rw [iblk3_4_apply]
  congr 1
  unfold beta3
  rw [if_pos (by rw [e0]; exact hcol)]
  unfold Cert.Spec.logits
  simp only [iblk3_0_apply, iblk3_2_apply, iblk3_3_apply]
  rw [Finset.sum_congr rfl fun k _ => by rw [eblk3_apply V c t _ k hcol]]

/-- Column `j` is in the block of point `j / 640`: 46 blocks of 640 columns and one of 560. -/
theorem cover3_5_arr (i : S2048x30000.Idx) :
    ∃ t : Fin cfg3.N, (cfg3.win 5).flush t = true ∧ i ∈ ((cfg3.win 5).blk t).view.set := by
  have hi0 : (i 0).val < 2048 := (i 0).isLt
  have hi1 : (i 1).val < 30000 := (i 1).isLt
  have hN : (i 1).val / 640 < cfg3.N := by rw [show cfg3.N = 47 from N_3]; omega
  obtain ⟨e0, e1, e2, e3, e4⟩ := xs_facts3 ⟨(i 1).val / 640, hN⟩
  obtain ⟨-, -, -, -, -, -, -, -, -, -, i0, i1⟩ := idx_facts3 ⟨(i 1).val / 640, hN⟩
  refine ⟨⟨(i 1).val / 640, hN⟩, flush3_5 _, ?_⟩
  show i ∈ ((View.whole main_v83).slice (win3_5.rect ⟨(i 1).val / 640, hN⟩)).set
  rw [View.set_slice_whole, Rect.mem_set_unit]
  intro a
  match a with
  | ⟨0, _⟩ =>
    show win3_5.index ⟨(i 1).val / 640, hN⟩ (0 : Fin 2) * 2048 ≤ (i 0).val
      ∧ (i 0).val < win3_5.index ⟨(i 1).val / 640, hN⟩ (0 : Fin 2) * 2048 + win3_5.xsize (grid3.coords ⟨(i 1).val / 640, hN⟩) 0
    rw [i0, e3]; omega
  | ⟨1, _⟩ =>
    show win3_5.index ⟨(i 1).val / 640, hN⟩ (1 : Fin 2) * 640 ≤ (i 1).val
      ∧ (i 1).val < win3_5.index ⟨(i 1).val / 640, hN⟩ (1 : Fin 2) * 640 + win3_5.xsize (grid3.coords ⟨(i 1).val / 640, hN⟩) 1
    rw [i1, e4]
    show (i 1).val / 640 * 640 ≤ (i 1).val ∧ (i 1).val < (i 1).val / 640 * 640 + min 640 (30000 - (i 1).val / 640 * 640)
    omega

/-- After region 3 the result array is the reconstruction of the region's entry arrays. -/
theorem final3_5 (c : Dev nD) : (dat3 V c).arrAt 5 cfg3.N
    = recon3 (V c main_arg16) (V c main_arg17) (V c main_v81_0) (V c main_v81_1) (V c main_v82) :=
  (dat3 V c).arrAt_eq_of_cover 5 _ (fun t _ => flushed3_5_eq V c t) cover3_5_arr

end Cert.KernelIdeal.Hand

end
-- ==== Proof.LibOnlineSoftmax.lean ====
import Mathlib.Analysis.SpecialFunctions.Exp
import Mathlib.Data.EReal.Inv
import Idealize.ShloMosaic.PureOps.Ideal

open scoped BigOperators
open Finset

namespace Cert.LibOnlineSoftmax

open Idealize.ShloMosaic

variable {ι : Type*}

/-- Moving the shift from `m` to `m'`; neither has to be a maximum. -/
theorem exp_shift_mul (x m m' : ℝ) : Real.exp (m - m') * Real.exp (x - m) = Real.exp (x - m') := by
  rw [← Real.exp_add]; congr 1; ring

theorem coe_finset_sum (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem sup_coe (s : Finset ι) (hs : s.Nonempty) (f : ι → ℝ) :
    s.sup (fun i => (f i : EReal)) = ((s.sup' hs f : ℝ) : EReal) := by
  apply le_antisymm
  · exact Finset.sup_le (fun i hi => EReal.coe_le_coe_iff.mpr (Finset.le_sup' f hi))
  · obtain ⟨i, hi, h⟩ := Finset.exists_mem_eq_sup' hs f
    rw [h]; exact Finset.le_sup (f := fun i => (f i : EReal)) hi

/-- Finitely many reals, at least one, have a real maximum. -/
theorem exists_fold_max_bot_of_finite (s : Finset ι) (hs : s.Nonempty) (f : ι → EReal)
    (hf : ∀ i, ∃ r : ℝ, f i = (r : EReal)) : ∃ c : ℝ, s.fold max ⊥ f = (c : EReal) := by
  choose g hg using hf
  obtain rfl : f = fun i => (g i : EReal) := funext hg
  exact ⟨_, sup_coe s hs g⟩

theorem ideal_exp_sub_coe (a b : ℝ) : Ideal.exp ((a : EReal) - (b : EReal)) = ((Real.exp (a - b) : ℝ) : EReal) := by
  rw [← EReal.coe_sub, Ideal.exp_coe]

theorem ideal_div_coe (a b : ℝ) (hb : b ≠ 0) : Ideal.div (a : EReal) (b : EReal) = ((a / b : ℝ) : EReal) := by
  rw [Ideal.div_coe hb, ← EReal.coe_mul, mul_one_div]

theorem sum_ideal_exp_sub_coe (x : ι → ℝ) (s : Finset ι) (m : ℝ) :
    ∑ q ∈ s, Ideal.exp ((x q : EReal) - (m : EReal)) = ((∑ q ∈ s, Real.exp (x q - m) : ℝ) : EReal) := by
  rw [coe_finset_sum]; exact Finset.sum_congr rfl (fun q _ => ideal_exp_sub_coe (x q) m)

/-- `m` is a real and `l` is the sum of `exp (x - m)` over the entries `S`. -/
abbrev Inv (x : ι → ℝ) (S : Finset ι) (m l : EReal) : Prop :=
  ∃ mr : ℝ, m = (mr : EReal) ∧ l = ((∑ p ∈ S, Real.exp (x p - mr) : ℝ) : EReal)

/-- A tile with entries `t` moves `(m, l)` to `(m', l')`: its maximum `c` is finite and `s` is its sum of `exp (x - m')`. -/
abbrev Step (x : ι → ℝ) (t : Finset ι) (m l m' l' : EReal) : Prop :=
  ∃ c s : EReal, (∃ cr : ℝ, c = (cr : EReal)) ∧ m' = max m c ∧ l' = Ideal.exp (m - max m c) * l + s ∧
    ∀ mr' : ℝ, max m c = (mr' : EReal) → s = ((∑ p ∈ t, Real.exp (x p - mr') : ℝ) : EReal)

/-- A step keeps the invariant: the factor `exp (m - m')` moves every term seen to the new shift. -/
theorem Inv.step [DecidableEq ι] {x : ι → ℝ} {S t : Finset ι} {m l m' l' : EReal} (hd : Disjoint S t)
    (hinv : Inv x S m l) (h : Step x t m l m' l') : Inv x (S ∪ t) m' l' := by
  obtain ⟨mr, rfl, rfl⟩ := hinv
  obtain ⟨c, s, ⟨cr, rfl⟩, rfl, rfl, hs⟩ := h
  have hm : max (mr : EReal) (cr : EReal) = ((max mr cr : ℝ) : EReal) := (EReal.coe_strictMono.monotone.map_max).symm
  refine ⟨max mr cr, hm, ?_⟩
  rw [hs _ hm, hm, ideal_exp_sub_coe, ← EReal.coe_mul, ← EReal.coe_add, Finset.mul_sum, Finset.sum_union hd]
  simp only [exp_shift_mul]

/-- A softmax normalised at any real shift `m` is the softmax normalised at the maximum from `⊥`. -/
theorem softmax_shift_sup (x : ι → ℝ) (s : Finset ι) (hs : s.Nonempty) (m : ℝ) (p : ι) :
    Ideal.div (Ideal.exp ((x p : EReal) - (m : EReal))) ((∑ q ∈ s, Real.exp (x q - m) : ℝ) : EReal)
      = Ideal.div (Ideal.exp ((x p : EReal) - s.sup (fun q => (x q : EReal))))
          (∑ q ∈ s, Ideal.exp ((x q : EReal) - s.sup (fun q => (x q : EReal)))) := by
  have pos : ∀ M : ℝ, (∑ q ∈ s, Real.exp (x q - M)) ≠ 0 := fun M =>
    (Finset.sum_pos (fun q _ => Real.exp_pos _) hs).ne'
  have h : ∀ q, Real.exp (x q - m) = Real.exp (s.sup' hs x - m) * Real.exp (x q - s.sup' hs x) := fun q =>
    (exp_shift_mul (x q) _ m).symm
  rw [sup_coe s hs x, sum_ideal_exp_sub_coe, ideal_exp_sub_coe, ideal_exp_sub_coe, ideal_div_coe _ _ (pos _),
    ideal_div_coe _ _ (pos _), h p, Finset.sum_congr rfl (fun q _ => h q), ← Finset.mul_sum,
    mul_div_mul_left _ _ (Real.exp_pos _).ne']

end Cert.LibOnlineSoftmax
-- ==== Proof.LibSoftmaxTiles.lean ====
import proofs.«167389_j35253091565659_2_alg».proof.Proof.LibBlockedSum
import proofs.«167389_j35253091565659_2_alg».proof.Proof.LibOnlineSoftmax

noncomputable section

open scoped BigOperators
open Finset

namespace Cert.LibSoftmaxTiles

open Idealize.ShloMosaic
open Cert.LibBlockedSum (ext0 ext0_val ext0_of_le)
open Cert.LibOnlineSoftmax

variable {n : ℕ}

/-- The positions below `v * B`. -/
def seen (n B v : ℕ) : Finset (Fin n) := univ.filter (fun p => p.val < v * B)

/-- The positions from `v * B` up to `(v + 1) * B`. -/
def tile (n B v : ℕ) : Finset (Fin n) := univ.filter (fun p => v * B ≤ p.val ∧ p.val < (v + 1) * B)

theorem mem_seen {B v : ℕ} {p : Fin n} : p ∈ seen n B v ↔ p.val < v * B := by
  simp [seen]

theorem mem_tile {B v : ℕ} {p : Fin n} : p ∈ tile n B v ↔ v * B ≤ p.val ∧ p.val < (v + 1) * B := by
  simp [tile]

theorem seen_zero (B : ℕ) : seen n B 0 = ∅ := by
  ext p; simp [mem_seen]

theorem seen_succ (B v : ℕ) : seen n B (v + 1) = seen n B v ∪ tile n B v := by
  ext p; rw [Finset.mem_union, mem_seen, mem_seen, mem_tile, Nat.succ_mul]; omega

theorem disjoint_seen_tile (B v : ℕ) : Disjoint (seen n B v) (tile n B v) :=
  Finset.disjoint_left.mpr fun _ hp hq => absurd (mem_seen.mp hp) (Nat.not_lt.mpr (mem_tile.mp hq).1)

theorem seen_last {B T : ℕ} (hn : n ≤ T * B) : seen n B T = univ := by
  ext p; simp only [mem_seen, Finset.mem_univ, iff_true]; exact lt_of_lt_of_le p.isLt hn

/-- Lanes past the row's end add zero; the others are exactly the tile's entries. -/
theorem sum_lanes_eq_tile {α : Type*} [AddCommMonoid α] (F : Fin n → α) (B v : ℕ) :
    ∑ q : Fin B, (if h : v * B + q.val < n then F ⟨v * B + q.val, h⟩ else 0) = ∑ p ∈ tile n B v, F p := by
  have h1 : ∑ q : Fin B, (if h : v * B + q.val < n then F ⟨v * B + q.val, h⟩ else 0)
      = ∑ q ∈ range B, ext0 F (v * B + q) := by
    rw [Finset.sum_range]; rfl
  have hB : (v + 1) * B - v * B = B := by rw [Nat.succ_mul]; omega
  have h3 : ∑ p ∈ tile n B v, F p = ∑ i ∈ (tile n B v).map Fin.valEmbedding, ext0 F i := by
    rw [Finset.sum_map]; exact Finset.sum_congr rfl (fun p _ => (ext0_val F p).symm)
  have h2 : ∑ q ∈ range B, ext0 F (v * B + q) = ∑ i ∈ Ico (v * B) ((v + 1) * B), ext0 F i := by
    rw [Finset.sum_Ico_eq_sum_range, hB]
  rw [h1, h2, h3]
  symm
  apply Finset.sum_subset
  · intro i hi
    obtain ⟨p, hp, rfl⟩ := Finset.mem_map.mp hi
    exact Finset.mem_Ico.mpr (mem_tile.mp hp)
  · intro i hi hni
    apply ext0_of_le
    by_contra hlt
    exact hni (Finset.mem_map.mpr ⟨⟨i, Nat.lt_of_not_le hlt⟩, mem_tile.mpr (Finset.mem_Ico.mp hi), rfl⟩)

/-- The same with the terms given lane by lane, the sum coming out as a coerced real. -/
theorem tileSum_coe_terms (x : Fin n → ℝ) (B v : ℕ) (mr' : ℝ) (term : Fin B → EReal)
    (hvalid : ∀ (q : Fin B) (h : v * B + q.val < n),
      term q = Ideal.exp ((x ⟨v * B + q.val, h⟩ : EReal) - (mr' : EReal)))
    (hmasked : ∀ q : Fin B, ¬ v * B + q.val < n → term q = 0) :
    ∑ q : Fin B, term q = ((∑ p ∈ tile n B v, Real.exp (x p - mr') : ℝ) : EReal) := by
  rw [← sum_ideal_exp_sub_coe, ← sum_lanes_eq_tile (fun p => Ideal.exp ((x p : EReal) - (mr' : EReal))) B v]
  refine Finset.sum_congr rfl (fun q _ => ?_)
  by_cases h : v * B + q.val < n
  · rw [dif_pos h, hvalid q h]
  · rw [dif_neg h, hmasked q h]

/-- Steps over tiles that cover the row, from a finite `m 0` and `l 0 = 0`, end at a real `mr` and `∑ₚ exp (x p - mr)`. -/
theorem online_run (x : Fin n → ℝ) (B T : ℕ) (hn : n ≤ T * B) (m l : ℕ → EReal)
    (hm0 : ∃ NEG : ℝ, m 0 = (NEG : EReal)) (hl0 : l 0 = 0)
    (hstep : ∀ v, v < T → Step x (tile n B v) (m v) (l v) (m (v + 1)) (l (v + 1))) :
    Inv x univ (m T) (l T) := by
  have inv : ∀ v, v ≤ T → Inv x (seen n B v) (m v) (l v) := by
    intro v
    induction v with
    | zero =>
      obtain ⟨NEG, h⟩ := hm0
      exact fun _ => ⟨NEG, h, by rw [hl0, seen_zero]; simp⟩
    | succ v ih =>
      intro hv
      rw [seen_succ]
      exact Inv.step (disjoint_seen_tile B v) (ih (Nat.le_of_succ_le hv)) (hstep v hv)
  rw [← seen_last hn]
  exact inv T le_rfl

end Cert.LibSoftmaxTiles
-- ==== Proof.SpecSoftmax.lean ====
import proofs.«167389_j35253091565659_2_alg».proof.Proof.Spec
import proofs.«167389_j35253091565659_2_alg».proof.Proof.LibSoftmaxTiles

noncomputable section

open scoped BigOperators
open Finset

namespace Cert.Spec

open Idealize.ShloMosaic Idealize.ShloMosaic.ValueIdx
open Cert.LibOnlineSoftmax

/-- A product of real operands has real entries. -/
theorem logits_coe (mu : (Sh2 512 300).Idx → EReal) (emb : (Sh2 30000 300).Idx → EReal)
    (mur : (Sh2 512 300).Idx → ℝ) (embr : (Sh2 30000 300).Idx → ℝ)
    (hmu : ∀ i, mu i = (mur i : EReal)) (hemb : ∀ i, emb i = (embr i : EReal)) (i : (Sh2 512 30000).Idx) :
    logits mu emb i
      = ((∑ k : Fin 300, mur (ix2 (n0 := 512) (n1 := 300) (i 0) k) * embr (ix2 (n0 := 30000) (n1 := 300) (i 1) k) : ℝ) : EReal) := by
  unfold logits
  simp only [hmu, hemb, coe_finset_sum, EReal.coe_mul]

/-- The specification's softmax does not depend on the real shift it is normalised at. -/
theorem rowSoftmax_of_shift (R C : ℕ) (x : (Sh2 R C).Idx → EReal) (r : Fin R) (xr : Fin C → ℝ)
    (hx : ∀ c, x (ix2 (n0 := R) (n1 := C) r c) = (xr c : EReal)) (mr : ℝ) (c : Fin C) :
    Ideal.div (Ideal.exp (x (ix2 (n0 := R) (n1 := C) r c) - (mr : EReal)))
        ((∑ c' : Fin C, Real.exp (xr c' - mr) : ℝ) : EReal)
      = rowSoftmax R C x (ix2 (n0 := R) (n1 := C) r c) := by
  show _ = Ideal.div (Ideal.exp (_ - rowMax R C x r)) (rowExpSum R C x r)
  unfold rowExpSum rowMax
  simp only [hx]
  exact softmax_shift_sup xr univ ⟨c, Finset.mem_univ c⟩ mr c

end Cert.Spec
-- ==== Proof.SpecRecon.lean ====
import proofs.«167389_j35253091565659_2_alg».proof.Proof.Spec
import proofs.«167389_j35253091565659_2_alg».proof.Proof.SpecSoftmax

noncomputable section

open scoped BigOperators
open Finset

namespace Cert.Spec

open Idealize.ShloMosaic Idealize.ShloMosaic.ValueIdx

/-- Term by term under the sum over `t`: each quotient is the softmax entry. -/
theorem recon_of_stats (N R C : ℕ) (phi : (Sh2 N R).Idx → EReal) (x : (Sh2 R C).Idx → EReal)
    (xr : Fin R → Fin C → ℝ) (hx : ∀ t p, x (ix2 (n0 := R) (n1 := C) t p) = (xr t p : EReal))
    (m l : Fin R → EReal) (mr : Fin R → ℝ) (hm : ∀ t, m t = (mr t : EReal))
    (hl : ∀ t, l t = ((∑ p : Fin C, Real.exp (xr t p - mr t) : ℝ) : EReal)) (n : Fin N) (p : Fin C) :
    ∑ t : Fin R, phi (ix2 (n0 := N) (n1 := R) n t)
        * Ideal.div (Ideal.exp (x (ix2 (n0 := R) (n1 := C) t p) - m t)) (l t)
      = matmulRC N R C phi (rowSoftmax R C x) (ix2 (n0 := N) (n1 := C) n p) := by
  unfold matmulRC
  refine Finset.sum_congr rfl (fun t _ => ?_)
  rw [hm t, hl t, rowSoftmax_of_shift R C x t (xr t) (hx t) (mr t) p]
  rfl

theorem recon_of_stats_2048 (phi : (Sh2 2048 512).Idx → EReal) (x : (Sh2 512 30000).Idx → EReal)
    (xr : Fin 512 → Fin 30000 → ℝ) (hx : ∀ t p, x (ix2 (n0 := 512) (n1 := 30000) t p) = (xr t p : EReal))
    (m l : Fin 512 → EReal) (mr : Fin 512 → ℝ) (hm : ∀ t, m t = (mr t : EReal))
    (hl : ∀ t, l t = ((∑ p : Fin 30000, Real.exp (xr t p - mr t) : ℝ) : EReal)) (n : Fin 2048) (p : Fin 30000) :
    ∑ t : Fin 512, phi (ix2 (n0 := 2048) (n1 := 512) n t)
        * Ideal.div (Ideal.exp (x (ix2 (n0 := 512) (n1 := 30000) t p) - m t)) (l t)
      = matmulRC 2048 512 30000 phi (rowSoftmax 512 30000 x) (ix2 (n0 := 2048) (n1 := 30000) n p) :=
  recon_of_stats 2048 512 30000 phi x xr hx m l mr hm hl n p

end Cert.Spec
-- ==== Proof.SpecConst.lean ====
import Idealize.ShloMosaic.PureOps.Ideal
import Idealize.ShloMosaic.PureOps.Ideal.Laws

noncomputable section

namespace Cert.Spec

open Idealize.ShloMosaic

/-- The real the pattern `0xFF333332` denotes: a finite stand-in for `-∞`. -/
def negStandIn : ℝ := -(11744050 : ℝ) * (2 : ℝ) ^ (104 : ℤ)

theorem ofBits_negStandIn : Ideal.ofBits .f32 0xFF333332#32 = (negStandIn : EReal) := by
  simp [Ideal.ofBits, Ideal.ieee, negStandIn, -EReal.coe_mul]

theorem ofBits_neg_inf : Ideal.ofBits .f32 0xFF800000#32 = ⊥ := by
  simp [Ideal.ofBits, Ideal.ieee]

end Cert.Spec
-- ==== Proof.KIR2Value.lean ====
import proofs.«167389_j35253091565659_2_alg».proof.Proof.KICommon
import proofs.«167389_j35253091565659_2_alg».proof.Proof.KIR2Data
import proofs.«167389_j35253091565659_2_alg».proof.Proof.Spec
import proofs.«167389_j35253091565659_2_alg».proof.Proof.LibOnlineSoftmax
import proofs.«167389_j35253091565659_2_alg».proof.Proof.LibSoftmaxTiles
import proofs.«167389_j35253091565659_2_alg».proof.Proof.SpecSoftmax
import proofs.«167389_j35253091565659_2_alg».proof.Proof.SpecConst
import Idealize.ShloMosaic.PureOps.Ideal
import Idealize.ShloMosaic.PureOps.Ideal.Laws
import Idealize.ShloMosaic.Lib.Pipeline.Value
import Idealize.ShloMosaic.Lib.ValueIdx
import Idealize.ShloMosaic.Lib.WordArith
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx
open scoped BigOperators

/-- Every logit is a real; xr names them. -/
abbrev Logits2 (V : VT Ideal) (c : Dev nD) (xr : Fin 512 → Fin 30000 → ℝ) : Prop :=
  ∀ (r : Fin 512) (p : Fin 30000),
    Cert.Spec.logits (V c main_arg16) (V c main_arg17) (ix2 r p) = ((xr r p : ℝ) : EReal)

namespace R2V

theorem N2 : cfg2.N = 94 := N_2

theorem lt94 (t : Fin cfg2.N) : t.val < 94 := lt_of_lt_of_eq t.isLt N2

theorem coords2_0 (t : Fin cfg2.N) : (grid2.coords t 0).val = t.val / 47 := by
  have h := lt94 t
  show t.val / grid2.stride 0 % 2 = t.val / 47
  rw [show grid2.stride 0 = 47 from by decide]
  omega
theorem coords2_1 (t : Fin cfg2.N) : (grid2.coords t 1).val = t.val % 47 := by
  show t.val / grid2.stride 1 % 47 = t.val % 47
  rw [show grid2.stride 1 = 1 from by decide]
  omega

theorem idx47 (t : Fin cfg2.N) : (BitVec.ofNat 32 (grid2.coords t 0).val).toNat = t.val / 47 := by
  have h := lt94 t
  rw [BitVec.toNat_ofNat, coords2_0, Nat.mod_eq_of_lt (by omega)]
theorem index2_0_0 (t : Fin cfg2.N) : win2_0.index t 0 = t.val / 47 := idx47 t
theorem index2_2_0 (t : Fin cfg2.N) : win2_2.index t 0 = t.val / 47 := idx47 t
theorem index2_3_0 (t : Fin cfg2.N) : win2_3.index t 0 = t.val / 47 := idx47 t
theorem index2_1_0 (t : Fin cfg2.N) : win2_1.index t 0 = t.val % 47 := by
  show (BitVec.ofNat 32 (grid2.coords t 1).val).toNat = _
  rw [BitVec.toNat_ofNat, coords2_1, Nat.mod_eq_of_lt (by omega)]

theorem mublk2_apply (V : VT Ideal) (c : Dev nD) (t : Fin cfg2.N) (a : Fin 256) (k : Fin 300) (r : Fin 512)
    (hr : r.val = t.val / 47 * 256 + a.val) :
    mublk2 V c t (ix2 a k) = V c main_arg16 (ix2 r k) := by
  unfold mublk2
  rw [View.read_apply]
  show V c main_arg16 _ = V c main_arg16 (ix2 r k)
  refine congrArg _ (Shape.idx_ext₂ ?_ ?_)
  · show win2_0.index t 0 * 256 + 1 * a.val = r.val
    rw [index2_0_0, hr]; omega
  · show 0 * 300 + 1 * k.val = k.val
    omega

theorem xsize2_1_0 (t : Fin cfg2.N) :
    (cfg2.win 1).xsize (grid2.coords t) 0 = if (t.val % 47 + 1) * 640 ≤ 30000 then 640 else 30000 - t.val % 47 * 640 := by
  show (Pipeline.Clip.of (win2_1.index t 0) 640 30000).extent 640 = _
  rw [index2_1_0]
  unfold Pipeline.Clip.of
  split <;> rfl

theorem embz2_apply (V : VT Ideal) (c : Dev nD) (t : Fin cfg2.N) (q : Fin 640) (k : Fin 300) (p : Fin 30000)
    (hp : p.val = t.val % 47 * 640 + q.val) :
    embz2 V c t (ix2 q k) = V c main_arg17 (ix2 p k) := by
  have hmoved : (cfg2.win 1).moved (grid2.coords t) (ix2 q k) = true := by
    rw [Window.moved_iff]
    intro d
    match d with
    | ⟨0, _⟩ =>
      show q.val < (cfg2.win 1).xsize (grid2.coords t) 0
      rw [xsize2_1_0]
      have := p.isLt; have := q.isLt
      split <;> omega
    | ⟨1, _⟩ => exact k.isLt
  unfold embz2 Window.fill
  rw [dif_pos hmoved]
  unfold embblk2
  rw [View.read_apply]
  show V c main_arg17 _ = V c main_arg17 (ix2 p k)
  refine congrArg _ (Shape.idx_ext₂ ?_ ?_)
  · show win2_1.index t 0 * 640 + 1 * q.val = p.val
    rw [index2_1_0, hp]; omega
  · show 0 * 300 + 1 * k.val = k.val
    omega

/-- Below 47 * 640 nothing wraps, so the signed comparison of words is the comparison of the numbers. -/
theorem valid2_word (v q : Nat) (hv : v < 47) (hq : q < 640) :
    IntOp.cmpi .slt (BitVec.ofNat 32 v * 640#32 + BitVec.ofNat 32 q) 30000#32
      = if v * 640 + q < 30000 then 1#1 else 0#1 := by
  rw [BitVec.ofNat_mul_ofNat, BitVec.ofNat_add_ofNat]
  unfold IntOp.cmpi
  simp only [BitVec.slt, WordArith.toInt_ofNat_small (v * 640 + q) (by omega),
    WordArith.toInt_ofNat_small 30000 (by omega), Int.ofNat_lt]
  by_cases h : v * 640 + q < 30000 <;> simp [h]

theorem k2_pay4_apply (i : grid2.Coords) (a : Fin 256) (q : Fin 640) :
    k2_pay4 i (ix2 a q) = if (i 1).val * 640 + q.val < 30000 then 1#1 else 0#1 := by
  unfold k2_pay4
  dsimp only
  show IntOp.cmpi .slt (IntOp.addi (Scalar.muli (BitVec.ofNat 32 (i 1).val) 640#32)
    (iota .tc S256x640 32 [1] iota_S256x640_d1_w32 (ix2 a q))) 30000#32 = _
  rw [iota_single_apply]
  exact valid2_word (i 1).val q.val (i 1).isLt q.isLt

theorem logit2_apply (x0 : FVec Ideal S256x300 .bf16) (x1 : FVec Ideal S640x300 .bf16) (a : Fin 256) (q : Fin 640) :
    matmul dot_S256x300_S640x300_S256x640_1_1_0_0_n_n none x0 x1 (constant S256x640 .f32 0x00000000#32) (ix2 a q)
      = ∑ k : Fin 300, x0 (ix2 a k) * x1 (ix2 q k) := by
  simp only [matmul]
  rw [Ideal.matmul_constant_zero_apply, ← Equiv.sum_comp (contrEquiv1 dot_S256x300_S640x300_S256x640_1_1_0_0_n_n 300 rfl rfl).symm]
  refine Finset.sum_congr rfl fun k _ => ?_
  have hk := contrEquiv1_symm_val dot_S256x300_S640x300_S256x640_1_1_0_0_n_n 300 rfl rfl k
  have el : dot_S256x300_S640x300_S256x640_1_1_0_0_n_n.lhsIdx (ix2 a q) ((contrEquiv1 dot_S256x300_S640x300_S256x640_1_1_0_0_n_n 300 rfl rfl).symm k) = ix2 a k :=
    Shape.idx_ext₂ rfl ((dot_S256x300_S640x300_S256x640_1_1_0_0_n_n.lhsIdx_val_of_single rfl _ _).trans hk)
  have er : dot_S256x300_S640x300_S256x640_1_1_0_0_n_n.rhsIdx (ix2 a q) ((contrEquiv1 dot_S256x300_S640x300_S256x640_1_1_0_0_n_n 300 rfl rfl).symm k) = ix2 q k :=
    Shape.idx_ext₂ rfl ((dot_S256x300_S640x300_S256x640_1_1_0_0_n_n.rhsIdx_val_of_single rfl _ _).trans hk)
  rw [el, er]

theorem k2_pay5_apply (i : grid2.Coords) (x0 : Vec Ideal S256x300 .f32) (x1 : Vec Ideal S640x300 .f32) (a : Fin 256) (q : Fin 640) :
    k2_pay5 i x0 x1 (ix2 a q)
      = if (i 1).val * 640 + q.val < 30000 then ∑ k : Fin 300, x0 (ix2 a k) * x1 (ix2 q k)
        else Ideal.ofBits .f32 0xFF333332#32 := by
  unfold k2_pay5
  dsimp only
  rw [select_apply, k2_pay4_apply]
  by_cases h : (i 1).val * 640 + q.val < 30000
  · rw [if_pos h, if_pos h, select_one]
    exact logit2_apply _ _ a q
  · rw [if_neg h, if_neg h, select_zero]
    rfl

theorem cast256_apply (v : FVec Ideal S256 .f32) (a : Fin 256) :
    shapeCast S256x1 v shapeCasts_S256_S256x1 (ix2 a (0 : Fin 1)) = v (ix1 a) := by
  refine shapeCast_apply v shapeCasts_S256_S256x1 (ix2 a (0 : Fin 1)) (ix1 a) ?_
  rw [Shape.rowMajor_val_one, Shape.rowMajor_val_two]
  show a.val = a.val * 1 + 0
  omega

theorem bcast256_apply (M : FVec Ideal S256x1 .f32) (a : Fin 256) (q : Fin 640) :
    broadcastTo S256x640 M broadcasts_S256x1_S256x640 (ix2 a q) = M (ix2 a (0 : Fin 1)) := by
  refine broadcastTo_apply M broadcasts_S256x1_S256x640 (ix2 a q) (ix2 a (0 : Fin 1)) ?_
  intro d
  match d with
  | ⟨0, _⟩ =>
    show a.val = if (256 : ℕ) = 1 then 0 else a.val
    rw [if_neg (by decide)]
  | ⟨1, _⟩ =>
    show (0 : ℕ) = if (1 : ℕ) = 1 then 0 else q.val
    rw [if_pos rfl]

theorem lift2 (a : Fin 256) (q : Fin 640) : reduces_S256x640_S256.lift (ix1 a) q = ix2 a q :=
  Shape.idx_ext₂ rfl rfl

theorem rowmax2_apply (W : FVec Ideal S256x640 .f32) (hφ : FKind.Formats .f32)
    (hacc : (0xFF800000#32 : BitVec 32) = FKind.maximumf.neutral .f32 hφ) (a : Fin 256) :
    multiReduction .maximumf [1] S256 W 0xFF800000#32 reduces_S256x640_S256 hφ hacc (ix1 a)
      = (Finset.univ : Finset (Fin 640)).fold max ⊥ (fun q => W (ix2 a q)) := by
  refine (Ideal.multiReduction_maximumf_single W 0xFF800000#32 reduces_S256x640_S256 hφ hacc (ix1 a)).trans ?_
  show (Finset.univ : Finset (Fin 640)).fold max (Ideal.ofBits .f32 0xFF800000#32)
      (W ∘ reduces_S256x640_S256.lift (ix1 a)) = _
  rw [Cert.Spec.ofBits_neg_inf]
  exact congrArg (fun f : Fin 640 → EReal => (Finset.univ : Finset (Fin 640)).fold max ⊥ f)
    (funext fun q => congrArg W (lift2 a q))

theorem rowsum2_apply (W : FVec Ideal S256x640 .f32) (hφ : FKind.Formats .f32)
    (hacc : (0x00000000#32 : BitVec 32) = FKind.add.neutral .f32 hφ) (a : Fin 256) :
    multiReduction .add [1] S256 W 0x00000000#32 reduces_S256x640_S256 hφ hacc (ix1 a)
      = ∑ q : Fin 640, W (ix2 a q) := by
  refine (Ideal.multiReduction_add_single W 0x00000000#32 reduces_S256x640_S256 hφ hacc (ix1 a)).trans ?_
  exact Finset.sum_congr rfl fun q _ => congrArg W (lift2 a q)

theorem k2_pay6_apply (i : grid2.Coords) (x0 : Vec Ideal S256x300 .f32) (x1 : Vec Ideal S640x300 .f32)
    (m : Vec Ideal S256x1 .f32) (a : Fin 256) :
    k2_pay6 i x0 x1 m (ix2 a (0 : Fin 1))
      = max (m (ix2 a (0 : Fin 1)))
          ((Finset.univ : Finset (Fin 640)).fold max ⊥ (fun q => k2_pay5 i x0 x1 (ix2 a q))) := by
  unfold k2_pay6
  dsimp only
  rw [maximumf_apply, cast256_apply]
  exact congrArg (max (m (ix2 a (0 : Fin 1)))) (rowmax2_apply (k2_pay5 i x0 x1) _ _ a)

theorem k2_pay7_apply (i : grid2.Coords) (x0 : Vec Ideal S256x300 .f32) (x1 : Vec Ideal S640x300 .f32)
    (m0 m1 l : Vec Ideal S256x1 .f32) (a : Fin 256) :
    k2_pay7 i x0 x1 m0 m1 l (ix2 a (0 : Fin 1))
      = Ideal.exp (m1 (ix2 a (0 : Fin 1)) - k2_pay6 i x0 x1 m0 (ix2 a (0 : Fin 1))) * l (ix2 a (0 : Fin 1))
        + ∑ q : Fin 640, (if (i 1).val * 640 + q.val < 30000
            then Ideal.exp (k2_pay5 i x0 x1 (ix2 a q) - k2_pay6 i x0 x1 m0 (ix2 a (0 : Fin 1))) else 0) := by
  unfold k2_pay7
  dsimp only
  rw [shapeCast_self, addf_apply, cast256_apply]
  refine congrArg₂ (· + ·) rfl ?_
  refine (rowsum2_apply _ _ _ a).trans ?_
  refine Finset.sum_congr rfl fun q _ => ?_
  rw [select_apply, k2_pay4_apply]
  by_cases h : (i 1).val * 640 + q.val < 30000
  · rw [if_pos h, if_pos h, select_one]
    show Ideal.exp (k2_pay5 i x0 x1 (ix2 a q)
      - broadcastTo S256x640 (k2_pay6 i x0 x1 m0) broadcasts_S256x1_S256x640 (ix2 a q)) = _
    rw [bcast256_apply]
  · rw [if_neg h, if_neg h, select_zero]
    exact Ideal.ofBits_zero_f32

theorem step2_fst_apply (i : grid2.Coords) (x0 : Vec Ideal S256x300 .f32) (x1 : Vec Ideal S640x300 .f32) (s : SC2) (a : Fin 256) :
    (step2 i x0 x1 s).1 (ix2 a (0 : Fin 1)) = k2_pay6 i x0 x1 s.1 (ix2 a (0 : Fin 1)) := by
  show k2_pay1 (k2_pay6 i x0 x1 s.1) (ix2 a (0 : Fin 1)) = _
  unfold k2_pay1
  rw [shapeCast_self]
theorem step2_snd_apply (i : grid2.Coords) (x0 : Vec Ideal S256x300 .f32) (x1 : Vec Ideal S640x300 .f32) (s : SC2) (a : Fin 256) :
    (step2 i x0 x1 s).2 (ix2 a (0 : Fin 1)) = k2_pay7 i x0 x1 s.1 s.1 s.2 (ix2 a (0 : Fin 1)) := rfl

theorem init2_fst_apply (a : Fin 256) : init2.1 (ix2 a (0 : Fin 1)) = (Cert.Spec.negStandIn : EReal) := by
  show k2_pay2 (F := Ideal) (ix2 a (0 : Fin 1)) = _
  unfold k2_pay2
  rw [shapeCast_self]
  exact Cert.Spec.ofBits_negStandIn
theorem init2_snd_apply (a : Fin 256) : init2.2 (ix2 a (0 : Fin 1)) = (0 : EReal) := by
  show k2_pay3 (F := Ideal) (ix2 a (0 : Fin 1)) = _
  unfold k2_pay3
  rw [shapeCast_self]
  exact Ideal.ofBits_zero_f32

section Row

variable (V : VT Ideal) (c : Dev nD) (xr : Fin 512 → Fin 30000 → ℝ)

theorem lane2 (hx : Logits2 V c xr) (t : Fin cfg2.N) (a : Fin 256) (q : Fin 640) (r : Fin 512) (hr : r.val = t.val / 47 * 256 + a.val) :
    k2_pay5 (grid2.coords t) (mublk2 V c t) (embz2 V c t) (ix2 a q)
      = if h : t.val % 47 * 640 + q.val < 30000 then ((xr r ⟨t.val % 47 * 640 + q.val, h⟩ : ℝ) : EReal)
        else (Cert.Spec.negStandIn : EReal) := by
  rw [k2_pay5_apply, coords2_1]
  by_cases h : t.val % 47 * 640 + q.val < 30000
  · rw [if_pos h, dif_pos h, ← hx r ⟨_, h⟩]
    unfold Cert.Spec.logits
    refine Finset.sum_congr rfl fun k _ => ?_
    rw [mublk2_apply V c t a k r hr, embz2_apply V c t q k ⟨_, h⟩ rfl]
  · rw [if_neg h, dif_neg h, Cert.Spec.ofBits_negStandIn]

/-- scAt2 made total, so that positions can be computed with. -/
def sc2 (n : ℕ) : SC2 := if h : n < cfg2.N then scAt2 V c n h else init2

theorem sc2_eq (n : ℕ) (h : n < cfg2.N) : sc2 V c n = scAt2 V c n h := dif_pos h

theorem sc2_first (t : Fin cfg2.N) (h : t.val % 47 = 0) :
    sc2 V c t.val = step2 (grid2.coords t) (mublk2 V c t) (embz2 V c t) init2 :=
  (sc2_eq V c t.val t.isLt).trans (scAt2_first V c t h)

theorem sc2_next (t : Fin cfg2.N) (h : ¬t.val % 47 = 0) :
    sc2 V c t.val = step2 (grid2.coords t) (mublk2 V c t) (embz2 V c t) (sc2 V c (t.val - 1)) := by
  rw [sc2_eq V c t.val t.isLt, scAt2_next V c t h, sc2_eq V c (t.val - 1) (Nat.lt_of_le_of_lt (Nat.sub_le _ _) t.isLt)]

/-- The pair a row block starts tile v from. -/
def st2 (tt : ℕ) : ℕ → SC2
  | 0 => init2
  | v + 1 => sc2 V c (tt * 47 + v)

theorem st2_step (tt v : ℕ) (hv : v < 47) (h : tt * 47 + v < cfg2.N) :
    st2 V c tt (v + 1)
      = step2 (grid2.coords ⟨tt * 47 + v, h⟩) (mublk2 V c ⟨tt * 47 + v, h⟩) (embz2 V c ⟨tt * 47 + v, h⟩) (st2 V c tt v) := by
  cases v with
  | zero => exact sc2_first V c ⟨tt * 47 + 0, h⟩ (by show (tt * 47 + 0) % 47 = 0; omega)
  | succ v =>
    have := sc2_next V c ⟨tt * 47 + (v + 1), h⟩ (by show ¬(tt * 47 + (v + 1)) % 47 = 0; omega)
    rwa [show (⟨tt * 47 + (v + 1), h⟩ : Fin cfg2.N).val - 1 = tt * 47 + v from by show tt * 47 + (v + 1) - 1 = _; omega] at this

/-- One point's update at row a is a step of the online softmax, whatever pair s0 it starts from. -/
theorem point_step2 (hx : Logits2 V c xr) (t : Fin cfg2.N) (s0 : SC2) (a : Fin 256) (r : Fin 512)
    (hr : r.val = t.val / 47 * 256 + a.val) :
    Cert.LibOnlineSoftmax.Step (xr r) (Cert.LibSoftmaxTiles.tile 30000 640 (t.val % 47))
      (s0.1 (ix2 a (0 : Fin 1))) (s0.2 (ix2 a (0 : Fin 1)))
      ((step2 (grid2.coords t) (mublk2 V c t) (embz2 V c t) s0).1 (ix2 a (0 : Fin 1)))
      ((step2 (grid2.coords t) (mublk2 V c t) (embz2 V c t) s0).2 (ix2 a (0 : Fin 1))) := by
  have hlane := fun q => lane2 V c xr hx t a q r hr
  have hc1 : (grid2.coords t 1).val = t.val % 47 := coords2_1 t
  refine ⟨?_, ?_, ?_, ?m, ?l, ?_⟩
  case m => rw [step2_fst_apply, k2_pay6_apply]
  case l => rw [step2_snd_apply, k2_pay7_apply, k2_pay6_apply]
  · refine Cert.LibOnlineSoftmax.exists_fold_max_bot_of_finite Finset.univ ⟨0, Finset.mem_univ _⟩ _ fun q => ?_
    rw [hlane q]
    split <;> exact ⟨_, rfl⟩
  · intro mr' hmr'
    rw [hmr']
    refine Cert.LibSoftmaxTiles.tileSum_coe_terms (xr r) 640 (t.val % 47) mr' _ (fun q h => ?_) (fun q h => ?_)
    · have h' : (grid2.coords t 1).val * 640 + q.val < 30000 := by rw [hc1]; exact h
      rw [if_pos h', hlane q, dif_pos h]
    · have h' : ¬(grid2.coords t 1).val * 640 + q.val < 30000 := by rw [hc1]; exact h
      rw [if_neg h']

theorem row_last2 (hx : Logits2 V c xr) (tt : ℕ) (htt : tt < 2) (a : Fin 256) (r : Fin 512) (hr : r.val = tt * 256 + a.val) :
    ∃ mr : ℝ, (sc2 V c (tt * 47 + 46)).1 (ix2 a (0 : Fin 1)) = (mr : EReal) ∧
      (sc2 V c (tt * 47 + 46)).2 (ix2 a (0 : Fin 1)) = ((∑ p : Fin 30000, Real.exp (xr r p - mr) : ℝ) : EReal) :=
  Cert.LibSoftmaxTiles.online_run (xr r) 640 47 (by norm_num)
    (fun v => (st2 V c tt v).1 (ix2 a (0 : Fin 1))) (fun v => (st2 V c tt v).2 (ix2 a (0 : Fin 1)))
    ⟨Cert.Spec.negStandIn, init2_fst_apply a⟩ (init2_snd_apply a) fun v hv => by
      have hN : tt * 47 + v < cfg2.N := by rw [N2]; omega
      have h := point_step2 V c xr hx ⟨tt * 47 + v, hN⟩ (st2 V c tt v) a r
        (by show r.val = (tt * 47 + v) / 47 * 256 + a.val; omega)
      rwa [← st2_step V c tt v hv hN,
        show (⟨tt * 47 + v, hN⟩ : Fin cfg2.N).val % 47 = v from by show (tt * 47 + v) % 47 = v; omega] at h

end Row

section Final

variable (V : VT Ideal) (c : Dev nD) (xr : Fin 512 → Fin 30000 → ℝ)

abbrev rowIn2 (r : Fin 512) : Fin 256 := ⟨r.val % 256, Nat.mod_lt _ (by decide)⟩

def col2 (g : Fin 512 → ℝ) : Vec Ideal S512x1 .f32 := fun i => ((g (i 0) : ℝ) : EReal)

/-- If s holds g row by row at the last tile of a row block, s cut is that block of the column of g, for either result. -/
theorem cut_read2 (s : Vec Ideal S256x1 .f32) (g : Fin 512 → ℝ) (t : Fin cfg2.N) (h46 : t.val % 47 = 46)
    (hg : ∀ r : Fin 512, r.val / 256 * 47 + 46 = t.val → s (ix2 (rowIn2 r) (0 : Fin 1)) = ((g r : ℝ) : EReal)) :
    (cfg2.win 2).cut (grid2.coords t) s = ((cfg2.win 2).blk t).view.read (Elt Ideal) (col2 g) := by
  have h94 := lt94 t
  funext y
  rw [View.read_apply]
  have hy0 : (y 0).val < 256 := (y 0).isLt
  have hy1 : (y 1).val < 1 := (y 1).isLt
  have hrlt : t.val / 47 * 256 + (y 0).val < 512 := by omega
  have e1 : (cfg2.win 2).xinj (grid2.coords t) y = ix2 (rowIn2 ⟨t.val / 47 * 256 + (y 0).val, hrlt⟩) (0 : Fin 1) :=
    Shape.idx_ext₂ (by show (y 0).val = (t.val / 47 * 256 + (y 0).val) % 256; omega) (by show (y 1).val = 0; omega)
  have e2 : ((cfg2.win 2).blk t).view.emb y 0 = (⟨t.val / 47 * 256 + (y 0).val, hrlt⟩ : Fin 512) := by
    apply Fin.ext
    show win2_2.index t 0 * 256 + 1 * (y 0).val = t.val / 47 * 256 + (y 0).val
    rw [index2_2_0]; omega
  show s ((cfg2.win 2).xinj (grid2.coords t) y) = ((g (((cfg2.win 2).blk t).view.emb y 0) : ℝ) : EReal)
  rw [e1, e2]
  exact hg _ (by show (t.val / 47 * 256 + (y 0).val) / 256 * 47 + 46 = t.val; omega)

/-- Every row lies in the block of the last tile of its row block. -/
theorem cover2_2 (i : S512x1.Idx) :
    ∃ t : Fin cfg2.N, (cfg2.win 2).flush t = true ∧ i ∈ ((cfg2.win 2).blk t).view.set := by
  have h0 : (i 0).val < 512 := (i 0).isLt
  have h1 : (i 1).val < 1 := (i 1).isLt
  have hN : (i 0).val / 256 * 47 + 46 < cfg2.N := by rw [N2]; omega
  refine ⟨⟨(i 0).val / 256 * 47 + 46, hN⟩,
    (flush2_2 _).mpr (by show ((i 0).val / 256 * 47 + 46) % 47 = 46; omega), ?_⟩
  show i ∈ ((View.whole main_v81_0).slice (win2_2.rect ⟨(i 0).val / 256 * 47 + 46, hN⟩)).set
  rw [View.set_slice_whole, Rect.mem_set_unit]
  intro d
  match d with
  | ⟨0, _⟩ =>
    show win2_2.index ⟨(i 0).val / 256 * 47 + 46, hN⟩ 0 * 256 ≤ (i 0).val
      ∧ (i 0).val < win2_2.index ⟨(i 0).val / 256 * 47 + 46, hN⟩ 0 * 256 + 256
    rw [index2_2_0]
    show ((i 0).val / 256 * 47 + 46) / 47 * 256 ≤ (i 0).val ∧ (i 0).val < ((i 0).val / 256 * 47 + 46) / 47 * 256 + 256
    omega
  | ⟨1, _⟩ =>
    show 0 * 1 ≤ (i 1).val ∧ (i 1).val < 0 * 1 + 1
    omega

end Final

end R2V

open R2V

section Final

variable (V : VT Ideal) (c : Dev nD) (xr : Fin 512 → Fin 30000 → ℝ)

/-- The finished pass leaves, row by row, a real shift and the sum of exponentials at that shift. -/
theorem final2_stats (hx : Logits2 V c xr) :
    ∃ mr : Fin 512 → ℝ,
      (dat2 V c).arrAt 2 cfg2.N = (fun i : S512x1.Idx => ((mr (i 0) : ℝ) : EReal)) ∧
      (dat2 V c).arrAt 3 cfg2.N
        = (fun i : S512x1.Idx => ((∑ p : Fin 30000, Real.exp (xr (i 0) p - mr (i 0)) : ℝ) : EReal)) := by
  choose mr h1 h2 using fun r : Fin 512 => row_last2 V c xr hx (r.val / 256) (by have := r.isLt; omega) (rowIn2 r) r
    (by show r.val = r.val / 256 * 256 + r.val % 256; omega)
  refine ⟨mr, (dat2 V c).arrAt_eq_of_cover 2 (col2 mr) (fun t hf => ?_) cover2_2,
    (dat2 V c).arrAt_eq_of_cover 3 (col2 fun r => ∑ p : Fin 30000, Real.exp (xr r p - mr r)) (fun t hf => ?_) cover2_2⟩
  · exact cut_read2 (scAt2 V c t.val t.isLt).1 _ t ((flush2_2 t).mp hf) fun r hr => by
      rw [← sc2_eq V c t.val t.isLt, ← hr]; exact h1 r
  · exact cut_read2 (scAt2 V c t.val t.isLt).2 _ t ((flush2_3 t).mp hf) fun r hr => by
      rw [← sc2_eq V c t.val t.isLt, ← hr]; exact h2 r

end Final

end Cert.KernelIdeal.Hand
end
-- ==== Proof.KIValue.lean ====
import proofs.«167389_j35253091565659_2_alg».proof.Proof.KIArgs
import proofs.«167389_j35253091565659_2_alg».proof.Proof.KIR0Value
import proofs.«167389_j35253091565659_2_alg».proof.Proof.KIR1Value
import proofs.«167389_j35253091565659_2_alg».proof.Proof.KIR3Value
import proofs.«167389_j35253091565659_2_alg».proof.Proof.SpecRecon
import proofs.«167389_j35253091565659_2_alg».proof.Proof.KIR2Value
set_option maxRecDepth 16384
noncomputable section
namespace Cert.KernelIdeal.Hand
open Cert.KernelIdeal Cert.KernelIdeal.Gen
open Idealize.ShloMosaic Idealize.ShloMosaic.TcCoe
open Idealize.ShloMosaic.Pipeline (Dat)
open Idealize.ShloMosaic.ValueIdx
open scoped BigOperators

variable (m : (ℓ : Loc nD τ sig) → Buf (Elt Ideal) ℓ)

abbrev xin0 (c : Dev nD) : Vec Ideal S2048x30000 .f32 := m ((c : Thread nD τ).loc main_arg0)
abbrev w1in (c : Dev nD) : Vec Ideal S1024x30000 .f32 := m ((c : Thread nD τ).loc main_arg3)
abbrev b1in (c : Dev nD) : Vec Ideal S1024 .f32 := m ((c : Thread nD τ).loc main_arg4)
abbrev w2in (c : Dev nD) : Vec Ideal S1024x1024 .f32 := m ((c : Thread nD τ).loc main_arg5)
abbrev b2in (c : Dev nD) : Vec Ideal S1024 .f32 := m ((c : Thread nD τ).loc main_arg6)
abbrev muin (c : Dev nD) : Vec Ideal S512x300 .f32 := m ((c : Thread nD τ).loc main_arg16)
abbrev embin (c : Dev nD) : Vec Ideal S30000x300 .f32 := m ((c : Thread nD τ).loc main_arg17)

abbrev en1K (c : Dev nD) : Vec Ideal S2048x1024 .f32 := W1 m c (Proc.devRef .tc main_v0)
abbrev en2K (c : Dev nD) : Vec Ideal S2048x1024 .f32 := W2 m c (Proc.devRef .tc main_v1)
abbrev mstatK (c : Dev nD) : Vec Ideal S512x1 .f32 := W8 m c (Proc.devRef .tc main_v81_0)
abbrev lstatK (c : Dev nD) : Vec Ideal S512x1 .f32 := W8 m c (Proc.devRef .tc main_v81_1)
abbrev phiK (c : Dev nD) : Vec Ideal S2048x512 .bf16 := W9 m c (Proc.devRef .tc main_v82)
abbrev reconK (c : Dev nD) : Vec Ideal S2048x30000 .f32 := W10 m c (Proc.devRef .tc main_v83)

/-- en1 = softplus(input · W1ᵀ + b1) of the launch arrays. -/
theorem en1K_eq (c : Dev nD) :
    en1K m c = Cert.Spec.gemmBiasSoftplus 2048 30000 1024 (xin0 m c) (w1in m c) (b1in m c) :=
  (W1_arr m c 3).trans (final0_3 (V0 m) c)

/-- en2 = softplus(en1 · W2ᵀ + b2): region 0 leaves the weights and the bias as launched. -/
theorem en2K_eq (c : Dev nD) :
    en2K m c = Cert.Spec.gemmBiasSoftplus 2048 1024 1024 (en1K m c) (w2in m c) (b2in m c) := by
  have e5 : V1 m c main_arg5 = w2in m c := W1_of_ne m c main_arg5 (by decide)
  have e6 : V1 m c main_arg6 = b2in m c := W1_of_ne m c main_arg6 (by decide)
  refine (W2_arr m c 3).trans ((final1_3_spec (V1 m) c).trans ?_)
  rw [e5, e6]

/-- The third region finds the topic and the word embeddings as launched. -/
theorem V7_mu (c : Dev nD) : V7 m c main_arg16 = muin m c :=
  (W7_of_W2 m c main_arg16 (by decide) (by decide) (by decide) (by decide) (by decide)).trans <|
    (W2_of_ne m c main_arg16 (by decide)).trans <| (W1_of_ne m c main_arg16 (by decide)).trans rfl
theorem V7_emb (c : Dev nD) : V7 m c main_arg17 = embin m c :=
  (W7_of_W2 m c main_arg17 (by decide) (by decide) (by decide) (by decide) (by decide)).trans <|
    (W2_of_ne m c main_arg17 (by decide)).trans <| (W1_of_ne m c main_arg17 (by decide)).trans rfl

/-- The last region finds the embeddings as launched and the statistics where the third region left them. -/
theorem reconK_blocks (c : Dev nD) :
    reconK m c = recon3 (muin m c) (embin m c) (mstatK m c) (lstatK m c) (phiK m c) := by
  refine (W10_arr m c 5).trans ((final3_5 (V9 m) c).trans ?_)
  have e16 : V9 m c main_arg16 = muin m c :=
    (W9_of m c main_arg16 (by decide)).trans <| (W8_in m c 0 rfl).trans (V7_mu m c)
  have e17 : V9 m c main_arg17 = embin m c :=
    (W9_of m c main_arg17 (by decide)).trans <| (W8_in m c 1 rfl).trans (V7_emb m c)
  have em : V9 m c main_v81_0 = mstatK m c := W9_of m c main_v81_0 (by decide)
  have el : V9 m c main_v81_1 = lstatK m c := W9_of m c main_v81_1 (by decide)
  rw [e16, e17, em, el]

/-- With real embeddings the logits are real, the statistics a real shift and the shifted exponentials' row sums: a softmax. -/
theorem reconK_eq_of_finite (c : Dev nD) (hmu : ∀ i, ∃ x : ℝ, muin m c i = (x : EReal))
    (hemb : ∀ i, ∃ x : ℝ, embin m c i = (x : EReal)) :
    reconK m c = Cert.Spec.matmulRC 2048 512 30000 (phiK m c)
      (Cert.Spec.rowSoftmax 512 30000 (Cert.Spec.logits (muin m c) (embin m c))) := by
  choose mur hmur using hmu
  choose embr hembr using hemb
  obtain ⟨xr, hx⟩ : ∃ xr : Fin 512 → Fin 30000 → ℝ, ∀ (r : Fin 512) (p : Fin 30000),
      Cert.Spec.logits (muin m c) (embin m c) (ix2 r p) = ((xr r p : ℝ) : EReal) :=
    ⟨fun r p => ∑ k : Fin 300, mur (ix2 r k) * embr (ix2 p k),
      fun r p => Cert.Spec.logits_coe (muin m c) (embin m c) mur embr hmur hembr (ix2 r p)⟩
  have hx7 : ∀ (r : Fin 512) (p : Fin 30000),
      Cert.Spec.logits (V7 m c main_arg16) (V7 m c main_arg17) (ix2 r p) = ((xr r p : ℝ) : EReal) := by
    rw [V7_mu, V7_emb]; exact hx
  obtain ⟨mr, h2, h3⟩ := final2_stats (V7 m) c xr hx7
  have h2' : mstatK m c = fun i : S512x1.Idx => ((mr (i 0) : ℝ) : EReal) := (W8_arr m c 2).trans h2
  have h3' : lstatK m c = fun i : S512x1.Idx => ((∑ p : Fin 30000, Real.exp (xr (i 0) p - mr (i 0)) : ℝ) : EReal) :=
    (W8_arr m c 3).trans h3
  rw [reconK_blocks, h2', h3']
  funext i
  obtain ⟨n, p, rfl⟩ : ∃ (n : Fin 2048) (p : Fin 30000), i = ix2 n p := ⟨i 0, i 1, eq_ix2 i⟩
  exact Cert.Spec.recon_of_stats_2048 (phiK m c) (Cert.Spec.logits (muin m c) (embin m c)) xr hx
    (fun t => ((mr t : ℝ) : EReal)) (fun t => ((∑ q : Fin 30000, Real.exp (xr t q - mr t) : ℝ) : EReal)) mr
    (fun _ => rfl) (fun _ => rfl) n p

end Cert.KernelIdeal.Hand
end
-- ==== Proof.KIHostDefs.lean ====
import proofs.«167389_j35253091565659_2_alg».proof.Proof.RefStages
import proofs.«167389_j35253091565659_2_alg».proof.Proof.Gen.KernelIdeal.Regions

noncomputable section

namespace Cert.KernelIdeal.Hand

open Cert.KernelIdeal Idealize.ShloMosaic
open Cert.ReferenceIdeal.Hand (res_z res_phi)

/-- The latent sample as one function of the second hidden layer and the arguments: the reference's own chain of stages. -/
def kerZ (e2 : FVec Ideal S2048x1024 .f32) (a2 : FVec Ideal S2048x64 .f32) (a7 : FVec Ideal S64x1024 .f32) (a8 : FVec Ideal S64 .f32) (a9 : FVec Ideal S64x1024 .f32) (a10 : FVec Ideal S64 .f32) (a11 : FVec Ideal S64 .f32) (a12 : FVec Ideal S64 .f32) (a13 : FVec Ideal S64 .f32) (a14 : FVec Ideal S64 .f32) : FVec Ideal S2048x64 .f32 :=
  res_z e2 a2 a7 a8 a9 a10 a11 a12 a13 a14

/-- The mixture weights as one function of the sample and the centres, likewise. -/
def kerPhi (z : FVec Ideal S2048x64 .f32) (a15 : FVec Ideal S512x64 .f32) : FVec Ideal S2048x512 .f32 :=
  res_phi z a15

end Cert.KernelIdeal.Hand

end
-- ==== Proof.KIHost.lean ====
import proofs.«167389_j35253091565659_2_alg».proof.Proof.KIHostDefs
import proofs.«167389_j35253091565659_2_alg».proof.Proof.KIArgs
import proofs.«167389_j35253091565659_2_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Hand (hostLin64 hostMean64 hostVar64 hostBn hostSample)

/-! Each stretch of host operations, run from any valuation `V`: the buffers it makes, as the stage functions of what it reads. -/

section Stretches

variable (V : Valuation τ sig (Elt Ideal)) {e : FVec Ideal S2048x1024 .f32} {w : FVec Ideal S64x1024 .f32} {g b : FVec Ideal S64 .f32}
  {x p n z : FVec Ideal S2048x64 .f32} {a : FVec Ideal S512x64 .f32}

theorem hostA_v6 (h1 : V main_v1 = e) (h7 : V main_arg7 = w) (h8 : V main_arg8 = b) :
    (StableHlo.after hostOps2 V main_v6 : FVec Ideal S2048x64 .f32) = hostLin64 e w b := by
  subst h1 h7 h8
  simp only [hostOps2]
  after_results
  rfl

theorem hostA_v11 (h1 : V main_v1 = e) (h9 : V main_arg9 = w) (h10 : V main_arg10 = b) :
    (StableHlo.after hostOps2 V main_v11 : FVec Ideal S2048x64 .f32) = hostLin64 e w b := by
  subst h1 h9 h10
  simp only [hostOps2]
  after_results
  rfl

theorem hostA_v14 (h1 : V main_v1 = e) (h7 : V main_arg7 = w) (h8 : V main_arg8 = b) :
    (StableHlo.after hostOps2 V main_v14 : FVec Ideal S64 .f32) = hostMean64 (hostLin64 e w b) := by
  subst h1 h7 h8
  simp only [hostOps2]
  after_results
  rfl

theorem hostA_c : (StableHlo.after hostOps2 V main_c : IVec S_ 32) = constantI S_ 32 0#32 := by
  simp only [hostOps2]
  after_results

theorem hostB_v15 (hc : (V main_c : IVec S_ 32) = constantI S_ 32 0#32) (h6 : V main_v6 = x) :
    (StableHlo.after hostOps2_1 V main_v15 : FVec Ideal S64 .f32) = hostVar64 x := by
  subst h6
  simp only [hostOps2_1]
  after_results_simp
  simp only [TRef.ofBuf, TRef.toBuf, cast_eq]
  rw [hc]
  rfl

theorem hostC_v30 (h6 : V main_v6 = x)
    (h14 : (V main_v14 : FVec Ideal S64 .f32) = hostMean64 x) (h15 : (V main_v15 : FVec Ideal S64 .f32) = hostVar64 x)
    (h11 : V main_arg11 = g) (h12 : V main_arg12 = b) :
    (StableHlo.after hostOps2_2 V main_v30 : FVec Ideal S2048x64 .f32) = hostBn x g b := by
  subst h6 h11 h12
  simp only [hostOps2_2]
  after_results_simp
  rw [h14, h15]
  rfl

theorem hostC_v33 (h11 : V main_v11 = x) :
    (StableHlo.after hostOps2_2 V main_v33 : FVec Ideal S64 .f32) = hostMean64 x := by
  subst h11
  simp only [hostOps2_2]
  after_results_simp
  rfl

theorem hostC_c4 : (StableHlo.after hostOps2_2 V main_c_4 : IVec S_ 32) = constantI S_ 32 0#32 := by
  simp only [hostOps2_2]
  after_results_simp

theorem hostD_v34 (hc : (V main_c_4 : IVec S_ 32) = constantI S_ 32 0#32) (h11 : V main_v11 = x) :
    (StableHlo.after hostOps2_3 V main_v34 : FVec Ideal S64 .f32) = hostVar64 x := by
  subst h11
  simp only [hostOps2_3]
  after_results_simp
  simp only [TRef.ofBuf, TRef.toBuf, cast_eq]
  rw [hc]
  rfl

/-- The last stretch in two parts: up to the sample, and from the distances to the centres on. -/
abbrev hostE1 : List (HloOp τ sig (Elt Ideal)) := (hostOps2_4 (F := Ideal)).take 20
abbrev hostE2 : List (HloOp τ sig (Elt Ideal)) := (hostOps2_4 (F := Ideal)).drop 20

theorem hostE_split :
    StableHlo.after (hostOps2_4 (F := Ideal)) V = StableHlo.after hostE2 (StableHlo.after hostE1 V) := by
  rw [← StableHlo.after_append]; exact congrArg (fun l => StableHlo.after l V) (List.take_append_drop 20 _).symm

theorem hostE1_v53 (h30 : V main_v30 = p) (h11 : V main_v11 = x)
    (h33 : (V main_v33 : FVec Ideal S64 .f32) = hostMean64 x) (h34 : (V main_v34 : FVec Ideal S64 .f32) = hostVar64 x)
    (h13 : V main_arg13 = g) (h14 : V main_arg14 = b) (h2 : V main_arg2 = n) :
    (StableHlo.after hostE1 V main_v53 : FVec Ideal S2048x64 .f32) = hostSample p (hostBn x g b) n := by
  subst h30 h11 h13 h14 h2
  simp only [hostE1, hostOps2_4, List.take_succ_cons, List.take_zero]
  after_results_simp
  rw [h33, h34]
  rfl

theorem hostE1_arg15 : (StableHlo.after hostE1 V main_arg15 : FVec Ideal S512x64 .f32) = V main_arg15 := by
  simp only [hostE1, hostOps2_4, List.take_succ_cons, List.take_zero]
  after_results

theorem hostE2_v53 : (StableHlo.after hostE2 V main_v53 : FVec Ideal S2048x64 .f32) = V main_v53 := by
  simp only [hostE2, hostOps2_4, List.drop_succ_cons, List.drop_zero]
  after_results

theorem hostE2_v80 (h53 : V main_v53 = z) (h15 : V main_arg15 = a) :
    (StableHlo.after hostE2 V main_v80 : FVec Ideal S2048x512 .f32) = kerPhi z a := by
  subst h53 h15
  simp only [hostE2, hostOps2_4, List.drop_succ_cons, List.drop_zero]
  after_results_simp
  rfl

end Stretches

variable (m : (ℓ : Loc nD τ sig) → Buf (Elt Ideal) ℓ)

/-- The sample: each stretch read at the contents the one before left, its inputs followed through the stretches that do not write them. -/
theorem W7_main_v53 (c : Dev nD) : (W7 m c main_v53 : FVec Ideal S2048x64 .f32)
    = kerZ (W2 m c main_v1) (W0 m c main_arg2) (W0 m c main_arg7) (W0 m c main_arg8) (W0 m c main_arg9) (W0 m c main_arg10)
        (W0 m c main_arg11) (W0 m c main_arg12) (W0 m c main_arg13) (W0 m c main_arg14) := by
  have a := kept_eq m c
  have v6 := hostA_v6 (W2 m c) rfl (a main_arg7 (by decide)).1 (a main_arg8 (by decide)).1
  have v11 := hostA_v11 (W2 m c) rfl (a main_arg9 (by decide)).1 (a main_arg10 (by decide)).1
  have v14 := hostA_v14 (W2 m c) rfl (a main_arg7 (by decide)).1 (a main_arg8 (by decide)).1
  have v15 := hostB_v15 (W3 m c) (hostA_c (W2 m c)) v6
  have v11' := (W4_of m c main_v11 (by decide)).trans v11
  have v30 := hostC_v30 (W4 m c) ((W4_of m c main_v6 (by decide)).trans v6) ((W4_of m c main_v14 (by decide)).trans v14) v15
    (a main_arg11 (by decide)).2.1 (a main_arg12 (by decide)).2.1
  have v33 := hostC_v33 (W4 m c) v11'
  have v11'' := (W5_of m c main_v11 (by decide)).trans v11'
  have v34 := hostD_v34 (W5 m c) (hostC_c4 (W4 m c)) v11''
  show (StableHlo.after hostOps2_4 (W6 m c) main_v53 : FVec Ideal S2048x64 .f32) = _
  rw [hostE_split, hostE2_v53]
  exact hostE1_v53 (W6 m c) ((W6_of m c main_v30 (by decide)).trans v30) ((W6_of m c main_v11 (by decide)).trans v11'')
    ((W6_of m c main_v33 (by decide)).trans v33) v34 (a main_arg13 (by decide)).2.2.1 (a main_arg14 (by decide)).2.2.1
    (a main_arg2 (by decide)).2.2.1

/-- The mixture weights: what the five stretches leave in `main_v80`, as one function of the sample and the centres. -/
theorem W7_main_v80 (c : Dev nD) : (W7 m c main_v80 : FVec Ideal S2048x512 .f32)
    = kerPhi (W7 m c main_v53) (W0 m c main_arg15) := by
  show (StableHlo.after hostOps2_4 (W6 m c) main_v80 : FVec Ideal S2048x512 .f32)
    = kerPhi (StableHlo.after hostOps2_4 (W6 m c) main_v53) _
  rw [hostE_split, hostE2_v53]
  exact hostE2_v80 _ rfl ((hostE1_arg15 (W6 m c)).trans (kept_eq m c main_arg15 (by decide)).2.2.1)

/-- The mixture weights are none of the third region's arrays; the narrowing reads them as the stretches left them. -/
theorem W8_main_v80 (c : Dev nD) : (W8 m c main_v80 : FVec Ideal S2048x512 .f32) = W7 m c main_v80 :=
  W8_of_ne m c main_v80 (by decide)

theorem W9_main_v82 (c : Dev nD) : (W9 m c main_v82 : FVec Ideal S2048x512 .bf16)
    = (truncf .bf16 (W8 m c main_v80 : FVec Ideal S2048x512 .f32) bitsLt_bf16_f32 : FVec Ideal S2048x512 .bf16) := by
  show (StableHlo.after hostOps3 (W8 m c) main_v82 : FVec Ideal S2048x512 .bf16) = _
  simp only [hostOps3]
  after_results

end Cert.KernelIdeal.Hand

end
-- ==== Proof.HostMatch.lean ====
import proofs.«167389_j35253091565659_2_alg».proof.Proof.RefStages
import proofs.«167389_j35253091565659_2_alg».proof.Proof.KIHostDefs

noncomputable section

namespace Cert.Proof.HostMatch

open Idealize.ShloMosaic Cert.KernelIdeal.Hand Cert.ReferenceIdeal.Hand

/-- The kernel's host chain and the reference's are one function. -/
theorem z_eq (e2 : FVec Ideal Cert.ReferenceIdeal.S2048x1024 .f32) (a2 : FVec Ideal Cert.ReferenceIdeal.S2048x64 .f32) (a7 : FVec Ideal Cert.ReferenceIdeal.S64x1024 .f32) (a8 : FVec Ideal Cert.ReferenceIdeal.S64 .f32) (a9 : FVec Ideal Cert.ReferenceIdeal.S64x1024 .f32) (a10 : FVec Ideal Cert.ReferenceIdeal.S64 .f32) (a11 : FVec Ideal Cert.ReferenceIdeal.S64 .f32) (a12 : FVec Ideal Cert.ReferenceIdeal.S64 .f32) (a13 : FVec Ideal Cert.ReferenceIdeal.S64 .f32) (a14 : FVec Ideal Cert.ReferenceIdeal.S64 .f32) :
    kerZ e2 a2 a7 a8 a9 a10 a11 a12 a13 a14 = res_z e2 a2 a7 a8 a9 a10 a11 a12 a13 a14 :=
  rfl

theorem phi_eq (z : FVec Ideal Cert.ReferenceIdeal.S2048x64 .f32) (a15 : FVec Ideal Cert.ReferenceIdeal.S512x64 .f32) :
    kerPhi z a15 = res_phi z a15 :=
  rfl

end Cert.Proof.HostMatch

end
-- ==== Proof.SpecBridge.lean ====
import proofs.«167389_j35253091565659_2_alg».proof.Proof.Spec

noncomputable section

open scoped BigOperators
open Finset

namespace Cert.Spec

open Idealize.ShloMosaic Idealize.ShloMosaic.ValueIdx

theorem gemmBiasSoftplus_of_entries (M K N : ℕ) (x : (Sh2 M K).Idx → EReal) (w : (Sh2 N K).Idx → EReal)
    (b : (Sh1 N).Idx → EReal) (f dot : (Sh2 M N).Idx → EReal)
    (hdot : ∀ i, dot i = ∑ p : Fin K, x (ix2 (n0 := M) (n1 := K) (i 0) p) * w (ix2 (n0 := N) (n1 := K) (i 1) p))
    (hf : ∀ i, f i = softplus (dot i + b (ix1 (n := N) (i 1)))) :
    f = gemmBiasSoftplus M K N x w b := by
  funext i
  rw [hf i, hdot i]
  rfl

/-- The row maximum folded from `⊥` and joined with `⊥` once more, the shifted exponentials' row sum from zero, the quotient. -/
theorem rowSoftmax_of_entries (R C : ℕ) (x f : (Sh2 R C).Idx → EReal) (Mx Sx : Fin R → EReal)
    (b₁ b₂ z : EReal) (hb₁ : b₁ = ⊥) (hb₂ : b₂ = ⊥) (hz : z = 0)
    (hM : ∀ r, Mx r = max b₁ ((univ : Finset (Fin C)).fold max b₂ (fun c => x (ix2 (n0 := R) (n1 := C) r c))))
    (hS : ∀ r, Sx r = z + ∑ c : Fin C, Ideal.exp (x (ix2 (n0 := R) (n1 := C) r c) - Mx r))
    (hf : ∀ i, f i = Ideal.div (Ideal.exp (x i - Mx (i 0))) (Sx (i 0))) :
    f = rowSoftmax R C x := by
  have hM' : ∀ r, Mx r = rowMax R C x r := fun r => by rw [hM r, hb₁, hb₂]; exact max_eq_right bot_le
  funext i
  rw [hf i, hS (i 0), hM' (i 0), hz, zero_add]
  rfl

theorem matmulRC_of_entries (M K N : ℕ) (a : (Sh2 M K).Idx → EReal) (b : (Sh2 K N).Idx → EReal)
    (f : (Sh2 M N).Idx → EReal)
    (hf : ∀ i, f i = ∑ k : Fin K, a (ix2 (n0 := M) (n1 := K) (i 0) k) * b (ix2 (n0 := K) (n1 := N) k (i 1))) :
    f = matmulRC M K N a b := funext hf

theorem logits_of_entries (mu : (Sh2 512 300).Idx → EReal) (emb : (Sh2 30000 300).Idx → EReal)
    (f : (Sh2 512 30000).Idx → EReal)
    (hf : ∀ i, f i = ∑ k : Fin 300, mu (ix2 (n0 := 512) (n1 := 300) (i 0) k) * emb (ix2 (n0 := 30000) (n1 := 300) (i 1) k)) :
    f = logits mu emb := funext hf

end Cert.Spec
-- ==== Proof.RefRead.lean ====
import proofs.«167389_j35253091565659_2_alg».proof.Proof.RefStages
import proofs.«167389_j35253091565659_2_alg».proof.Proof.Spec
import proofs.«167389_j35253091565659_2_alg».proof.Proof.SpecConst
import proofs.«167389_j35253091565659_2_alg».proof.Proof.SpecBridge
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.Hand

open Cert.ReferenceIdeal Cert.ReferenceIdeal.Gen Idealize.ShloMosaic Idealize.ShloMosaic.ValueIdx
open scoped BigOperators

section Dot

variable {M K N : ℕ} (d : DotDims ⟨2, ![M, K]⟩ ⟨2, ![K, N]⟩ ⟨2, ![M, N]⟩)

/-- Dimension numbers contracting the left operand's columns against the right operand's rows, with no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem IsPlain.rank_contr (h : IsPlain d) : d.contr.rank = 1 := by
  rw [d.rank_contr, h.lc]; rfl

/-- The contracted extent is `K`; off the contracted axis the operands are read at the result's row and column. -/
theorem IsPlain.read (h : IsPlain d) :
    d.contr.size ⟨0, by rw [h.rank_contr]; exact Nat.one_pos⟩ = K
      ∧ ∀ (j : (⟨2, ![M, N]⟩ : Shape).Idx) (k : d.contr.Idx), (d.lhsIdx j k 0 : ℕ) = j 0 ∧ (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  exact ⟨rfl, fun j k => ⟨by simp [DotDims.lhsIdx]; rfl, by simp [DotDims.rhsIdx]; rfl⟩⟩

def IsPlain.contrFin (h : IsPlain d) : d.contr.Idx ≃ Fin K := contrEquiv1 d K h.rank_contr h.read.1

theorem IsPlain.lhsIdx_eq (h : IsPlain d) (j : (⟨2, ![M, N]⟩ : Shape).Idx) (k : d.contr.Idx) :
    d.lhsIdx j k = ix2 (n0 := M) (n1 := K) (j 0) (h.contrFin k) := by
  funext a
  apply Fin.ext
  match a with
  | ⟨0, _⟩ => exact (h.read.2 j k).1
  | ⟨1, _⟩ => exact d.lhsIdx_val_of_single h.lc j k

theorem IsPlain.rhsIdx_eq (h : IsPlain d) (j : (⟨2, ![M, N]⟩ : Shape).Idx) (k : d.contr.Idx) :
    d.rhsIdx j k = ix2 (n0 := K) (n1 := N) (h.contrFin k) (j 1) := by
  funext a
  apply Fin.ext
  match a with
  | ⟨0, _⟩ => exact d.rhsIdx_val_of_single h.rc j k
  | ⟨1, _⟩ => exact (h.read.2 j k).2

theorem IsPlain.dotGeneral_apply (h : IsPlain d) (a : FVec Ideal ⟨2, ![M, K]⟩ .f32) (b : FVec Ideal ⟨2, ![K, N]⟩ .f32)
    (j : (⟨2, ![M, N]⟩ : Shape).Idx) :
    Host.dotGeneral (F := Ideal) d none a b j
      = ∑ p : Fin K, a (ix2 (n0 := M) (n1 := K) (j 0) p) * b (ix2 (n0 := K) (n1 := N) p (j 1)) := by
  simp only [Host.dotGeneral]
  rw [Ideal.dotGeneral_apply,
    ← Equiv.sum_comp h.contrFin (fun p => a (ix2 (n0 := M) (n1 := K) (j 0) p) * b (ix2 (n0 := K) (n1 := N) p (j 1)))]
  exact Finset.sum_congr rfl fun k _ => by rw [h.lhsIdx_eq, h.rhsIdx_eq]

/-- Against a transposed right operand: `∑ₚ a[j 0, p] · w[j 1, p]`. -/
theorem IsPlain.dotT_apply (h : IsPlain d) (a : FVec Ideal ⟨2, ![M, K]⟩ .f32) (w : FVec Ideal ⟨2, ![N, K]⟩ .f32)
    (ht : (⟨2, ![N, K]⟩ : Shape).Transposes [1, 0] ⟨2, ![K, N]⟩) (j : (⟨2, ![M, N]⟩ : Shape).Idx) :
    Host.dotGeneral (F := Ideal) d none a (transpose ⟨2, ![K, N]⟩ [1, 0] w ht) j
      = ∑ p : Fin K, a (ix2 (n0 := M) (n1 := K) (j 0) p) * w (ix2 (n0 := N) (n1 := K) (j 1) p) := by
  rw [h.dotGeneral_apply]
  exact Finset.sum_congr rfl fun p _ =>
    congrArg (a (ix2 (n0 := M) (n1 := K) (j 0) p) * ·) (transpose_ix2_apply w ht p (j 1))

end Dot

theorem plain_D1 : IsPlain dot_S2048x30000_S30000x1024_S2048x1024_1_0_0_1_n_n := ⟨rfl, rfl, rfl, rfl, rfl, rfl⟩
theorem plain_D2 : IsPlain dot_S2048x1024_S1024x1024_S2048x1024_1_0_0_1_n_n := ⟨rfl, rfl, rfl, rfl, rfl, rfl⟩
theorem plain_DL : IsPlain dot_S512x300_S300x30000_S512x30000_1_0_0_1_n_n := ⟨rfl, rfl, rfl, rfl, rfl, rfl⟩
theorem plain_DR : IsPlain dot_S2048x512_S512x30000_S2048x30000_1_0_0_1_n_n := ⟨rfl, rfl, rfl, rfl, rfl, rfl⟩

theorem hostSoftplus_apply (y : FVec Ideal S2048x1024 .f32) (i : S2048x1024.Idx) :
    hostSoftplus y i = Cert.Spec.softplus (y i) := by
  unfold hostSoftplus
  exact Cert.Spec.softplus_host_ops (y i) _
    (by rw [broadcastInDim_scalar_apply, constant_apply, Ideal.ofBits_zero_f32])

theorem biasRow1024_apply (b : FVec Ideal S1024 .f32) (i : S2048x1024.Idx) :
    broadcastInDim S2048x1024 ![0, 1] bcast_S1x1024_S2048x1024_0_1 (broadcastInDim S1x1024 ![1] bcast_S1024_S1x1024_1 b) i
      = b (ix1 (n := 1024) (i 1)) := by
  rw [broadcastInDim_apply _ _ _ i (ix2 (n0 := 1) (n1 := 1024) 0 (i 1))
    (fun a => match a with | ⟨0, _⟩ => rfl | ⟨1, _⟩ => rfl)]
  exact broadcastInDim_apply _ _ _ _ (ix1 (n := 1024) (i 1)) (fun a => match a with | ⟨0, _⟩ => rfl)

/-- A dense layer is `softplus (x · wᵀ + b)`, whatever the contracted extent. -/
theorem dense_eq {K : ℕ} {d : DotDims ⟨2, ![2048, K]⟩ ⟨2, ![K, 1024]⟩ ⟨2, ![2048, 1024]⟩} (hd : IsPlain d)
    (x : FVec Ideal ⟨2, ![2048, K]⟩ .f32) (w : FVec Ideal ⟨2, ![1024, K]⟩ .f32) (b : FVec Ideal S1024 .f32)
    (ht : (⟨2, ![1024, K]⟩ : Shape).Transposes [1, 0] ⟨2, ![K, 1024]⟩) :
    hostSoftplus (addf (Host.dotGeneral (F := Ideal) d none x (transpose ⟨2, ![K, 1024]⟩ [1, 0] w ht))
        (broadcastInDim S2048x1024 ![0, 1] bcast_S1x1024_S2048x1024_0_1 (broadcastInDim S1x1024 ![1] bcast_S1024_S1x1024_1 b)))
      = Cert.Spec.gemmBiasSoftplus 2048 K 1024 x w b := by
  refine Cert.Spec.gemmBiasSoftplus_of_entries 2048 K 1024 x w b _ _ (hd.dotT_apply x w ht) (fun i => ?_)
  rw [hostSoftplus_apply, addf_apply, biasRow1024_apply]

theorem res_en1_eq (a0 : FVec Ideal S2048x30000 .f32) (a3 : FVec Ideal S1024x30000 .f32) (a4 : FVec Ideal S1024 .f32) :
    res_en1 a0 a3 a4 = Cert.Spec.gemmBiasSoftplus 2048 30000 1024 a0 a3 a4 :=
  dense_eq plain_D1 a0 a3 a4 _

theorem res_en2_eq (e1 : FVec Ideal S2048x1024 .f32) (a5 : FVec Ideal S1024x1024 .f32) (a6 : FVec Ideal S1024 .f32) :
    res_en2 e1 a5 a6 = Cert.Spec.gemmBiasSoftplus 2048 1024 1024 e1 a5 a6 :=
  dense_eq plain_D2 e1 a5 a6 _

theorem reduces_S512x30000_S512_d1 : S512x30000.Reduces [1] S512 := by decide

theorem lift_row (r : Fin 512) (c : Fin 30000) :
    reduces_S512x30000_S512_d1.lift (ix1 (n := 512) r) c = ix2 (n0 := 512) (n1 := 30000) r c := by
  funext a
  apply Fin.ext
  match a with
  | ⟨0, _⟩ => rfl
  | ⟨1, _⟩ => rfl

theorem col512_apply (m : FVec Ideal S512 .f32) (i : S512x30000.Idx) :
    broadcastInDim S512x30000 ![0, 1] bcast_S512x1_S512x30000_0_1 (broadcastInDim S512x1 ![0] bcast_S512_S512x1_0 m) i
      = m (ix1 (n := 512) (i 0)) := by
  rw [broadcastInDim_apply _ _ _ i (ix2 (n0 := 512) (n1 := 1) (i 0) 0)
    (fun a => match a with | ⟨0, _⟩ => rfl | ⟨1, _⟩ => rfl)]
  exact broadcastInDim_apply _ _ _ _ (ix1 (n := 512) (i 0)) (fun a => match a with | ⟨0, _⟩ => rfl)

theorem hostRowMaxBeta_apply (l : FVec Ideal S512x30000 .f32) (r : Fin 512) :
    hostRowMaxBeta l (ix1 (n := 512) r)
      = max (Ideal.ofBits .f32 0xFF800000#32)
          ((Finset.univ : Finset (Fin 30000)).fold max (Ideal.ofBits .f32 0xFF800000#32)
            (fun c => l (ix2 (n0 := 512) (n1 := 30000) r c))) := by
  unfold hostRowMaxBeta
  rw [maximumf_apply, broadcastInDim_scalar_apply, constant_apply,
    Host.reduce_eq_fold_single FloatOps.maximumf l _ reducesTo_S512x30000_S512_d1 reduces_S512x30000_S512_d1 h_S_]
  congr 2
  funext c
  exact congrArg l (lift_row r c)

theorem hostExpBeta_apply (l : FVec Ideal S512x30000 .f32) (i : S512x30000.Idx) :
    hostExpBeta l i = Ideal.exp (l i - hostRowMaxBeta l (ix1 (n := 512) (i 0))) := by
  unfold hostExpBeta
  show FloatOps.hostUnary .exp (FloatOps.subf (l i) _) = _
  rw [col512_apply]
  rfl

theorem hostSumBeta_apply (l : FVec Ideal S512x30000 .f32) (r : Fin 512) :
    Host.reduceAdd (F := Ideal) (hostExpBeta l) (constant (F := Ideal) S_ .f32 0x00000000#32)
        reducesTo_S512x30000_S512_d1 h_S_ (ix1 (n := 512) r)
      = Ideal.ofBits .f32 0x00000000#32
        + ∑ c : Fin 30000, Ideal.exp (l (ix2 (n0 := 512) (n1 := 30000) r c) - hostRowMaxBeta l (ix1 (n := 512) r)) := by
  rw [hostReduceAdd_apply, Ideal.hostReduceAdd_single reducesTo_S512x30000_S512_d1 reduces_S512x30000_S512_d1]
  refine congrArg (Ideal.ofBits .f32 0x00000000#32 + ·) (Finset.sum_congr rfl fun c _ => ?_)
  exact (congrArg (hostExpBeta l) (lift_row r c)).trans (hostExpBeta_apply l (ix2 (n0 := 512) (n1 := 30000) r c))

theorem hostSoftmaxBeta_eq (l : FVec Ideal S512x30000 .f32) :
    hostSoftmaxBeta l = Cert.Spec.rowSoftmax 512 30000 l := by
  refine Cert.Spec.rowSoftmax_of_entries 512 30000 l _ _ _ _ _ _
    Cert.Spec.ofBits_neg_inf Cert.Spec.ofBits_neg_inf Ideal.ofBits_zero_f32
    (hostRowMaxBeta_apply l) (hostSumBeta_apply l) (fun i => ?_)
  unfold hostSoftmaxBeta
  show FloatOps.hostDivf (hostExpBeta l i) _ = _
  rw [col512_apply, hostExpBeta_apply]
  rfl

theorem res_beta_eq (a16 : FVec Ideal S512x300 .f32) (a17 : FVec Ideal S30000x300 .f32) :
    res_beta a16 a17 = Cert.Spec.rowSoftmax 512 30000 (Cert.Spec.logits a16 a17) := by
  unfold res_beta
  rw [hostSoftmaxBeta_eq,
    Cert.Spec.logits_of_entries a16 a17 (hostLogits a16 a17) fun i => plain_DL.dotT_apply a16 a17 _ i]

theorem res_recon_eq (phi : FVec Ideal S2048x512 .f32) (beta : FVec Ideal S512x30000 .f32) :
    res_recon phi beta = Cert.Spec.matmulRC 2048 512 30000 phi beta :=
  Cert.Spec.matmulRC_of_entries 2048 512 30000 phi beta _ (plain_DR.dotGeneral_apply phi beta)

end Cert.ReferenceIdeal.Hand
-- ==== Proof.PreFinite.lean ====
import proofs.«167389_j35253091565659_2_alg».proof.Pre_finite_inputs
import proofs.«167389_j35253091565659_2_alg».proof.Proof.Gen.Pre_finite_inputs
import Idealize.ShloMosaic.Lib.ReduceAll
import Idealize.ShloMosaic.PureOps.Ideal

noncomputable section

namespace Cert.Pre_finite_inputs.Hand

open Cert.Pre_finite_inputs Cert.Pre_finite_inputs.Gen
open Idealize.ShloMosaic

instance : Subsingleton S_.Idx := ⟨fun a b => funext fun d => d.elim0⟩

/-- `|x| < +∞` fails at both infinities, so it leaves the reals. -/
theorem real_of_abs_lt_inf (x : EReal) (h : Ideal.cmp .olt (max x (-x)) (Ideal.ofBits .f32 0x7F800000#32) = 1#1) :
    ∃ r : ℝ, x = r := by
  have e : Ideal.ofBits .f32 0x7F800000#32 = ⊤ := by simp [Ideal.ofBits, Ideal.ieee]
  rw [e] at h
  induction x using EReal.rec with
  | coe r => exact ⟨r, rfl⟩
  | _ => simp [Ideal.cmp] at h

theorem real_of_all {s : Shape} {axes : List (Fin s.rank)} {a : FVec Ideal s .f32} {dims : Fin S_.rank → Fin s.rank}
    {hb : S_.BroadcastsInDim s dims} {hr : s.ReducesTo axes S_} {hu : 0 < S_.numel} {j : S_.Idx}
    (e : Host.reduce IntOp.andi (cmpf .olt (Host.absf a) (broadcastInDim s dims hb (constant S_ .f32 0x7F800000#32)))
      (constantI S_ 1 1#1) hr hu j = 1#1) (i : s.Idx) : ∃ r : ℝ, a i = r :=
  real_of_abs_lt_inf (a i) (Host.reduce_andi_all _ _ hr hu j e i)

/-- The precondition is a left-nested conjunction, one conjunct an argument array; the last two are the logits' inputs. -/
theorem finite_of_pre {a0 a1 : FVec Ideal S2048x30000 .f32} {a2 : FVec Ideal S2048x64 .f32}
    {a3 : FVec Ideal S1024x30000 .f32} {a4 a6 : FVec Ideal S1024 .f32} {a5 : FVec Ideal S1024x1024 .f32}
    {a7 a9 : FVec Ideal S64x1024 .f32} {a8 a10 a11 a12 a13 a14 : FVec Ideal S64 .f32} {a15 : FVec Ideal S512x64 .f32}
    {a16 : FVec Ideal S512x300 .f32} {a17 : FVec Ideal S30000x300 .f32}
    (h : fn (F := Ideal) a0 a1 a2 a3 a4 a5 a6 a7 a8 a9 a10 a11 a12 a13 a14 a15 a16 a17 = fun _ => 1#1) :
    (∀ i, ∃ r : ℝ, a16 i = r) ∧ ∀ i, ∃ r : ℝ, a17 i = r := by
  have hx := congrFun h fun a => a.elim0
  dsimp only [fn, fn_part1, fn_part2, fn_part3, fn_part4, fn_part5] at hx
  obtain ⟨h, h17⟩ := IntOp.andi_eq_one.1 hx
  exact ⟨real_of_all (IntOp.andi_eq_one.1 h).2, real_of_all h17⟩

end Cert.Pre_finite_inputs.Hand

end
-- ==== Proof.Bridge.lean ====
import proofs.«167389_j35253091565659_2_alg».proof.Defs
import proofs.«167389_j35253091565659_2_alg».proof.Proof.KIResults
import proofs.«167389_j35253091565659_2_alg».proof.Proof.KIValue
import proofs.«167389_j35253091565659_2_alg».proof.Proof.KIHost
import proofs.«167389_j35253091565659_2_alg».proof.Proof.HostMatch
import proofs.«167389_j35253091565659_2_alg».proof.Proof.RefRead
import proofs.«167389_j35253091565659_2_alg».proof.Proof.RefRun
import proofs.«167389_j35253091565659_2_alg».proof.Proof.PreFinite

noncomputable section

namespace Cert.Proof.Bridge

open Idealize.ShloMosaic Idealize.ShloMosaic.TcCoe Idealize.SL.Sem
open Cert.KernelIdeal.Hand Cert.ReferenceIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The claim's hypothesis at core `c`: the two launch memories agree on every argument. -/
def Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

theorem en1_eq (hag : Agree m m' c) :
    (W1 m c Cert.KernelIdeal.main_v0 : FVec Ideal Cert.KernelIdeal.S2048x1024 .f32) = resEn1 m' c := by
  obtain ⟨h0, -, -, h3, h4, -⟩ := hag
  unfold resEn1
  rw [res_en1_eq, h0, h3, h4]
  exact en1K_eq m c

theorem en2_eq (hag : Agree m m' c) :
    (W2 m c Cert.KernelIdeal.main_v1 : FVec Ideal Cert.KernelIdeal.S2048x1024 .f32) = resEn2 m' c := by
  have he1 := en1_eq m m' c hag
  obtain ⟨-, -, -, -, -, h5, h6, -⟩ := hag
  unfold resEn2
  rw [res_en2_eq, ← he1, h5, h6]
  exact en2K_eq m c

theorem z_eq (hag : Agree m m' c) :
    (W10 m c Cert.KernelIdeal.main_v53 : FVec Ideal Cert.KernelIdeal.S2048x64 .f32) = resZ m' c := by
  have he2 := en2_eq m m' c hag
  obtain ⟨-, -, h2, -, -, -, -, h7, h8, h9, h10, h11, h12, h13, h14, -⟩ := hag
  unfold resZ
  rw [← Cert.Proof.HostMatch.z_eq, ← he2, h2, h7, h8, h9, h10, h11, h12, h13, h14]
  exact (W10_main_v53 m c).trans (W7_main_v53 m c)

theorem phi_eq (hag : Agree m m' c) :
    (W10 m c Cert.KernelIdeal.main_v80 : FVec Ideal Cert.KernelIdeal.S2048x512 .f32) = resPhi m' c := by
  unfold resPhi
  rw [← Cert.Proof.HostMatch.phi_eq, ← z_eq m m' c hag, hag.2.2.2.2.2.2.2.2.2.2.2.2.2.2.2.1]
  exact (W10_main_v80 m c).trans ((W7_main_v80 m c).trans (by rw [W10_main_v53 m c]))

/-- Nothing writes the centres, so they end as launched. -/
theorem centres_eq (hag : Agree m m' c) :
    W10 m c (Proc.devRef .tc Cert.KernelIdeal.main_arg15) = m' ((c.tc : Thread Cert.ReferenceIdeal.nD Cert.ReferenceIdeal.τ).loc Cert.ReferenceIdeal.main_arg15) :=
  hag.2.2.2.2.2.2.2.2.2.2.2.2.2.2.2.1 ▸ W10_main_arg15 m c

/-- The narrowed mixture weights carry the mixture weights' values. -/
theorem phiK_eq (hag : Agree m m' c) :
    (phiK m c : Cert.Spec.Sh2 2048 512 |>.Idx → EReal) = (resPhi m' c : Cert.Spec.Sh2 2048 512 |>.Idx → EReal) := by
  funext i
  show (W9 m c Cert.KernelIdeal.main_v82 : FVec Ideal Cert.KernelIdeal.S2048x512 .bf16) i = _
  rw [W9_main_v82 m c]
  show (W8 m c Cert.KernelIdeal.main_v80 : FVec Ideal Cert.KernelIdeal.S2048x512 .f32) i = _
  rw [W8_main_v80 m c, ← W10_main_v80 m c, phi_eq m m' c hag]

/-- The reconstruction: mixture weights times the row softmax of the logits, whose inputs the precondition makes real. -/
theorem recon_eq (hag : Agree m m' c) (hpre : @Cert.Pre_KernelIdeal Cert.Pre_finite_inputs.Gen.facts m) :
    (W10 m c Cert.KernelIdeal.main_v83 : FVec Ideal Cert.KernelIdeal.S2048x30000 .f32) = resRecon m' c := by
  obtain ⟨hmu, hemb⟩ := Cert.Pre_finite_inputs.Hand.finite_of_pre (hpre c)
  unfold resRecon resBeta
  rw [res_recon_eq, res_beta_eq, hag.2.2.2.2.2.2.2.2.2.2.2.2.2.2.2.2.1, hag.2.2.2.2.2.2.2.2.2.2.2.2.2.2.2.2.2,
    ← phiK_eq m m' c hag]
  exact reconK_eq_of_finite m c hmu hemb

end Cert.Proof.Bridge

end
-- ==== Proof.lean ====
import proofs.«167389_j35253091565659_2_alg».proof.Defs
import proofs.«167389_j35253091565659_2_alg».proof.Proof.Gen.Kernel
import proofs.«167389_j35253091565659_2_alg».proof.Proof.Gen.KernelIdeal
import proofs.«167389_j35253091565659_2_alg».proof.Proof.Gen.ReferenceIdeal
import proofs.«167389_j35253091565659_2_alg».proof.Proof.Gen.Pre_finite_inputs
import proofs.«167389_j35253091565659_2_alg».proof.Proof.KLaunch
import proofs.«167389_j35253091565659_2_alg».proof.Proof.KIFrame
import proofs.«167389_j35253091565659_2_alg».proof.Proof.KIResults
import proofs.«167389_j35253091565659_2_alg».proof.Proof.RefRun
import proofs.«167389_j35253091565659_2_alg».proof.Proof.Bridge

set_option maxRecDepth 16384

noncomputable section

namespace Cert.Proof

open Idealize.ShloMosaic Idealize.ShloMosaic.TcCoe Idealize.SL.Sem
open Cert.KernelIdeal.Hand

theorem frame_kernel : @Cert.frame_Kernel Cert.Kernel.Gen.facts Cert.Pre_finite_inputs.Gen.facts :=
  fun m g _ => Cert.Kernel.Hand.frame_kernel (F := Bits) m g

theorem frame_kernelIdeal : @Cert.frame_KernelIdeal Cert.KernelIdeal.Gen.facts Cert.Pre_finite_inputs.Gen.facts :=
  fun m g _ => Cert.KernelIdeal.Hand.frame_ki m g

theorem frame_referenceIdeal : @Cert.frame_ReferenceIdeal Cert.ReferenceIdeal.Gen.facts Cert.Pre_finite_inputs.Gen.facts :=
  fun m g _ => Cert.ReferenceIdeal.Hand.frame_ref m g

/-- Both runs end; on every core each result of the kernel's run is the reference's value of the same arguments. -/
theorem algebraic : @Cert.algebraic_KernelIdeal_ReferenceIdeal Cert.KernelIdeal.Gen.facts Cert.ReferenceIdeal.Gen.facts
    Cert.Pre_finite_inputs.Gen.facts := by
  intro m g m' g' hpre hagree
  refine ⟨fun c => W10 m c (Proc.devRef .tc Cert.KernelIdeal.main_v53), fun c => W10 m c (Proc.devRef .tc Cert.KernelIdeal.main_v83),
    fun c => W10 m c (Proc.devRef .tc Cert.KernelIdeal.main_v53), fun c => W10 m c (Proc.devRef .tc Cert.KernelIdeal.main_arg15),
    fun c => W10 m c (Proc.devRef .tc Cert.KernelIdeal.main_v80), run_results m g, ?_⟩
  refine (θ_run Cert.ReferenceIdeal.defs _ _).mono (fun r h c => ?_) (Cert.ReferenceIdeal.Hand.run m' g')
  obtain ⟨hz, hrec, hphi, ha0, ha1, ha2, ha3, ha4, ha5, ha6, ha7, ha8, ha9, ha10, ha11, ha12, ha13, ha14, ha15, ha16, ha17⟩ := h c
  have hag : Cert.Proof.Bridge.Agree m m' c := hagree c
  exact ⟨hz.trans (Cert.Proof.Bridge.z_eq m m' c hag).symm,
    hrec.trans (Cert.Proof.Bridge.recon_eq m m' c hag hpre).symm,
    hz.trans (Cert.Proof.Bridge.z_eq m m' c hag).symm,
    ha15.trans (Cert.Proof.Bridge.centres_eq m m' c hag).symm,
    hphi.trans (Cert.Proof.Bridge.phi_eq m m' c hag).symm,
    ha0, ha1, ha2, ha3, ha4, ha5, ha6, ha7, ha8, ha9, ha10, ha11, ha12, ha13, ha14, ha15, ha16, ha17⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
